-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 1000000#32
  let main_v6 : IVec S16384x50 32 := broadcastInDim S16384x50 ![] bcast_S_S16384x50 main_c_1
  let main_v7 : IVec S16384x50 1 := cmpi .slt main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S819200 : Shape := ⟨1, ![819200]⟩
abbrev S8x102400 : Shape := ⟨2, ![8, 102400]⟩
abbrev S1x102400 : Shape := ⟨2, ![1, 102400]⟩
abbrev S102400 : Shape := ⟨1, ![102400]⟩
abbrev S102400x64 : Shape := ⟨2, ![102400, 64]⟩
abbrev S8x64 : Shape := ⟨2, ![8, 64]⟩
abbrev S8 : Shape := ⟨1, ![8]⟩
abbrev S1 : Shape := ⟨1, ![1]⟩
abbrev S_ : Shape := ⟨0, ![]⟩
abbrev S1x64 : Shape := ⟨2, ![1, 64]⟩
abbrev S819200x64 : Shape := ⟨2, ![819200, 64]⟩

abbrev nBuf : Space → Nat
  | .hbm => 21
  | .vmem => 16
  | .smem => 8
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S819200, .i32⟩
  | .hbm, ⟨3, _⟩ => ⟨S8x102400, .i32⟩
  | .hbm, ⟨4, _⟩ => ⟨S1x102400, .i32⟩
  | .hbm, ⟨5, _⟩ => ⟨S102400x64, .f32⟩
  | .hbm, ⟨6, _⟩ => ⟨S1x102400, .i32⟩
  | .hbm, ⟨7, _⟩ => ⟨S102400x64, .f32⟩
  | .hbm, ⟨8, _⟩ => ⟨S1x102400, .i32⟩
  | .hbm, ⟨9, _⟩ => ⟨S102400x64, .f32⟩
  | .hbm, ⟨10, _⟩ => ⟨S1x102400, .i32⟩
  | .hbm, ⟨11, _⟩ => ⟨S102400x64, .f32⟩
  | .hbm, ⟨12, _⟩ => ⟨S1x102400, .i32⟩
  | .hbm, ⟨13, _⟩ => ⟨S102400x64, .f32⟩
  | .hbm, ⟨14, _⟩ => ⟨S1x102400, .i32⟩
  | .hbm, ⟨15, _⟩ => ⟨S102400x64, .f32⟩
  | .hbm, ⟨16, _⟩ => ⟨S1x102400, .i32⟩
  | .hbm, ⟨17, _⟩ => ⟨S102400x64, .f32⟩
  | .hbm, ⟨18, _⟩ => ⟨S1x102400, .i32⟩
  | .hbm, ⟨19, _⟩ => ⟨S102400x64, .f32⟩
  | .hbm, ⟨20, _⟩ => ⟨S819200x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S8x64, .f32⟩
  | .local _ .vmem, ⟨15, _⟩ => ⟨S8x64, .f32⟩
  | .local _ .smem, ⟨0, _⟩ => ⟨S102400, .i32⟩
  | .local _ .smem, ⟨1, _⟩ => ⟨S102400, .i32⟩
  | .local _ .smem, ⟨2, _⟩ => ⟨S102400, .i32⟩
  | .local _ .smem, ⟨3, _⟩ => ⟨S102400, .i32⟩
  | .local _ .smem, ⟨4, _⟩ => ⟨S102400, .i32⟩
  | .local _ .smem, ⟨5, _⟩ => ⟨S102400, .i32⟩
  | .local _ .smem, ⟨6, _⟩ => ⟨S102400, .i32⟩
  | .local _ .smem, ⟨7, _⟩ => ⟨S102400, .i32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v4 : Ref sig .tc := ⟨.hbm, 5, rfl⟩
abbrev main_v5 : Ref sig .tc := ⟨.hbm, 6, rfl⟩
abbrev main_v7 : Ref sig .tc := ⟨.hbm, 7, rfl⟩
abbrev main_v8 : Ref sig .tc := ⟨.hbm, 8, rfl⟩
abbrev main_v10 : Ref sig .tc := ⟨.hbm, 9, rfl⟩
abbrev main_v11 : Ref sig .tc := ⟨.hbm, 10, rfl⟩
abbrev main_v13 : Ref sig .tc := ⟨.hbm, 11, rfl⟩
abbrev main_v14 : Ref sig .tc := ⟨.hbm, 12, rfl⟩
abbrev main_v16 : Ref sig .tc := ⟨.hbm, 13, rfl⟩
abbrev main_v17 : Ref sig .tc := ⟨.hbm, 14, rfl⟩
abbrev main_v19 : Ref sig .tc := ⟨.hbm, 15, rfl⟩
abbrev main_v20 : Ref sig .tc := ⟨.hbm, 16, rfl⟩
abbrev main_v22 : Ref sig .tc := ⟨.hbm, 17, rfl⟩
abbrev main_v23 : Ref sig .tc := ⟨.hbm, 18, rfl⟩
abbrev main_v25 : Ref sig .tc := ⟨.hbm, 19, rfl⟩
abbrev main_v26 : Ref sig .tc := ⟨.hbm, 20, rfl⟩
abbrev main_v3 : Ref sig .tc := ⟨.smem, 0, rfl⟩
abbrev main_v6 : Ref sig .tc := ⟨.smem, 1, rfl⟩
abbrev main_v9 : Ref sig .tc := ⟨.smem, 2, rfl⟩
abbrev main_v12 : Ref sig .tc := ⟨.smem, 3, rfl⟩
abbrev main_v15 : Ref sig .tc := ⟨.smem, 4, rfl⟩
abbrev main_v18 : Ref sig .tc := ⟨.smem, 5, rfl⟩
abbrev main_v21 : Ref sig .tc := ⟨.smem, 6, rfl⟩
abbrev main_v24 : Ref sig .tc := ⟨.smem, 7, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc2_stg0_0 : Ref sig .tc := ⟨.vmem, 4, rfl⟩
abbrev cc2_stg0_1 : Ref sig .tc := ⟨.vmem, 5, rfl⟩
abbrev cc3_stg0_0 : Ref sig .tc := ⟨.vmem, 6, rfl⟩
abbrev cc3_stg0_1 : Ref sig .tc := ⟨.vmem, 7, rfl⟩
abbrev cc4_stg0_0 : Ref sig .tc := ⟨.vmem, 8, rfl⟩
abbrev cc4_stg0_1 : Ref sig .tc := ⟨.vmem, 9, rfl⟩
abbrev cc5_stg0_0 : Ref sig .tc := ⟨.vmem, 10, rfl⟩
abbrev cc5_stg0_1 : Ref sig .tc := ⟨.vmem, 11, rfl⟩
abbrev cc6_stg0_0 : Ref sig .tc := ⟨.vmem, 12, rfl⟩
abbrev cc6_stg0_1 : Ref sig .tc := ⟨.vmem, 13, rfl⟩
abbrev cc7_stg0_0 : Ref sig .tc := ⟨.vmem, 14, rfl⟩
abbrev cc7_stg0_1 : Ref sig .tc := ⟨.vmem, 15, rfl⟩
abbrev cc0_sem0_0 : DmaSem sig := 0
abbrev cc0_sem0_1 : DmaSem sig := 1
abbrev cc1_sem0_0 : DmaSem sig := 10
abbrev cc1_sem0_1 : DmaSem sig := 11
abbrev cc2_sem0_0 : DmaSem sig := 20
abbrev cc2_sem0_1 : DmaSem sig := 21
abbrev cc3_sem0_0 : DmaSem sig := 30
abbrev cc3_sem0_1 : DmaSem sig := 31
abbrev cc4_sem0_0 : DmaSem sig := 40
abbrev cc4_sem0_1 : DmaSem sig := 41
abbrev cc5_sem0_0 : DmaSem sig := 50
abbrev cc5_sem0_1 : DmaSem sig := 51
abbrev cc6_sem0_0 : DmaSem sig := 60
abbrev cc6_sem0_1 : DmaSem sig := 61
abbrev cc7_sem0_0 : DmaSem sig := 70
abbrev cc7_sem0_1 : DmaSem sig := 71

abbrev nD : Nat := 1
abbrev τ : Topo := Topo.v7x

variable {F : FTy → Type} [FloatOps F]

abbrev grid0 : Pipeline.Grid := ⟨1, ![12800], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k0_off4 (v11 : BitVec 32) : Fin 2 → Nat :=
  let c0_i32_8 : BitVec 32 := 0#32
  ![v11.toNat, 0]

def k0_off5 (i : grid0.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k0_off6 (v19 : BitVec 32) : Fin 2 → Nat :=
  let c0_i32_13 : BitVec 32 := 0#32
  ![v19.toNat, 0]

def k0_off7 (i : grid0.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k0_off8 (v27 : BitVec 32) : Fin 2 → Nat :=
  let c0_i32_18 : BitVec 32 := 0#32
  ![v27.toNat, 0]

def k0_off9 (i : grid0.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k0_off10 (v35 : BitVec 32) : Fin 2 → Nat :=
  let c0_i32_23 : BitVec 32 := 0#32
  ![v35.toNat, 0]

def k0_off11 (i : grid0.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k0_off12 (v43 : BitVec 32) : Fin 2 → Nat :=
  let c0_i32_28 : BitVec 32 := 0#32
  ![v43.toNat, 0]

def k0_off13 (i : grid0.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k0_off14 (v51 : BitVec 32) : Fin 2 → Nat :=
  let c0_i32_33 : BitVec 32 := 0#32
  ![v51.toNat, 0]

def k0_off15 (i : grid0.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k0_off16 (v59 : BitVec 32) : Fin 2 → Nat :=
  let c0_i32_38 : BitVec 32 := 0#32
  ![v59.toNat, 0]

def k0_chk8 (v59 : BitVec 32) : Prop :=
  (∀ a, (k0_off16 v59) a + S1x64.size a ≤ S1000000x64.size a)
instance k0_chk8.dec : ∀ (v59 : BitVec 32), Decidable (k0_chk8 v59) := fun v59 => decidable_of_iff' _ (Iff.of_eq (k0_chk8.eq_1 v59))
theorem k0_off16_inb : ∀ (v59 : BitVec 32) (k0_hw8 : k0_chk8 v59), ∀ a, (k0_off16 v59) a + S1x64.size a ≤ S1000000x64.size a := fun v59 k0_hw8 => k0_hw8

def k0_off17 (v3 : BitVec 32) : Fin 2 → Nat :=
  let c0_i32_42 : BitVec 32 := 0#32
  ![v3.toNat, 0]

def k0_chk1 (v3 : BitVec 32) : Prop :=
  (∀ a, (k0_off2 v3) a + S1x64.size a ≤ S1000000x64.size a) ∧
  (∀ a, (k0_off17 v3) a + S1x64.size a ≤ S1000000x64.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x64.size a ≤ S1000000x64.size a := fun v3 k0_hw1 => k0_hw1.1
theorem k0_off17_inb : ∀ (v3 : BitVec 32) (k0_hw1 : k0_chk1 v3), ∀ a, (k0_off17 v3) a + S1x64.size a ≤ S1000000x64.size a := fun v3 k0_hw1 => k0_hw1.2

def k0_off18 (v11 : BitVec 32) : Fin 2 → Nat :=
  let c0_i32_46 : BitVec 32 := 0#32
  ![v11.toNat, 0]

def k0_chk2 (v11 : BitVec 32) : Prop :=
  (∀ a, (k0_off4 v11) a + S1x64.size a ≤ S1000000x64.size a) ∧
  (∀ a, (k0_off18 v11) a + S1x64.size a ≤ S1000000x64.size a)
instance k0_chk2.dec : ∀ (v11 : BitVec 32), Decidable (k0_chk2 v11) := fun v11 => decidable_of_iff' _ (Iff.of_eq (k0_chk2.eq_1 v11))
theorem k0_off4_inb : ∀ (v11 : BitVec 32) (k0_hw2 : k0_chk2 v11), ∀ a, (k0_off4 v11) a + S1x64.size a ≤ S1000000x64.size a := fun v11 k0_hw2 => k0_hw2.1
theorem k0_off18_inb : ∀ (v11 : BitVec 32) (k0_hw2 : k0_chk2 v11), ∀ a, (k0_off18 v11) a + S1x64.size a ≤ S1000000x64.size a := fun v11 k0_hw2 => k0_hw2.2

def k0_off19 (v19 : BitVec 32) : Fin 2 → Nat :=
  let c0_i32_50 : BitVec 32 := 0#32
  ![v19.toNat, 0]

def k0_chk3 (v19 : BitVec 32) : Prop :=
  (∀ a, (k0_off6 v19) a + S1x64.size a ≤ S1000000x64.size a) ∧
  (∀ a, (k0_off19 v19) a + S1x64.size a ≤ S1000000x64.size a)
instance k0_chk3.dec : ∀ (v19 : BitVec 32), Decidable (k0_chk3 v19) := fun v19 => decidable_of_iff' _ (Iff.of_eq (k0_chk3.eq_1 v19))
theorem k0_off6_inb : ∀ (v19 : BitVec 32) (k0_hw3 : k0_chk3 v19), ∀ a, (k0_off6 v19) a + S1x64.size a ≤ S1000000x64.size a := fun v19 k0_hw3 => k0_hw3.1
theorem k0_off19_inb : ∀ (v19 : BitVec 32) (k0_hw3 : k0_chk3 v19), ∀ a, (k0_off19 v19) a + S1x64.size a ≤ S1000000x64.size a := fun v19 k0_hw3 => k0_hw3.2

def k0_off20 (v27 : BitVec 32) : Fin 2 → Nat :=
  let c0_i32_54 : BitVec 32 := 0#32
  ![v27.toNat, 0]

def k0_chk4 (v27 : BitVec 32) : Prop :=
  (∀ a, (k0_off8 v27) a + S1x64.size a ≤ S1000000x64.size a) ∧
  (∀ a, (k0_off20 v27) a + S1x64.size a ≤ S1000000x64.size a)
instance k0_chk4.dec : ∀ (v27 : BitVec 32), Decidable (k0_chk4 v27) := fun v27 => decidable_of_iff' _ (Iff.of_eq (k0_chk4.eq_1 v27))
theorem k0_off8_inb : ∀ (v27 : BitVec 32) (k0_hw4 : k0_chk4 v27), ∀ a, (k0_off8 v27) a + S1x64.size a ≤ S1000000x64.size a := fun v27 k0_hw4 => k0_hw4.1
theorem k0_off20_inb : ∀ (v27 : BitVec 32) (k0_hw4 : k0_chk4 v27), ∀ a, (k0_off20 v27) a + S1x64.size a ≤ S1000000x64.size a := fun v27 k0_hw4 => k0_hw4.2

def k0_off21 (v35 : BitVec 32) : Fin 2 → Nat :=
  let c0_i32_58 : BitVec 32 := 0#32
  ![v35.toNat, 0]

def k0_chk5 (v35 : BitVec 32) : Prop :=
  (∀ a, (k0_off10 v35) a + S1x64.size a ≤ S1000000x64.size a) ∧
  (∀ a, (k0_off21 v35) a + S1x64.size a ≤ S1000000x64.size a)
instance k0_chk5.dec : ∀ (v35 : BitVec 32), Decidable (k0_chk5 v35) := fun v35 => decidable_of_iff' _ (Iff.of_eq (k0_chk5.eq_1 v35))
theorem k0_off10_inb : ∀ (v35 : BitVec 32) (k0_hw5 : k0_chk5 v35), ∀ a, (k0_off10 v35) a + S1x64.size a ≤ S1000000x64.size a := fun v35 k0_hw5 => k0_hw5.1
theorem k0_off21_inb : ∀ (v35 : BitVec 32) (k0_hw5 : k0_chk5 v35), ∀ a, (k0_off21 v35) a + S1x64.size a ≤ S1000000x64.size a := fun v35 k0_hw5 => k0_hw5.2

def k0_off22 (v43 : BitVec 32) : Fin 2 → Nat :=
  let c0_i32_62 : BitVec 32 := 0#32
  ![v43.toNat, 0]

def k0_chk6 (v43 : BitVec 32) : Prop :=
  (∀ a, (k0_off12 v43) a + S1x64.size a ≤ S1000000x64.size a) ∧
  (∀ a, (k0_off22 v43) a + S1x64.size a ≤ S1000000x64.size a)
instance k0_chk6.dec : ∀ (v43 : BitVec 32), Decidable (k0_chk6 v43) := fun v43 => decidable_of_iff' _ (Iff.of_eq (k0_chk6.eq_1 v43))
theorem k0_off12_inb : ∀ (v43 : BitVec 32) (k0_hw6 : k0_chk6 v43), ∀ a, (k0_off12 v43) a + S1x64.size a ≤ S1000000x64.size a := fun v43 k0_hw6 => k0_hw6.1
theorem k0_off22_inb : ∀ (v43 : BitVec 32) (k0_hw6 : k0_chk6 v43), ∀ a, (k0_off22 v43) a + S1x64.size a ≤ S1000000x64.size a := fun v43 k0_hw6 => k0_hw6.2

def k0_off23 (v51 : BitVec 32) : Fin 2 → Nat :=
  let c0_i32_66 : BitVec 32 := 0#32
  ![v51.toNat, 0]

def k0_chk7 (v51 : BitVec 32) : Prop :=
  (∀ a, (k0_off14 v51) a + S1x64.size a ≤ S1000000x64.size a) ∧
  (∀ a, (k0_off23 v51) a + S1x64.size a ≤ S1000000x64.size a)
instance k0_chk7.dec : ∀ (v51 : BitVec 32), Decidable (k0_chk7 v51) := fun v51 => decidable_of_iff' _ (Iff.of_eq (k0_chk7.eq_1 v51))
theorem k0_off14_inb : ∀ (v51 : BitVec 32) (k0_hw7 : k0_chk7 v51), ∀ a, (k0_off14 v51) a + S1x64.size a ≤ S1000000x64.size a := fun v51 k0_hw7 => k0_hw7.1
theorem k0_off23_inb : ∀ (v51 : BitVec 32) (k0_hw7 : k0_chk7 v51), ∀ a, (k0_off23 v51) a + S1x64.size a ≤ S1000000x64.size a := fun v51 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![12800], ![false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k1_off4 (v11 : BitVec 32) : Fin 2 → Nat :=
  let c0_i32_8 : BitVec 32 := 0#32
  ![v11.toNat, 0]

def k1_off5 (i : grid1.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k1_off6 (v19 : BitVec 32) : Fin 2 → Nat :=
  let c0_i32_13 : BitVec 32 := 0#32
  ![v19.toNat, 0]

def k1_off7 (i : grid1.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k1_off8 (v27 : BitVec 32) : Fin 2 → Nat :=
  let c0_i32_18 : BitVec 32 := 0#32
  ![v27.toNat, 0]

def k1_off9 (i : grid1.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k1_off10 (v35 : BitVec 32) : Fin 2 → Nat :=
  let c0_i32_23 : BitVec 32 := 0#32
  ![v35.toNat, 0]

def k1_off11 (i : grid1.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k1_off12 (v43 : BitVec 32) : Fin 2 → Nat :=
  let c0_i32_28 : BitVec 32 := 0#32
  ![v43.toNat, 0]

def k1_off13 (i : grid1.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k1_off14 (v51 : BitVec 32) : Fin 2 → Nat :=
  let c0_i32_33 : BitVec 32 := 0#32
  ![v51.toNat, 0]

def k1_off15 (i : grid1.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k1_off16 (v59 : BitVec 32) : Fin 2 → Nat :=
  let c0_i32_38 : BitVec 32 := 0#32
  ![v59.toNat, 0]

def k1_chk8 (v59 : BitVec 32) : Prop :=
  (∀ a, (k1_off16 v59) a + S1x64.size a ≤ S1000000x64.size a)
instance k1_chk8.dec : ∀ (v59 : BitVec 32), Decidable (k1_chk8 v59) := fun v59 => decidable_of_iff' _ (Iff.of_eq (k1_chk8.eq_1 v59))
theorem k1_off16_inb : ∀ (v59 : BitVec 32) (k1_hw8 : k1_chk8 v59), ∀ a, (k1_off16 v59) a + S1x64.size a ≤ S1000000x64.size a := fun v59 k1_hw8 => k1_hw8

def k1_off17 (v3 : BitVec 32) : Fin 2 → Nat :=
  let c0_i32_42 : BitVec 32 := 0#32
  ![v3.toNat, 0]

def k1_chk1 (v3 : BitVec 32) : Prop :=
  (∀ a, (k1_off2 v3) a + S1x64.size a ≤ S1000000x64.size a) ∧
  (∀ a, (k1_off17 v3) a + S1x64.size a ≤ S1000000x64.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x64.size a ≤ S1000000x64.size a := fun v3 k1_hw1 => k1_hw1.1
theorem k1_off17_inb : ∀ (v3 : BitVec 32) (k1_hw1 : k1_chk1 v3), ∀ a, (k1_off17 v3) a + S1x64.size a ≤ S1000000x64.size a := fun v3 k1_hw1 => k1_hw1.2

def k1_off18 (v11 : BitVec 32) : Fin 2 → Nat :=
  let c0_i32_46 : BitVec 32 := 0#32
  ![v11.toNat, 0]

def k1_chk2 (v11 : BitVec 32) : Prop :=
  (∀ a, (k1_off4 v11) a + S1x64.size a ≤ S1000000x64.size a) ∧
  (∀ a, (k1_off18 v11) a + S1x64.size a ≤ S1000000x64.size a)
instance k1_chk2.dec : ∀ (v11 : BitVec 32), Decidable (k1_chk2 v11) := fun v11 => decidable_of_iff' _ (Iff.of_eq (k1_chk2.eq_1 v11))
theorem k1_off4_inb : ∀ (v11 : BitVec 32) (k1_hw2 : k1_chk2 v11), ∀ a, (k1_off4 v11) a + S1x64.size a ≤ S1000000x64.size a := fun v11 k1_hw2 => k1_hw2.1
theorem k1_off18_inb : ∀ (v11 : BitVec 32) (k1_hw2 : k1_chk2 v11), ∀ a, (k1_off18 v11) a + S1x64.size a ≤ S1000000x64.size a := fun v11 k1_hw2 => k1_hw2.2

def k1_off19 (v19 : BitVec 32) : Fin 2 → Nat :=
  let c0_i32_50 : BitVec 32 := 0#32
  ![v19.toNat, 0]

def k1_chk3 (v19 : BitVec 32) : Prop :=
  (∀ a, (k1_off6 v19) a + S1x64.size a ≤ S1000000x64.size a) ∧
  (∀ a, (k1_off19 v19) a + S1x64.size a ≤ S1000000x64.size a)
instance k1_chk3.dec : ∀ (v19 : BitVec 32), Decidable (k1_chk3 v19) := fun v19 => decidable_of_iff' _ (Iff.of_eq (k1_chk3.eq_1 v19))
theorem k1_off6_inb : ∀ (v19 : BitVec 32) (k1_hw3 : k1_chk3 v19), ∀ a, (k1_off6 v19) a + S1x64.size a ≤ S1000000x64.size a := fun v19 k1_hw3 => k1_hw3.1
theorem k1_off19_inb : ∀ (v19 : BitVec 32) (k1_hw3 : k1_chk3 v19), ∀ a, (k1_off19 v19) a + S1x64.size a ≤ S1000000x64.size a := fun v19 k1_hw3 => k1_hw3.2

def k1_off20 (v27 : BitVec 32) : Fin 2 → Nat :=
  let c0_i32_54 : BitVec 32 := 0#32
  ![v27.toNat, 0]

def k1_chk4 (v27 : BitVec 32) : Prop :=
  (∀ a, (k1_off8 v27) a + S1x64.size a ≤ S1000000x64.size a) ∧
  (∀ a, (k1_off20 v27) a + S1x64.size a ≤ S1000000x64.size a)
instance k1_chk4.dec : ∀ (v27 : BitVec 32), Decidable (k1_chk4 v27) := fun v27 => decidable_of_iff' _ (Iff.of_eq (k1_chk4.eq_1 v27))
theorem k1_off8_inb : ∀ (v27 : BitVec 32) (k1_hw4 : k1_chk4 v27), ∀ a, (k1_off8 v27) a + S1x64.size a ≤ S1000000x64.size a := fun v27 k1_hw4 => k1_hw4.1
theorem k1_off20_inb : ∀ (v27 : BitVec 32) (k1_hw4 : k1_chk4 v27), ∀ a, (k1_off20 v27) a + S1x64.size a ≤ S1000000x64.size a := fun v27 k1_hw4 => k1_hw4.2

def k1_off21 (v35 : BitVec 32) : Fin 2 → Nat :=
  let c0_i32_58 : BitVec 32 := 0#32
  ![v35.toNat, 0]

def k1_chk5 (v35 : BitVec 32) : Prop :=
  (∀ a, (k1_off10 v35) a + S1x64.size a ≤ S1000000x64.size a) ∧
  (∀ a, (k1_off21 v35) a + S1x64.size a ≤ S1000000x64.size a)
instance k1_chk5.dec : ∀ (v35 : BitVec 32), Decidable (k1_chk5 v35) := fun v35 => decidable_of_iff' _ (Iff.of_eq (k1_chk5.eq_1 v35))
theorem k1_off10_inb : ∀ (v35 : BitVec 32) (k1_hw5 : k1_chk5 v35), ∀ a, (k1_off10 v35) a + S1x64.size a ≤ S1000000x64.size a := fun v35 k1_hw5 => k1_hw5.1
theorem k1_off21_inb : ∀ (v35 : BitVec 32) (k1_hw5 : k1_chk5 v35), ∀ a, (k1_off21 v35) a + S1x64.size a ≤ S1000000x64.size a := fun v35 k1_hw5 => k1_hw5.2

def k1_off22 (v43 : BitVec 32) : Fin 2 → Nat :=
  let c0_i32_62 : BitVec 32 := 0#32
  ![v43.toNat, 0]

def k1_chk6 (v43 : BitVec 32) : Prop :=
  (∀ a, (k1_off12 v43) a + S1x64.size a ≤ S1000000x64.size a) ∧
  (∀ a, (k1_off22 v43) a + S1x64.size a ≤ S1000000x64.size a)
instance k1_chk6.dec : ∀ (v43 : BitVec 32), Decidable (k1_chk6 v43) := fun v43 => decidable_of_iff' _ (Iff.of_eq (k1_chk6.eq_1 v43))
theorem k1_off12_inb : ∀ (v43 : BitVec 32) (k1_hw6 : k1_chk6 v43), ∀ a, (k1_off12 v43) a + S1x64.size a ≤ S1000000x64.size a := fun v43 k1_hw6 => k1_hw6.1
theorem k1_off22_inb : ∀ (v43 : BitVec 32) (k1_hw6 : k1_chk6 v43), ∀ a, (k1_off22 v43) a + S1x64.size a ≤ S1000000x64.size a := fun v43 k1_hw6 => k1_hw6.2

def k1_off23 (v51 : BitVec 32) : Fin 2 → Nat :=
  let c0_i32_66 : BitVec 32 := 0#32
  ![v51.toNat, 0]

def k1_chk7 (v51 : BitVec 32) : Prop :=
  (∀ a, (k1_off14 v51) a + S1x64.size a ≤ S1000000x64.size a) ∧
  (∀ a, (k1_off23 v51) a + S1x64.size a ≤ S1000000x64.size a)
instance k1_chk7.dec : ∀ (v51 : BitVec 32), Decidable (k1_chk7 v51) := fun v51 => decidable_of_iff' _ (Iff.of_eq (k1_chk7.eq_1 v51))
theorem k1_off14_inb : ∀ (v51 : BitVec 32) (k1_hw7 : k1_chk7 v51), ∀ a, (k1_off14 v51) a + S1x64.size a ≤ S1000000x64.size a := fun v51 k1_hw7 => k1_hw7.1
theorem k1_off23_inb : ∀ (v51 : BitVec 32) (k1_hw7 : k1_chk7 v51), ∀ a, (k1_off23 v51) a + S1x64.size a ≤ S1000000x64.size a := fun v51 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![12800], ![false]⟩

abbrev pre2 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k2_off4 (v11 : BitVec 32) : Fin 2 → Nat :=
  let c0_i32_8 : BitVec 32 := 0#32
  ![v11.toNat, 0]

def k2_off5 (i : grid2.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k2_off6 (v19 : BitVec 32) : Fin 2 → Nat :=
  let c0_i32_13 : BitVec 32 := 0#32
  ![v19.toNat, 0]

def k2_off7 (i : grid2.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k2_off8 (v27 : BitVec 32) : Fin 2 → Nat :=
  let c0_i32_18 : BitVec 32 := 0#32
  ![v27.toNat, 0]

def k2_off9 (i : grid2.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k2_off10 (v35 : BitVec 32) : Fin 2 → Nat :=
  let c0_i32_23 : BitVec 32 := 0#32
  ![v35.toNat, 0]

def k2_off11 (i : grid2.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k2_off12 (v43 : BitVec 32) : Fin 2 → Nat :=
  let c0_i32_28 : BitVec 32 := 0#32
  ![v43.toNat, 0]

def k2_off13 (i : grid2.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k2_off14 (v51 : BitVec 32) : Fin 2 → Nat :=
  let c0_i32_33 : BitVec 32 := 0#32
  ![v51.toNat, 0]

def k2_off15 (i : grid2.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k2_off16 (v59 : BitVec 32) : Fin 2 → Nat :=
  let c0_i32_38 : BitVec 32 := 0#32
  ![v59.toNat, 0]

def k2_chk8 (v59 : BitVec 32) : Prop :=
  (∀ a, (k2_off16 v59) a + S1x64.size a ≤ S1000000x64.size a)
instance k2_chk8.dec : ∀ (v59 : BitVec 32), Decidable (k2_chk8 v59) := fun v59 => decidable_of_iff' _ (Iff.of_eq (k2_chk8.eq_1 v59))
theorem k2_off16_inb : ∀ (v59 : BitVec 32) (k2_hw8 : k2_chk8 v59), ∀ a, (k2_off16 v59) a + S1x64.size a ≤ S1000000x64.size a := fun v59 k2_hw8 => k2_hw8

def k2_off17 (v3 : BitVec 32) : Fin 2 → Nat :=
  let c0_i32_42 : BitVec 32 := 0#32
  ![v3.toNat, 0]

def k2_chk1 (v3 : BitVec 32) : Prop :=
  (∀ a, (k2_off2 v3) a + S1x64.size a ≤ S1000000x64.size a) ∧
  (∀ a, (k2_off17 v3) a + S1x64.size a ≤ S1000000x64.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x64.size a ≤ S1000000x64.size a := fun v3 k2_hw1 => k2_hw1.1
theorem k2_off17_inb : ∀ (v3 : BitVec 32) (k2_hw1 : k2_chk1 v3), ∀ a, (k2_off17 v3) a + S1x64.size a ≤ S1000000x64.size a := fun v3 k2_hw1 => k2_hw1.2

def k2_off18 (v11 : BitVec 32) : Fin 2 → Nat :=
  let c0_i32_46 : BitVec 32 := 0#32
  ![v11.toNat, 0]

def k2_chk2 (v11 : BitVec 32) : Prop :=
  (∀ a, (k2_off4 v11) a + S1x64.size a ≤ S1000000x64.size a) ∧
  (∀ a, (k2_off18 v11) a + S1x64.size a ≤ S1000000x64.size a)
instance k2_chk2.dec : ∀ (v11 : BitVec 32), Decidable (k2_chk2 v11) := fun v11 => decidable_of_iff' _ (Iff.of_eq (k2_chk2.eq_1 v11))
theorem k2_off4_inb : ∀ (v11 : BitVec 32) (k2_hw2 : k2_chk2 v11), ∀ a, (k2_off4 v11) a + S1x64.size a ≤ S1000000x64.size a := fun v11 k2_hw2 => k2_hw2.1
theorem k2_off18_inb : ∀ (v11 : BitVec 32) (k2_hw2 : k2_chk2 v11), ∀ a, (k2_off18 v11) a + S1x64.size a ≤ S1000000x64.size a := fun v11 k2_hw2 => k2_hw2.2

def k2_off19 (v19 : BitVec 32) : Fin 2 → Nat :=
  let c0_i32_50 : BitVec 32 := 0#32
  ![v19.toNat, 0]

def k2_chk3 (v19 : BitVec 32) : Prop :=
  (∀ a, (k2_off6 v19) a + S1x64.size a ≤ S1000000x64.size a) ∧
  (∀ a, (k2_off19 v19) a + S1x64.size a ≤ S1000000x64.size a)
instance k2_chk3.dec : ∀ (v19 : BitVec 32), Decidable (k2_chk3 v19) := fun v19 => decidable_of_iff' _ (Iff.of_eq (k2_chk3.eq_1 v19))
theorem k2_off6_inb : ∀ (v19 : BitVec 32) (k2_hw3 : k2_chk3 v19), ∀ a, (k2_off6 v19) a + S1x64.size a ≤ S1000000x64.size a := fun v19 k2_hw3 => k2_hw3.1
theorem k2_off19_inb : ∀ (v19 : BitVec 32) (k2_hw3 : k2_chk3 v19), ∀ a, (k2_off19 v19) a + S1x64.size a ≤ S1000000x64.size a := fun v19 k2_hw3 => k2_hw3.2

def k2_off20 (v27 : BitVec 32) : Fin 2 → Nat :=
  let c0_i32_54 : BitVec 32 := 0#32
  ![v27.toNat, 0]

def k2_chk4 (v27 : BitVec 32) : Prop :=
  (∀ a, (k2_off8 v27) a + S1x64.size a ≤ S1000000x64.size a) ∧
  (∀ a, (k2_off20 v27) a + S1x64.size a ≤ S1000000x64.size a)
instance k2_chk4.dec : ∀ (v27 : BitVec 32), Decidable (k2_chk4 v27) := fun v27 => decidable_of_iff' _ (Iff.of_eq (k2_chk4.eq_1 v27))
theorem k2_off8_inb : ∀ (v27 : BitVec 32) (k2_hw4 : k2_chk4 v27), ∀ a, (k2_off8 v27) a + S1x64.size a ≤ S1000000x64.size a := fun v27 k2_hw4 => k2_hw4.1
theorem k2_off20_inb : ∀ (v27 : BitVec 32) (k2_hw4 : k2_chk4 v27), ∀ a, (k2_off20 v27) a + S1x64.size a ≤ S1000000x64.size a := fun v27 k2_hw4 => k2_hw4.2

def k2_off21 (v35 : BitVec 32) : Fin 2 → Nat :=
  let c0_i32_58 : BitVec 32 := 0#32
  ![v35.toNat, 0]

def k2_chk5 (v35 : BitVec 32) : Prop :=
  (∀ a, (k2_off10 v35) a + S1x64.size a ≤ S1000000x64.size a) ∧
  (∀ a, (k2_off21 v35) a + S1x64.size a ≤ S1000000x64.size a)
instance k2_chk5.dec : ∀ (v35 : BitVec 32), Decidable (k2_chk5 v35) := fun v35 => decidable_of_iff' _ (Iff.of_eq (k2_chk5.eq_1 v35))
theorem k2_off10_inb : ∀ (v35 : BitVec 32) (k2_hw5 : k2_chk5 v35), ∀ a, (k2_off10 v35) a + S1x64.size a ≤ S1000000x64.size a := fun v35 k2_hw5 => k2_hw5.1
theorem k2_off21_inb : ∀ (v35 : BitVec 32) (k2_hw5 : k2_chk5 v35), ∀ a, (k2_off21 v35) a + S1x64.size a ≤ S1000000x64.size a := fun v35 k2_hw5 => k2_hw5.2

def k2_off22 (v43 : BitVec 32) : Fin 2 → Nat :=
  let c0_i32_62 : BitVec 32 := 0#32
  ![v43.toNat, 0]

def k2_chk6 (v43 : BitVec 32) : Prop :=
  (∀ a, (k2_off12 v43) a + S1x64.size a ≤ S1000000x64.size a) ∧
  (∀ a, (k2_off22 v43) a + S1x64.size a ≤ S1000000x64.size a)
instance k2_chk6.dec : ∀ (v43 : BitVec 32), Decidable (k2_chk6 v43) := fun v43 => decidable_of_iff' _ (Iff.of_eq (k2_chk6.eq_1 v43))
theorem k2_off12_inb : ∀ (v43 : BitVec 32) (k2_hw6 : k2_chk6 v43), ∀ a, (k2_off12 v43) a + S1x64.size a ≤ S1000000x64.size a := fun v43 k2_hw6 => k2_hw6.1
theorem k2_off22_inb : ∀ (v43 : BitVec 32) (k2_hw6 : k2_chk6 v43), ∀ a, (k2_off22 v43) a + S1x64.size a ≤ S1000000x64.size a := fun v43 k2_hw6 => k2_hw6.2

def k2_off23 (v51 : BitVec 32) : Fin 2 → Nat :=
  let c0_i32_66 : BitVec 32 := 0#32
  ![v51.toNat, 0]

def k2_chk7 (v51 : BitVec 32) : Prop :=
  (∀ a, (k2_off14 v51) a + S1x64.size a ≤ S1000000x64.size a) ∧
  (∀ a, (k2_off23 v51) a + S1x64.size a ≤ S1000000x64.size a)
instance k2_chk7.dec : ∀ (v51 : BitVec 32), Decidable (k2_chk7 v51) := fun v51 => decidable_of_iff' _ (Iff.of_eq (k2_chk7.eq_1 v51))
theorem k2_off14_inb : ∀ (v51 : BitVec 32) (k2_hw7 : k2_chk7 v51), ∀ a, (k2_off14 v51) a + S1x64.size a ≤ S1000000x64.size a := fun v51 k2_hw7 => k2_hw7.1
theorem k2_off23_inb : ∀ (v51 : BitVec 32) (k2_hw7 : k2_chk7 v51), ∀ a, (k2_off23 v51) a + S1x64.size a ≤ S1000000x64.size a := fun v51 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![12800], ![false]⟩

abbrev pre3 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k3_off4 (v11 : BitVec 32) : Fin 2 → Nat :=
  let c0_i32_8 : BitVec 32 := 0#32
  ![v11.toNat, 0]

def k3_off5 (i : grid3.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k3_off6 (v19 : BitVec 32) : Fin 2 → Nat :=
  let c0_i32_13 : BitVec 32 := 0#32
  ![v19.toNat, 0]

def k3_off7 (i : grid3.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k3_off8 (v27 : BitVec 32) : Fin 2 → Nat :=
  let c0_i32_18 : BitVec 32 := 0#32
  ![v27.toNat, 0]

def k3_off9 (i : grid3.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k3_off10 (v35 : BitVec 32) : Fin 2 → Nat :=
  let c0_i32_23 : BitVec 32 := 0#32
  ![v35.toNat, 0]

def k3_off11 (i : grid3.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k3_off12 (v43 : BitVec 32) : Fin 2 → Nat :=
  let c0_i32_28 : BitVec 32 := 0#32
  ![v43.toNat, 0]

def k3_off13 (i : grid3.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k3_off14 (v51 : BitVec 32) : Fin 2 → Nat :=
  let c0_i32_33 : BitVec 32 := 0#32
  ![v51.toNat, 0]

def k3_off15 (i : grid3.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k3_off16 (v59 : BitVec 32) : Fin 2 → Nat :=
  let c0_i32_38 : BitVec 32 := 0#32
  ![v59.toNat, 0]

def k3_chk8 (v59 : BitVec 32) : Prop :=
  (∀ a, (k3_off16 v59) a + S1x64.size a ≤ S1000000x64.size a)
instance k3_chk8.dec : ∀ (v59 : BitVec 32), Decidable (k3_chk8 v59) := fun v59 => decidable_of_iff' _ (Iff.of_eq (k3_chk8.eq_1 v59))
theorem k3_off16_inb : ∀ (v59 : BitVec 32) (k3_hw8 : k3_chk8 v59), ∀ a, (k3_off16 v59) a + S1x64.size a ≤ S1000000x64.size a := fun v59 k3_hw8 => k3_hw8

def k3_off17 (v3 : BitVec 32) : Fin 2 → Nat :=
  let c0_i32_42 : BitVec 32 := 0#32
  ![v3.toNat, 0]

def k3_chk1 (v3 : BitVec 32) : Prop :=
  (∀ a, (k3_off2 v3) a + S1x64.size a ≤ S1000000x64.size a) ∧
  (∀ a, (k3_off17 v3) a + S1x64.size a ≤ S1000000x64.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x64.size a ≤ S1000000x64.size a := fun v3 k3_hw1 => k3_hw1.1
theorem k3_off17_inb : ∀ (v3 : BitVec 32) (k3_hw1 : k3_chk1 v3), ∀ a, (k3_off17 v3) a + S1x64.size a ≤ S1000000x64.size a := fun v3 k3_hw1 => k3_hw1.2

def k3_off18 (v11 : BitVec 32) : Fin 2 → Nat :=
  let c0_i32_46 : BitVec 32 := 0#32
  ![v11.toNat, 0]

def k3_chk2 (v11 : BitVec 32) : Prop :=
  (∀ a, (k3_off4 v11) a + S1x64.size a ≤ S1000000x64.size a) ∧
  (∀ a, (k3_off18 v11) a + S1x64.size a ≤ S1000000x64.size a)
instance k3_chk2.dec : ∀ (v11 : BitVec 32), Decidable (k3_chk2 v11) := fun v11 => decidable_of_iff' _ (Iff.of_eq (k3_chk2.eq_1 v11))
theorem k3_off4_inb : ∀ (v11 : BitVec 32) (k3_hw2 : k3_chk2 v11), ∀ a, (k3_off4 v11) a + S1x64.size a ≤ S1000000x64.size a := fun v11 k3_hw2 => k3_hw2.1
theorem k3_off18_inb : ∀ (v11 : BitVec 32) (k3_hw2 : k3_chk2 v11), ∀ a, (k3_off18 v11) a + S1x64.size a ≤ S1000000x64.size a := fun v11 k3_hw2 => k3_hw2.2

def k3_off19 (v19 : BitVec 32) : Fin 2 → Nat :=
  let c0_i32_50 : BitVec 32 := 0#32
  ![v19.toNat, 0]

def k3_chk3 (v19 : BitVec 32) : Prop :=
  (∀ a, (k3_off6 v19) a + S1x64.size a ≤ S1000000x64.size a) ∧
  (∀ a, (k3_off19 v19) a + S1x64.size a ≤ S1000000x64.size a)
instance k3_chk3.dec : ∀ (v19 : BitVec 32), Decidable (k3_chk3 v19) := fun v19 => decidable_of_iff' _ (Iff.of_eq (k3_chk3.eq_1 v19))
theorem k3_off6_inb : ∀ (v19 : BitVec 32) (k3_hw3 : k3_chk3 v19), ∀ a, (k3_off6 v19) a + S1x64.size a ≤ S1000000x64.size a := fun v19 k3_hw3 => k3_hw3.1
theorem k3_off19_inb : ∀ (v19 : BitVec 32) (k3_hw3 : k3_chk3 v19), ∀ a, (k3_off19 v19) a + S1x64.size a ≤ S1000000x64.size a := fun v19 k3_hw3 => k3_hw3.2

def k3_off20 (v27 : BitVec 32) : Fin 2 → Nat :=
  let c0_i32_54 : BitVec 32 := 0#32
  ![v27.toNat, 0]

def k3_chk4 (v27 : BitVec 32) : Prop :=
  (∀ a, (k3_off8 v27) a + S1x64.size a ≤ S1000000x64.size a) ∧
  (∀ a, (k3_off20 v27) a + S1x64.size a ≤ S1000000x64.size a)
instance k3_chk4.dec : ∀ (v27 : BitVec 32), Decidable (k3_chk4 v27) := fun v27 => decidable_of_iff' _ (Iff.of_eq (k3_chk4.eq_1 v27))
theorem k3_off8_inb : ∀ (v27 : BitVec 32) (k3_hw4 : k3_chk4 v27), ∀ a, (k3_off8 v27) a + S1x64.size a ≤ S1000000x64.size a := fun v27 k3_hw4 => k3_hw4.1
theorem k3_off20_inb : ∀ (v27 : BitVec 32) (k3_hw4 : k3_chk4 v27), ∀ a, (k3_off20 v27) a + S1x64.size a ≤ S1000000x64.size a := fun v27 k3_hw4 => k3_hw4.2

def k3_off21 (v35 : BitVec 32) : Fin 2 → Nat :=
  let c0_i32_58 : BitVec 32 := 0#32
  ![v35.toNat, 0]

def k3_chk5 (v35 : BitVec 32) : Prop :=
  (∀ a, (k3_off10 v35) a + S1x64.size a ≤ S1000000x64.size a) ∧
  (∀ a, (k3_off21 v35) a + S1x64.size a ≤ S1000000x64.size a)
instance k3_chk5.dec : ∀ (v35 : BitVec 32), Decidable (k3_chk5 v35) := fun v35 => decidable_of_iff' _ (Iff.of_eq (k3_chk5.eq_1 v35))
theorem k3_off10_inb : ∀ (v35 : BitVec 32) (k3_hw5 : k3_chk5 v35), ∀ a, (k3_off10 v35) a + S1x64.size a ≤ S1000000x64.size a := fun v35 k3_hw5 => k3_hw5.1
theorem k3_off21_inb : ∀ (v35 : BitVec 32) (k3_hw5 : k3_chk5 v35), ∀ a, (k3_off21 v35) a + S1x64.size a ≤ S1000000x64.size a := fun v35 k3_hw5 => k3_hw5.2

def k3_off22 (v43 : BitVec 32) : Fin 2 → Nat :=
  let c0_i32_62 : BitVec 32 := 0#32
  ![v43.toNat, 0]

def k3_chk6 (v43 : BitVec 32) : Prop :=
  (∀ a, (k3_off12 v43) a + S1x64.size a ≤ S1000000x64.size a) ∧
  (∀ a, (k3_off22 v43) a + S1x64.size a ≤ S1000000x64.size a)
instance k3_chk6.dec : ∀ (v43 : BitVec 32), Decidable (k3_chk6 v43) := fun v43 => decidable_of_iff' _ (Iff.of_eq (k3_chk6.eq_1 v43))
theorem k3_off12_inb : ∀ (v43 : BitVec 32) (k3_hw6 : k3_chk6 v43), ∀ a, (k3_off12 v43) a + S1x64.size a ≤ S1000000x64.size a := fun v43 k3_hw6 => k3_hw6.1
theorem k3_off22_inb : ∀ (v43 : BitVec 32) (k3_hw6 : k3_chk6 v43), ∀ a, (k3_off22 v43) a + S1x64.size a ≤ S1000000x64.size a := fun v43 k3_hw6 => k3_hw6.2

def k3_off23 (v51 : BitVec 32) : Fin 2 → Nat :=
  let c0_i32_66 : BitVec 32 := 0#32
  ![v51.toNat, 0]

def k3_chk7 (v51 : BitVec 32) : Prop :=
  (∀ a, (k3_off14 v51) a + S1x64.size a ≤ S1000000x64.size a) ∧
  (∀ a, (k3_off23 v51) a + S1x64.size a ≤ S1000000x64.size a)
instance k3_chk7.dec : ∀ (v51 : BitVec 32), Decidable (k3_chk7 v51) := fun v51 => decidable_of_iff' _ (Iff.of_eq (k3_chk7.eq_1 v51))
theorem k3_off14_inb : ∀ (v51 : BitVec 32) (k3_hw7 : k3_chk7 v51), ∀ a, (k3_off14 v51) a + S1x64.size a ≤ S1000000x64.size a := fun v51 k3_hw7 => k3_hw7.1
theorem k3_off23_inb : ∀ (v51 : BitVec 32) (k3_hw7 : k3_chk7 v51), ∀ a, (k3_off23 v51) a + S1x64.size a ≤ S1000000x64.size a := fun v51 k3_hw7 => k3_hw7.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![12800], ![false]⟩

abbrev pre4 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (i : grid4.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k4_off4 (v11 : BitVec 32) : Fin 2 → Nat :=
  let c0_i32_8 : BitVec 32 := 0#32
  ![v11.toNat, 0]

def k4_off5 (i : grid4.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k4_off6 (v19 : BitVec 32) : Fin 2 → Nat :=
  let c0_i32_13 : BitVec 32 := 0#32
  ![v19.toNat, 0]

def k4_off7 (i : grid4.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k4_off8 (v27 : BitVec 32) : Fin 2 → Nat :=
  let c0_i32_18 : BitVec 32 := 0#32
  ![v27.toNat, 0]

def k4_off9 (i : grid4.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k4_off10 (v35 : BitVec 32) : Fin 2 → Nat :=
  let c0_i32_23 : BitVec 32 := 0#32
  ![v35.toNat, 0]

def k4_off11 (i : grid4.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k4_off12 (v43 : BitVec 32) : Fin 2 → Nat :=
  let c0_i32_28 : BitVec 32 := 0#32
  ![v43.toNat, 0]

def k4_off13 (i : grid4.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k4_off14 (v51 : BitVec 32) : Fin 2 → Nat :=
  let c0_i32_33 : BitVec 32 := 0#32
  ![v51.toNat, 0]

def k4_off15 (i : grid4.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k4_off16 (v59 : BitVec 32) : Fin 2 → Nat :=
  let c0_i32_38 : BitVec 32 := 0#32
  ![v59.toNat, 0]

def k4_chk8 (v59 : BitVec 32) : Prop :=
  (∀ a, (k4_off16 v59) a + S1x64.size a ≤ S1000000x64.size a)
instance k4_chk8.dec : ∀ (v59 : BitVec 32), Decidable (k4_chk8 v59) := fun v59 => decidable_of_iff' _ (Iff.of_eq (k4_chk8.eq_1 v59))
theorem k4_off16_inb : ∀ (v59 : BitVec 32) (k4_hw8 : k4_chk8 v59), ∀ a, (k4_off16 v59) a + S1x64.size a ≤ S1000000x64.size a := fun v59 k4_hw8 => k4_hw8

def k4_off17 (v3 : BitVec 32) : Fin 2 → Nat :=
  let c0_i32_42 : BitVec 32 := 0#32
  ![v3.toNat, 0]

def k4_chk1 (v3 : BitVec 32) : Prop :=
  (∀ a, (k4_off2 v3) a + S1x64.size a ≤ S1000000x64.size a) ∧
  (∀ a, (k4_off17 v3) a + S1x64.size a ≤ S1000000x64.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x64.size a ≤ S1000000x64.size a := fun v3 k4_hw1 => k4_hw1.1
theorem k4_off17_inb : ∀ (v3 : BitVec 32) (k4_hw1 : k4_chk1 v3), ∀ a, (k4_off17 v3) a + S1x64.size a ≤ S1000000x64.size a := fun v3 k4_hw1 => k4_hw1.2

def k4_off18 (v11 : BitVec 32) : Fin 2 → Nat :=
  let c0_i32_46 : BitVec 32 := 0#32
  ![v11.toNat, 0]

def k4_chk2 (v11 : BitVec 32) : Prop :=
  (∀ a, (k4_off4 v11) a + S1x64.size a ≤ S1000000x64.size a) ∧
  (∀ a, (k4_off18 v11) a + S1x64.size a ≤ S1000000x64.size a)
instance k4_chk2.dec : ∀ (v11 : BitVec 32), Decidable (k4_chk2 v11) := fun v11 => decidable_of_iff' _ (Iff.of_eq (k4_chk2.eq_1 v11))
theorem k4_off4_inb : ∀ (v11 : BitVec 32) (k4_hw2 : k4_chk2 v11), ∀ a, (k4_off4 v11) a + S1x64.size a ≤ S1000000x64.size a := fun v11 k4_hw2 => k4_hw2.1
theorem k4_off18_inb : ∀ (v11 : BitVec 32) (k4_hw2 : k4_chk2 v11), ∀ a, (k4_off18 v11) a + S1x64.size a ≤ S1000000x64.size a := fun v11 k4_hw2 => k4_hw2.2

def k4_off19 (v19 : BitVec 32) : Fin 2 → Nat :=
  let c0_i32_50 : BitVec 32 := 0#32
  ![v19.toNat, 0]

def k4_chk3 (v19 : BitVec 32) : Prop :=
  (∀ a, (k4_off6 v19) a + S1x64.size a ≤ S1000000x64.size a) ∧
  (∀ a, (k4_off19 v19) a + S1x64.size a ≤ S1000000x64.size a)
instance k4_chk3.dec : ∀ (v19 : BitVec 32), Decidable (k4_chk3 v19) := fun v19 => decidable_of_iff' _ (Iff.of_eq (k4_chk3.eq_1 v19))
theorem k4_off6_inb : ∀ (v19 : BitVec 32) (k4_hw3 : k4_chk3 v19), ∀ a, (k4_off6 v19) a + S1x64.size a ≤ S1000000x64.size a := fun v19 k4_hw3 => k4_hw3.1
theorem k4_off19_inb : ∀ (v19 : BitVec 32) (k4_hw3 : k4_chk3 v19), ∀ a, (k4_off19 v19) a + S1x64.size a ≤ S1000000x64.size a := fun v19 k4_hw3 => k4_hw3.2

def k4_off20 (v27 : BitVec 32) : Fin 2 → Nat :=
  let c0_i32_54 : BitVec 32 := 0#32
  ![v27.toNat, 0]

def k4_chk4 (v27 : BitVec 32) : Prop :=
  (∀ a, (k4_off8 v27) a + S1x64.size a ≤ S1000000x64.size a) ∧
  (∀ a, (k4_off20 v27) a + S1x64.size a ≤ S1000000x64.size a)
instance k4_chk4.dec : ∀ (v27 : BitVec 32), Decidable (k4_chk4 v27) := fun v27 => decidable_of_iff' _ (Iff.of_eq (k4_chk4.eq_1 v27))
theorem k4_off8_inb : ∀ (v27 : BitVec 32) (k4_hw4 : k4_chk4 v27), ∀ a, (k4_off8 v27) a + S1x64.size a ≤ S1000000x64.size a := fun v27 k4_hw4 => k4_hw4.1
theorem k4_off20_inb : ∀ (v27 : BitVec 32) (k4_hw4 : k4_chk4 v27), ∀ a, (k4_off20 v27) a + S1x64.size a ≤ S1000000x64.size a := fun v27 k4_hw4 => k4_hw4.2

def k4_off21 (v35 : BitVec 32) : Fin 2 → Nat :=
  let c0_i32_58 : BitVec 32 := 0#32
  ![v35.toNat, 0]

def k4_chk5 (v35 : BitVec 32) : Prop :=
  (∀ a, (k4_off10 v35) a + S1x64.size a ≤ S1000000x64.size a) ∧
  (∀ a, (k4_off21 v35) a + S1x64.size a ≤ S1000000x64.size a)
instance k4_chk5.dec : ∀ (v35 : BitVec 32), Decidable (k4_chk5 v35) := fun v35 => decidable_of_iff' _ (Iff.of_eq (k4_chk5.eq_1 v35))
theorem k4_off10_inb : ∀ (v35 : BitVec 32) (k4_hw5 : k4_chk5 v35), ∀ a, (k4_off10 v35) a + S1x64.size a ≤ S1000000x64.size a := fun v35 k4_hw5 => k4_hw5.1
theorem k4_off21_inb : ∀ (v35 : BitVec 32) (k4_hw5 : k4_chk5 v35), ∀ a, (k4_off21 v35) a + S1x64.size a ≤ S1000000x64.size a := fun v35 k4_hw5 => k4_hw5.2

def k4_off22 (v43 : BitVec 32) : Fin 2 → Nat :=
  let c0_i32_62 : BitVec 32 := 0#32
  ![v43.toNat, 0]

def k4_chk6 (v43 : BitVec 32) : Prop :=
  (∀ a, (k4_off12 v43) a + S1x64.size a ≤ S1000000x64.size a) ∧
  (∀ a, (k4_off22 v43) a + S1x64.size a ≤ S1000000x64.size a)
instance k4_chk6.dec : ∀ (v43 : BitVec 32), Decidable (k4_chk6 v43) := fun v43 => decidable_of_iff' _ (Iff.of_eq (k4_chk6.eq_1 v43))
theorem k4_off12_inb : ∀ (v43 : BitVec 32) (k4_hw6 : k4_chk6 v43), ∀ a, (k4_off12 v43) a + S1x64.size a ≤ S1000000x64.size a := fun v43 k4_hw6 => k4_hw6.1
theorem k4_off22_inb : ∀ (v43 : BitVec 32) (k4_hw6 : k4_chk6 v43), ∀ a, (k4_off22 v43) a + S1x64.size a ≤ S1000000x64.size a := fun v43 k4_hw6 => k4_hw6.2

def k4_off23 (v51 : BitVec 32) : Fin 2 → Nat :=
  let c0_i32_66 : BitVec 32 := 0#32
  ![v51.toNat, 0]

def k4_chk7 (v51 : BitVec 32) : Prop :=
  (∀ a, (k4_off14 v51) a + S1x64.size a ≤ S1000000x64.size a) ∧
  (∀ a, (k4_off23 v51) a + S1x64.size a ≤ S1000000x64.size a)
instance k4_chk7.dec : ∀ (v51 : BitVec 32), Decidable (k4_chk7 v51) := fun v51 => decidable_of_iff' _ (Iff.of_eq (k4_chk7.eq_1 v51))
theorem k4_off14_inb : ∀ (v51 : BitVec 32) (k4_hw7 : k4_chk7 v51), ∀ a, (k4_off14 v51) a + S1x64.size a ≤ S1000000x64.size a := fun v51 k4_hw7 => k4_hw7.1
theorem k4_off23_inb : ∀ (v51 : BitVec 32) (k4_hw7 : k4_chk7 v51), ∀ a, (k4_off23 v51) a + S1x64.size a ≤ S1000000x64.size a := fun v51 k4_hw7 => k4_hw7.2

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev grid5 : Pipeline.Grid := ⟨1, ![12800], ![false]⟩

abbrev pre5 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k5_off2 (v3 : BitVec 32) : Fin 2 → Nat :=
  let c0_i32_3 : BitVec 32 := 0#32
  ![v3.toNat, 0]

def k5_off3 (i : grid5.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k5_off4 (v11 : BitVec 32) : Fin 2 → Nat :=
  let c0_i32_8 : BitVec 32 := 0#32
  ![v11.toNat, 0]

def k5_off5 (i : grid5.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k5_off6 (v19 : BitVec 32) : Fin 2 → Nat :=
  let c0_i32_13 : BitVec 32 := 0#32
  ![v19.toNat, 0]

def k5_off7 (i : grid5.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k5_off8 (v27 : BitVec 32) : Fin 2 → Nat :=
  let c0_i32_18 : BitVec 32 := 0#32
  ![v27.toNat, 0]

def k5_off9 (i : grid5.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k5_off10 (v35 : BitVec 32) : Fin 2 → Nat :=
  let c0_i32_23 : BitVec 32 := 0#32
  ![v35.toNat, 0]

def k5_off11 (i : grid5.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k5_off12 (v43 : BitVec 32) : Fin 2 → Nat :=
  let c0_i32_28 : BitVec 32 := 0#32
  ![v43.toNat, 0]

def k5_off13 (i : grid5.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k5_off14 (v51 : BitVec 32) : Fin 2 → Nat :=
  let c0_i32_33 : BitVec 32 := 0#32
  ![v51.toNat, 0]

def k5_off15 (i : grid5.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k5_off16 (v59 : BitVec 32) : Fin 2 → Nat :=
  let c0_i32_38 : BitVec 32 := 0#32
  ![v59.toNat, 0]

def k5_chk8 (v59 : BitVec 32) : Prop :=
  (∀ a, (k5_off16 v59) a + S1x64.size a ≤ S1000000x64.size a)
instance k5_chk8.dec : ∀ (v59 : BitVec 32), Decidable (k5_chk8 v59) := fun v59 => decidable_of_iff' _ (Iff.of_eq (k5_chk8.eq_1 v59))
theorem k5_off16_inb : ∀ (v59 : BitVec 32) (k5_hw8 : k5_chk8 v59), ∀ a, (k5_off16 v59) a + S1x64.size a ≤ S1000000x64.size a := fun v59 k5_hw8 => k5_hw8

def k5_off17 (v3 : BitVec 32) : Fin 2 → Nat :=
  let c0_i32_42 : BitVec 32 := 0#32
  ![v3.toNat, 0]

def k5_chk1 (v3 : BitVec 32) : Prop :=
  (∀ a, (k5_off2 v3) a + S1x64.size a ≤ S1000000x64.size a) ∧
  (∀ a, (k5_off17 v3) a + S1x64.size a ≤ S1000000x64.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x64.size a ≤ S1000000x64.size a := fun v3 k5_hw1 => k5_hw1.1
theorem k5_off17_inb : ∀ (v3 : BitVec 32) (k5_hw1 : k5_chk1 v3), ∀ a, (k5_off17 v3) a + S1x64.size a ≤ S1000000x64.size a := fun v3 k5_hw1 => k5_hw1.2

def k5_off18 (v11 : BitVec 32) : Fin 2 → Nat :=
  let c0_i32_46 : BitVec 32 := 0#32
  ![v11.toNat, 0]

def k5_chk2 (v11 : BitVec 32) : Prop :=
  (∀ a, (k5_off4 v11) a + S1x64.size a ≤ S1000000x64.size a) ∧
  (∀ a, (k5_off18 v11) a + S1x64.size a ≤ S1000000x64.size a)
instance k5_chk2.dec : ∀ (v11 : BitVec 32), Decidable (k5_chk2 v11) := fun v11 => decidable_of_iff' _ (Iff.of_eq (k5_chk2.eq_1 v11))
theorem k5_off4_inb : ∀ (v11 : BitVec 32) (k5_hw2 : k5_chk2 v11), ∀ a, (k5_off4 v11) a + S1x64.size a ≤ S1000000x64.size a := fun v11 k5_hw2 => k5_hw2.1
theorem k5_off18_inb : ∀ (v11 : BitVec 32) (k5_hw2 : k5_chk2 v11), ∀ a, (k5_off18 v11) a + S1x64.size a ≤ S1000000x64.size a := fun v11 k5_hw2 => k5_hw2.2

def k5_off19 (v19 : BitVec 32) : Fin 2 → Nat :=
  let c0_i32_50 : BitVec 32 := 0#32
  ![v19.toNat, 0]

def k5_chk3 (v19 : BitVec 32) : Prop :=
  (∀ a, (k5_off6 v19) a + S1x64.size a ≤ S1000000x64.size a) ∧
  (∀ a, (k5_off19 v19) a + S1x64.size a ≤ S1000000x64.size a)
instance k5_chk3.dec : ∀ (v19 : BitVec 32), Decidable (k5_chk3 v19) := fun v19 => decidable_of_iff' _ (Iff.of_eq (k5_chk3.eq_1 v19))
theorem k5_off6_inb : ∀ (v19 : BitVec 32) (k5_hw3 : k5_chk3 v19), ∀ a, (k5_off6 v19) a + S1x64.size a ≤ S1000000x64.size a := fun v19 k5_hw3 => k5_hw3.1
theorem k5_off19_inb : ∀ (v19 : BitVec 32) (k5_hw3 : k5_chk3 v19), ∀ a, (k5_off19 v19) a + S1x64.size a ≤ S1000000x64.size a := fun v19 k5_hw3 => k5_hw3.2

def k5_off20 (v27 : BitVec 32) : Fin 2 → Nat :=
  let c0_i32_54 : BitVec 32 := 0#32
  ![v27.toNat, 0]

def k5_chk4 (v27 : BitVec 32) : Prop :=
  (∀ a, (k5_off8 v27) a + S1x64.size a ≤ S1000000x64.size a) ∧
  (∀ a, (k5_off20 v27) a + S1x64.size a ≤ S1000000x64.size a)
instance k5_chk4.dec : ∀ (v27 : BitVec 32), Decidable (k5_chk4 v27) := fun v27 => decidable_of_iff' _ (Iff.of_eq (k5_chk4.eq_1 v27))
theorem k5_off8_inb : ∀ (v27 : BitVec 32) (k5_hw4 : k5_chk4 v27), ∀ a, (k5_off8 v27) a + S1x64.size a ≤ S1000000x64.size a := fun v27 k5_hw4 => k5_hw4.1
theorem k5_off20_inb : ∀ (v27 : BitVec 32) (k5_hw4 : k5_chk4 v27), ∀ a, (k5_off20 v27) a + S1x64.size a ≤ S1000000x64.size a := fun v27 k5_hw4 => k5_hw4.2

def k5_off21 (v35 : BitVec 32) : Fin 2 → Nat :=
  let c0_i32_58 : BitVec 32 := 0#32
  ![v35.toNat, 0]

def k5_chk5 (v35 : BitVec 32) : Prop :=
  (∀ a, (k5_off10 v35) a + S1x64.size a ≤ S1000000x64.size a) ∧
  (∀ a, (k5_off21 v35) a + S1x64.size a ≤ S1000000x64.size a)
instance k5_chk5.dec : ∀ (v35 : BitVec 32), Decidable (k5_chk5 v35) := fun v35 => decidable_of_iff' _ (Iff.of_eq (k5_chk5.eq_1 v35))
theorem k5_off10_inb : ∀ (v35 : BitVec 32) (k5_hw5 : k5_chk5 v35), ∀ a, (k5_off10 v35) a + S1x64.size a ≤ S1000000x64.size a := fun v35 k5_hw5 => k5_hw5.1
theorem k5_off21_inb : ∀ (v35 : BitVec 32) (k5_hw5 : k5_chk5 v35), ∀ a, (k5_off21 v35) a + S1x64.size a ≤ S1000000x64.size a := fun v35 k5_hw5 => k5_hw5.2

def k5_off22 (v43 : BitVec 32) : Fin 2 → Nat :=
  let c0_i32_62 : BitVec 32 := 0#32
  ![v43.toNat, 0]

def k5_chk6 (v43 : BitVec 32) : Prop :=
  (∀ a, (k5_off12 v43) a + S1x64.size a ≤ S1000000x64.size a) ∧
  (∀ a, (k5_off22 v43) a + S1x64.size a ≤ S1000000x64.size a)
instance k5_chk6.dec : ∀ (v43 : BitVec 32), Decidable (k5_chk6 v43) := fun v43 => decidable_of_iff' _ (Iff.of_eq (k5_chk6.eq_1 v43))
theorem k5_off12_inb : ∀ (v43 : BitVec 32) (k5_hw6 : k5_chk6 v43), ∀ a, (k5_off12 v43) a + S1x64.size a ≤ S1000000x64.size a := fun v43 k5_hw6 => k5_hw6.1
theorem k5_off22_inb : ∀ (v43 : BitVec 32) (k5_hw6 : k5_chk6 v43), ∀ a, (k5_off22 v43) a + S1x64.size a ≤ S1000000x64.size a := fun v43 k5_hw6 => k5_hw6.2

def k5_off23 (v51 : BitVec 32) : Fin 2 → Nat :=
  let c0_i32_66 : BitVec 32 := 0#32
  ![v51.toNat, 0]

def k5_chk7 (v51 : BitVec 32) : Prop :=
  (∀ a, (k5_off14 v51) a + S1x64.size a ≤ S1000000x64.size a) ∧
  (∀ a, (k5_off23 v51) a + S1x64.size a ≤ S1000000x64.size a)
instance k5_chk7.dec : ∀ (v51 : BitVec 32), Decidable (k5_chk7 v51) := fun v51 => decidable_of_iff' _ (Iff.of_eq (k5_chk7.eq_1 v51))
theorem k5_off14_inb : ∀ (v51 : BitVec 32) (k5_hw7 : k5_chk7 v51), ∀ a, (k5_off14 v51) a + S1x64.size a ≤ S1000000x64.size a := fun v51 k5_hw7 => k5_hw7.1
theorem k5_off23_inb : ∀ (v51 : BitVec 32) (k5_hw7 : k5_chk7 v51), ∀ a, (k5_off23 v51) a + S1x64.size a ≤ S1000000x64.size a := fun v51 k5_hw7 => k5_hw7.2

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev grid6 : Pipeline.Grid := ⟨1, ![12800], ![false]⟩

abbrev pre6 : Pipeline.Prefetch sig := ⟨1, ![main_v21.idx], fun | 0 => main_v21.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k6_off2 (v3 : BitVec 32) : Fin 2 → Nat :=
  let c0_i32_3 : BitVec 32 := 0#32
  ![v3.toNat, 0]

def k6_off3 (i : grid6.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k6_off4 (v11 : BitVec 32) : Fin 2 → Nat :=
  let c0_i32_8 : BitVec 32 := 0#32
  ![v11.toNat, 0]

def k6_off5 (i : grid6.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k6_off6 (v19 : BitVec 32) : Fin 2 → Nat :=
  let c0_i32_13 : BitVec 32 := 0#32
  ![v19.toNat, 0]

def k6_off7 (i : grid6.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k6_off8 (v27 : BitVec 32) : Fin 2 → Nat :=
  let c0_i32_18 : BitVec 32 := 0#32
  ![v27.toNat, 0]

def k6_off9 (i : grid6.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k6_off10 (v35 : BitVec 32) : Fin 2 → Nat :=
  let c0_i32_23 : BitVec 32 := 0#32
  ![v35.toNat, 0]

def k6_off11 (i : grid6.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k6_off12 (v43 : BitVec 32) : Fin 2 → Nat :=
  let c0_i32_28 : BitVec 32 := 0#32
  ![v43.toNat, 0]

def k6_off13 (i : grid6.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k6_off14 (v51 : BitVec 32) : Fin 2 → Nat :=
  let c0_i32_33 : BitVec 32 := 0#32
  ![v51.toNat, 0]

def k6_off15 (i : grid6.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k6_off16 (v59 : BitVec 32) : Fin 2 → Nat :=
  let c0_i32_38 : BitVec 32 := 0#32
  ![v59.toNat, 0]

def k6_chk8 (v59 : BitVec 32) : Prop :=
  (∀ a, (k6_off16 v59) a + S1x64.size a ≤ S1000000x64.size a)
instance k6_chk8.dec : ∀ (v59 : BitVec 32), Decidable (k6_chk8 v59) := fun v59 => decidable_of_iff' _ (Iff.of_eq (k6_chk8.eq_1 v59))
theorem k6_off16_inb : ∀ (v59 : BitVec 32) (k6_hw8 : k6_chk8 v59), ∀ a, (k6_off16 v59) a + S1x64.size a ≤ S1000000x64.size a := fun v59 k6_hw8 => k6_hw8

def k6_off17 (v3 : BitVec 32) : Fin 2 → Nat :=
  let c0_i32_42 : BitVec 32 := 0#32
  ![v3.toNat, 0]

def k6_chk1 (v3 : BitVec 32) : Prop :=
  (∀ a, (k6_off2 v3) a + S1x64.size a ≤ S1000000x64.size a) ∧
  (∀ a, (k6_off17 v3) a + S1x64.size a ≤ S1000000x64.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x64.size a ≤ S1000000x64.size a := fun v3 k6_hw1 => k6_hw1.1
theorem k6_off17_inb : ∀ (v3 : BitVec 32) (k6_hw1 : k6_chk1 v3), ∀ a, (k6_off17 v3) a + S1x64.size a ≤ S1000000x64.size a := fun v3 k6_hw1 => k6_hw1.2

def k6_off18 (v11 : BitVec 32) : Fin 2 → Nat :=
  let c0_i32_46 : BitVec 32 := 0#32
  ![v11.toNat, 0]

def k6_chk2 (v11 : BitVec 32) : Prop :=
  (∀ a, (k6_off4 v11) a + S1x64.size a ≤ S1000000x64.size a) ∧
  (∀ a, (k6_off18 v11) a + S1x64.size a ≤ S1000000x64.size a)
instance k6_chk2.dec : ∀ (v11 : BitVec 32), Decidable (k6_chk2 v11) := fun v11 => decidable_of_iff' _ (Iff.of_eq (k6_chk2.eq_1 v11))
theorem k6_off4_inb : ∀ (v11 : BitVec 32) (k6_hw2 : k6_chk2 v11), ∀ a, (k6_off4 v11) a + S1x64.size a ≤ S1000000x64.size a := fun v11 k6_hw2 => k6_hw2.1
theorem k6_off18_inb : ∀ (v11 : BitVec 32) (k6_hw2 : k6_chk2 v11), ∀ a, (k6_off18 v11) a + S1x64.size a ≤ S1000000x64.size a := fun v11 k6_hw2 => k6_hw2.2

def k6_off19 (v19 : BitVec 32) : Fin 2 → Nat :=
  let c0_i32_50 : BitVec 32 := 0#32
  ![v19.toNat, 0]

def k6_chk3 (v19 : BitVec 32) : Prop :=
  (∀ a, (k6_off6 v19) a + S1x64.size a ≤ S1000000x64.size a) ∧
  (∀ a, (k6_off19 v19) a + S1x64.size a ≤ S1000000x64.size a)
instance k6_chk3.dec : ∀ (v19 : BitVec 32), Decidable (k6_chk3 v19) := fun v19 => decidable_of_iff' _ (Iff.of_eq (k6_chk3.eq_1 v19))
theorem k6_off6_inb : ∀ (v19 : BitVec 32) (k6_hw3 : k6_chk3 v19), ∀ a, (k6_off6 v19) a + S1x64.size a ≤ S1000000x64.size a := fun v19 k6_hw3 => k6_hw3.1
theorem k6_off19_inb : ∀ (v19 : BitVec 32) (k6_hw3 : k6_chk3 v19), ∀ a, (k6_off19 v19) a + S1x64.size a ≤ S1000000x64.size a := fun v19 k6_hw3 => k6_hw3.2

def k6_off20 (v27 : BitVec 32) : Fin 2 → Nat :=
  let c0_i32_54 : BitVec 32 := 0#32
  ![v27.toNat, 0]

def k6_chk4 (v27 : BitVec 32) : Prop :=
  (∀ a, (k6_off8 v27) a + S1x64.size a ≤ S1000000x64.size a) ∧
  (∀ a, (k6_off20 v27) a + S1x64.size a ≤ S1000000x64.size a)
instance k6_chk4.dec : ∀ (v27 : BitVec 32), Decidable (k6_chk4 v27) := fun v27 => decidable_of_iff' _ (Iff.of_eq (k6_chk4.eq_1 v27))
theorem k6_off8_inb : ∀ (v27 : BitVec 32) (k6_hw4 : k6_chk4 v27), ∀ a, (k6_off8 v27) a + S1x64.size a ≤ S1000000x64.size a := fun v27 k6_hw4 => k6_hw4.1
theorem k6_off20_inb : ∀ (v27 : BitVec 32) (k6_hw4 : k6_chk4 v27), ∀ a, (k6_off20 v27) a + S1x64.size a ≤ S1000000x64.size a := fun v27 k6_hw4 => k6_hw4.2

def k6_off21 (v35 : BitVec 32) : Fin 2 → Nat :=
  let c0_i32_58 : BitVec 32 := 0#32
  ![v35.toNat, 0]

def k6_chk5 (v35 : BitVec 32) : Prop :=
  (∀ a, (k6_off10 v35) a + S1x64.size a ≤ S1000000x64.size a) ∧
  (∀ a, (k6_off21 v35) a + S1x64.size a ≤ S1000000x64.size a)
instance k6_chk5.dec : ∀ (v35 : BitVec 32), Decidable (k6_chk5 v35) := fun v35 => decidable_of_iff' _ (Iff.of_eq (k6_chk5.eq_1 v35))
theorem k6_off10_inb : ∀ (v35 : BitVec 32) (k6_hw5 : k6_chk5 v35), ∀ a, (k6_off10 v35) a + S1x64.size a ≤ S1000000x64.size a := fun v35 k6_hw5 => k6_hw5.1
theorem k6_off21_inb : ∀ (v35 : BitVec 32) (k6_hw5 : k6_chk5 v35), ∀ a, (k6_off21 v35) a + S1x64.size a ≤ S1000000x64.size a := fun v35 k6_hw5 => k6_hw5.2

def k6_off22 (v43 : BitVec 32) : Fin 2 → Nat :=
  let c0_i32_62 : BitVec 32 := 0#32
  ![v43.toNat, 0]

def k6_chk6 (v43 : BitVec 32) : Prop :=
  (∀ a, (k6_off12 v43) a + S1x64.size a ≤ S1000000x64.size a) ∧
  (∀ a, (k6_off22 v43) a + S1x64.size a ≤ S1000000x64.size a)
instance k6_chk6.dec : ∀ (v43 : BitVec 32), Decidable (k6_chk6 v43) := fun v43 => decidable_of_iff' _ (Iff.of_eq (k6_chk6.eq_1 v43))
theorem k6_off12_inb : ∀ (v43 : BitVec 32) (k6_hw6 : k6_chk6 v43), ∀ a, (k6_off12 v43) a + S1x64.size a ≤ S1000000x64.size a := fun v43 k6_hw6 => k6_hw6.1
theorem k6_off22_inb : ∀ (v43 : BitVec 32) (k6_hw6 : k6_chk6 v43), ∀ a, (k6_off22 v43) a + S1x64.size a ≤ S1000000x64.size a := fun v43 k6_hw6 => k6_hw6.2

def k6_off23 (v51 : BitVec 32) : Fin 2 → Nat :=
  let c0_i32_66 : BitVec 32 := 0#32
  ![v51.toNat, 0]

def k6_chk7 (v51 : BitVec 32) : Prop :=
  (∀ a, (k6_off14 v51) a + S1x64.size a ≤ S1000000x64.size a) ∧
  (∀ a, (k6_off23 v51) a + S1x64.size a ≤ S1000000x64.size a)
instance k6_chk7.dec : ∀ (v51 : BitVec 32), Decidable (k6_chk7 v51) := fun v51 => decidable_of_iff' _ (Iff.of_eq (k6_chk7.eq_1 v51))
theorem k6_off14_inb : ∀ (v51 : BitVec 32) (k6_hw7 : k6_chk7 v51), ∀ a, (k6_off14 v51) a + S1x64.size a ≤ S1000000x64.size a := fun v51 k6_hw7 => k6_hw7.1
theorem k6_off23_inb : ∀ (v51 : BitVec 32) (k6_hw7 : k6_chk7 v51), ∀ a, (k6_off23 v51) a + S1x64.size a ≤ S1000000x64.size a := fun v51 k6_hw7 => k6_hw7.2

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev grid7 : Pipeline.Grid := ⟨1, ![12800], ![false]⟩

abbrev pre7 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k7_off2 (v3 : BitVec 32) : Fin 2 → Nat :=
  let c0_i32_3 : BitVec 32 := 0#32
  ![v3.toNat, 0]

def k7_off3 (i : grid7.Coords) : Fin 1 → Nat :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v10 : Index := Scalar.indexCast v9
  ![v10.toNat]
def k7_off4 (v11 : BitVec 32) : Fin 2 → Nat :=
  let c0_i32_8 : BitVec 32 := 0#32
  ![v11.toNat, 0]

def k7_off5 (i : grid7.Coords) : Fin 1 → Nat :=
  let arg0 : BitVec 32 := BitVec.ofNat 32 (i 0).val
  let c8_i32_9 : BitVec 32 := 8#32
  let v16 : BitVec 32 := Scalar.muli arg0 c8_i32_9
  let c2_i32 : BitVec 32 := 2#32
  let v17 : BitVec 32 := Scalar.addi v16 c2_i32
  let v18 : Index := Scalar.indexCast v17
  ![v18.toNat]
def k7_off6 (v19 : BitVec 32) : Fin 2 → Nat :=
  let c0_i32_13 : BitVec 32 := 0#32
  ![v19.toNat, 0]

def k7_off7 (i : grid7.Coords) : Fin 1 → Nat :=
  let arg0 : BitVec 32 := BitVec.ofNat 32 (i 0).val
  let c8_i32_14 : BitVec 32 := 8#32
  let v24 : BitVec 32 := Scalar.muli arg0 c8_i32_14
  let c3_i32 : BitVec 32 := 3#32
  let v25 : BitVec 32 := Scalar.addi v24 c3_i32
  let v26 : Index := Scalar.indexCast v25
  ![v26.toNat]
def k7_off8 (v27 : BitVec 32) : Fin 2 → Nat :=
  let c0_i32_18 : BitVec 32 := 0#32
  ![v27.toNat, 0]

def k7_off9 (i : grid7.Coords) : Fin 1 → Nat :=
  let arg0 : BitVec 32 := BitVec.ofNat 32 (i 0).val
  let c8_i32_19 : BitVec 32 := 8#32
  let v32 : BitVec 32 := Scalar.muli arg0 c8_i32_19
  let c4_i32 : BitVec 32 := 4#32
  let v33 : BitVec 32 := Scalar.addi v32 c4_i32
  let v34 : Index := Scalar.indexCast v33
  ![v34.toNat]
def k7_off10 (v35 : BitVec 32) : Fin 2 → Nat :=
  let c0_i32_23 : BitVec 32 := 0#32
  ![v35.toNat, 0]

def k7_off11 (i : grid7.Coords) : Fin 1 → Nat :=
  let arg0 : BitVec 32 := BitVec.ofNat 32 (i 0).val
  let c8_i32_24 : BitVec 32 := 8#32
  let v40 : BitVec 32 := Scalar.muli arg0 c8_i32_24
  let c5_i32 : BitVec 32 := 5#32
  let v41 : BitVec 32 := Scalar.addi v40 c5_i32
  let v42 : Index := Scalar.indexCast v41
  ![v42.toNat]
def k7_off12 (v43 : BitVec 32) : Fin 2 → Nat :=
  let c0_i32_28 : BitVec 32 := 0#32
  ![v43.toNat, 0]

def k7_off13 (i : grid7.Coords) : Fin 1 → Nat :=
  let arg0 : BitVec 32 := BitVec.ofNat 32 (i 0).val
  let c8_i32_29 : BitVec 32 := 8#32
  let v48 : BitVec 32 := Scalar.muli arg0 c8_i32_29
  let c6_i32 : BitVec 32 := 6#32
  let v49 : BitVec 32 := Scalar.addi v48 c6_i32
  let v50 : Index := Scalar.indexCast v49
  ![v50.toNat]
def k7_off14 (v51 : BitVec 32) : Fin 2 → Nat :=
  let c0_i32_33 : BitVec 32 := 0#32
  ![v51.toNat, 0]

def k7_off15 (i : grid7.Coords) : Fin 1 → Nat :=
  let arg0 : BitVec 32 := BitVec.ofNat 32 (i 0).val
  let c8_i32_34 : BitVec 32 := 8#32
  let v56 : BitVec 32 := Scalar.muli arg0 c8_i32_34
  let c7_i32 : BitVec 32 := 7#32
  let v57 : BitVec 32 := Scalar.addi v56 c7_i32
  let v58 : Index := Scalar.indexCast v57
  ![v58.toNat]
def k7_off16 (v59 : BitVec 32) : Fin 2 → Nat :=
  let c0_i32_38 : BitVec 32 := 0#32
  ![v59.toNat, 0]

def k7_chk8 (v59 : BitVec 32) : Prop :=
  (∀ a, (k7_off16 v59) a + S1x64.size a ≤ S1000000x64.size a)
instance k7_chk8.dec : ∀ (v59 : BitVec 32), Decidable (k7_chk8 v59) := fun v59 => decidable_of_iff' _ (Iff.of_eq (k7_chk8.eq_1 v59))
theorem k7_off16_inb : ∀ (v59 : BitVec 32) (k7_hw8 : k7_chk8 v59), ∀ a, (k7_off16 v59) a + S1x64.size a ≤ S1000000x64.size a := fun v59 k7_hw8 => k7_hw8

def k7_off17 (v3 : BitVec 32) : Fin 2 → Nat :=
  let c0_i32_42 : BitVec 32 := 0#32
  ![v3.toNat, 0]

def k7_chk1 (v3 : BitVec 32) : Prop :=
  (∀ a, (k7_off2 v3) a + S1x64.size a ≤ S1000000x64.size a) ∧
  (∀ a, (k7_off17 v3) a + S1x64.size a ≤ S1000000x64.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x64.size a ≤ S1000000x64.size a := fun v3 k7_hw1 => k7_hw1.1
theorem k7_off17_inb : ∀ (v3 : BitVec 32) (k7_hw1 : k7_chk1 v3), ∀ a, (k7_off17 v3) a + S1x64.size a ≤ S1000000x64.size a := fun v3 k7_hw1 => k7_hw1.2

def k7_off18 (v11 : BitVec 32) : Fin 2 → Nat :=
  let c0_i32_46 : BitVec 32 := 0#32
  ![v11.toNat, 0]

def k7_chk2 (v11 : BitVec 32) : Prop :=
  (∀ a, (k7_off4 v11) a + S1x64.size a ≤ S1000000x64.size a) ∧
  (∀ a, (k7_off18 v11) a + S1x64.size a ≤ S1000000x64.size a)
instance k7_chk2.dec : ∀ (v11 : BitVec 32), Decidable (k7_chk2 v11) := fun v11 => decidable_of_iff' _ (Iff.of_eq (k7_chk2.eq_1 v11))
theorem k7_off4_inb : ∀ (v11 : BitVec 32) (k7_hw2 : k7_chk2 v11), ∀ a, (k7_off4 v11) a + S1x64.size a ≤ S1000000x64.size a := fun v11 k7_hw2 => k7_hw2.1
theorem k7_off18_inb : ∀ (v11 : BitVec 32) (k7_hw2 : k7_chk2 v11), ∀ a, (k7_off18 v11) a + S1x64.size a ≤ S1000000x64.size a := fun v11 k7_hw2 => k7_hw2.2

def k7_off19 (v19 : BitVec 32) : Fin 2 → Nat :=
  let c0_i32_50 : BitVec 32 := 0#32
  ![v19.toNat, 0]

def k7_chk3 (v19 : BitVec 32) : Prop :=
  (∀ a, (k7_off6 v19) a + S1x64.size a ≤ S1000000x64.size a) ∧
  (∀ a, (k7_off19 v19) a + S1x64.size a ≤ S1000000x64.size a)
instance k7_chk3.dec : ∀ (v19 : BitVec 32), Decidable (k7_chk3 v19) := fun v19 => decidable_of_iff' _ (Iff.of_eq (k7_chk3.eq_1 v19))
theorem k7_off6_inb : ∀ (v19 : BitVec 32) (k7_hw3 : k7_chk3 v19), ∀ a, (k7_off6 v19) a + S1x64.size a ≤ S1000000x64.size a := fun v19 k7_hw3 => k7_hw3.1
theorem k7_off19_inb : ∀ (v19 : BitVec 32) (k7_hw3 : k7_chk3 v19), ∀ a, (k7_off19 v19) a + S1x64.size a ≤ S1000000x64.size a := fun v19 k7_hw3 => k7_hw3.2

def k7_off20 (v27 : BitVec 32) : Fin 2 → Nat :=
  let c0_i32_54 : BitVec 32 := 0#32
  ![v27.toNat, 0]

def k7_chk4 (v27 : BitVec 32) : Prop :=
  (∀ a, (k7_off8 v27) a + S1x64.size a ≤ S1000000x64.size a) ∧
  (∀ a, (k7_off20 v27) a + S1x64.size a ≤ S1000000x64.size a)
instance k7_chk4.dec : ∀ (v27 : BitVec 32), Decidable (k7_chk4 v27) := fun v27 => decidable_of_iff' _ (Iff.of_eq (k7_chk4.eq_1 v27))
theorem k7_off8_inb : ∀ (v27 : BitVec 32) (k7_hw4 : k7_chk4 v27), ∀ a, (k7_off8 v27) a + S1x64.size a ≤ S1000000x64.size a := fun v27 k7_hw4 => k7_hw4.1
theorem k7_off20_inb : ∀ (v27 : BitVec 32) (k7_hw4 : k7_chk4 v27), ∀ a, (k7_off20 v27) a + S1x64.size a ≤ S1000000x64.size a := fun v27 k7_hw4 => k7_hw4.2

def k7_off21 (v35 : BitVec 32) : Fin 2 → Nat :=
  let c0_i32_58 : BitVec 32 := 0#32
  ![v35.toNat, 0]

def k7_chk5 (v35 : BitVec 32) : Prop :=
  (∀ a, (k7_off10 v35) a + S1x64.size a ≤ S1000000x64.size a) ∧
  (∀ a, (k7_off21 v35) a + S1x64.size a ≤ S1000000x64.size a)
instance k7_chk5.dec : ∀ (v35 : BitVec 32), Decidable (k7_chk5 v35) := fun v35 => decidable_of_iff' _ (Iff.of_eq (k7_chk5.eq_1 v35))
theorem k7_off10_inb : ∀ (v35 : BitVec 32) (k7_hw5 : k7_chk5 v35), ∀ a, (k7_off10 v35) a + S1x64.size a ≤ S1000000x64.size a := fun v35 k7_hw5 => k7_hw5.1
theorem k7_off21_inb : ∀ (v35 : BitVec 32) (k7_hw5 : k7_chk5 v35), ∀ a, (k7_off21 v35) a + S1x64.size a ≤ S1000000x64.size a := fun v35 k7_hw5 => k7_hw5.2

def k7_off22 (v43 : BitVec 32) : Fin 2 → Nat :=
  let c0_i32_62 : BitVec 32 := 0#32
  ![v43.toNat, 0]

def k7_chk6 (v43 : BitVec 32) : Prop :=
  (∀ a, (k7_off12 v43) a + S1x64.size a ≤ S1000000x64.size a) ∧
  (∀ a, (k7_off22 v43) a + S1x64.size a ≤ S1000000x64.size a)
instance k7_chk6.dec : ∀ (v43 : BitVec 32), Decidable (k7_chk6 v43) := fun v43 => decidable_of_iff' _ (Iff.of_eq (k7_chk6.eq_1 v43))
theorem k7_off12_inb : ∀ (v43 : BitVec 32) (k7_hw6 : k7_chk6 v43), ∀ a, (k7_off12 v43) a + S1x64.size a ≤ S1000000x64.size a := fun v43 k7_hw6 => k7_hw6.1
theorem k7_off22_inb : ∀ (v43 : BitVec 32) (k7_hw6 : k7_chk6 v43), ∀ a, (k7_off22 v43) a + S1x64.size a ≤ S1000000x64.size a := fun v43 k7_hw6 => k7_hw6.2

def k7_off23 (v51 : BitVec 32) : Fin 2 → Nat :=
  let c0_i32_66 : BitVec 32 := 0#32
  ![v51.toNat, 0]

def k7_chk7 (v51 : BitVec 32) : Prop :=
  (∀ a, (k7_off14 v51) a + S1x64.size a ≤ S1000000x64.size a) ∧
  (∀ a, (k7_off23 v51) a + S1x64.size a ≤ S1000000x64.size a)
instance k7_chk7.dec : ∀ (v51 : BitVec 32), Decidable (k7_chk7 v51) := fun v51 => decidable_of_iff' _ (Iff.of_eq (k7_chk7.eq_1 v51))
theorem k7_off14_inb : ∀ (v51 : BitVec 32) (k7_hw7 : k7_chk7 v51), ∀ a, (k7_off14 v51) a + S1x64.size a ≤ S1000000x64.size a := fun v51 k7_hw7 => k7_hw7.1
theorem k7_off23_inb : ∀ (v51 : BitVec 32) (k7_hw7 : k7_chk7 v51), ∀ a, (k7_off23 v51) a + S1x64.size a ≤ S1000000x64.size a := fun v51 k7_hw7 => k7_hw7.2

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

class Facts₀ : Prop where
  shapeCasts_S16384x50_S819200 : S16384x50.ShapeCasts S819200
  shapeCasts_S819200_S8x102400 : S819200.ShapeCasts S8x102400
  slices_S8x102400_S1x102400_0_0 : S8x102400.Slices ![0, 0] S1x102400
  shapeCasts_S1x102400_S102400 : S1x102400.ShapeCasts S102400
  numel1_S1 : S1.numel = 1
  inb_S8_S1_0 : ∀ a, (![0] : Fin 1 → Nat) a + S1.size a ≤ S8.size a
  squeezes_S1_S_ : S1.Squeezes S_
  inb_S8x64_S1x64_0_0 : ∀ a, (![0, 0] : Fin 2 → Nat) a + S1x64.size a ≤ S8x64.size a
  inb_S8_S1_1 : ∀ a, (![1] : Fin 1 → Nat) a + S1.size a ≤ S8.size a
  inb_S8x64_S1x64_1_0 : ∀ a, (![1, 0] : Fin 2 → Nat) a + S1x64.size a ≤ S8x64.size a
  inb_S8_S1_2 : ∀ a, (![2] : Fin 1 → Nat) a + S1.size a ≤ S8.size a
  inb_S8x64_S1x64_2_0 : ∀ a, (![2, 0] : Fin 2 → Nat) a + S1x64.size a ≤ S8x64.size a
  inb_S8_S1_3 : ∀ a, (![3] : Fin 1 → Nat) a + S1.size a ≤ S8.size a
  inb_S8x64_S1x64_3_0 : ∀ a, (![3, 0] : Fin 2 → Nat) a + S1x64.size a ≤ S8x64.size a
  inb_S8_S1_4 : ∀ a, (![4] : Fin 1 → Nat) a + S1.size a ≤ S8.size a
  inb_S8x64_S1x64_4_0 : ∀ a, (![4, 0] : Fin 2 → Nat) a + S1x64.size a ≤ S8x64.size a
  inb_S8_S1_5 : ∀ a, (![5] : Fin 1 → Nat) a + S1.size a ≤ S8.size a
  inb_S8x64_S1x64_5_0 : ∀ a, (![5, 0] : Fin 2 → Nat) a + S1x64.size a ≤ S8x64.size a
  inb_S8_S1_6 : ∀ a, (![6] : Fin 1 → Nat) a + S1.size a ≤ S8.size a
  inb_S8x64_S1x64_6_0 : ∀ a, (![6, 0] : Fin 2 → Nat) a + S1x64.size a ≤ S8x64.size a
  inb_S8_S1_7 : ∀ a, (![7] : Fin 1 → Nat) a + S1.size a ≤ S8.size a
  inb_S8x64_S1x64_7_0 : ∀ a, (![7, 0] : Fin 2 → Nat) a + S1x64.size a ≤ S8x64.size a
  slices_S8x102400_S1x102400_1_0 : S8x102400.Slices ![1, 0] S1x102400
  slices_S8x102400_S1x102400_2_0 : S8x102400.Slices ![2, 0] S1x102400
  slices_S8x102400_S1x102400_3_0 : S8x102400.Slices ![3, 0] S1x102400
  slices_S8x102400_S1x102400_4_0 : S8x102400.Slices ![4, 0] S1x102400
  slices_S8x102400_S1x102400_5_0 : S8x102400.Slices ![5, 0] S1x102400
  slices_S8x102400_S1x102400_6_0 : S8x102400.Slices ![6, 0] S1x102400
  slices_S8x102400_S1x102400_7_0 : S8x102400.Slices ![7, 0] S1x102400
  concatenates_S102400x64_S102400x64_S102400x64_S102400x64_S102400x64_S102400x64_S102400x64_S102400x64_S819200x64_d0 : Shape.Concatenates [S102400x64, S102400x64, S102400x64, S102400x64, S102400x64, S102400x64, S102400x64, S102400x64] S819200x64 0
  hcc0_scratch0 : 2 + S8.numel ≤ 80
  hcc1_scratch0 : 12 + S8.numel ≤ 80
  hcc2_scratch0 : 22 + S8.numel ≤ 80
  hcc3_scratch0 : 32 + S8.numel ≤ 80
  hcc4_scratch0 : 42 + S8.numel ≤ 80
  hcc5_scratch0 : 52 + S8.numel ≤ 80
  hcc6_scratch0 : 62 + S8.numel ≤ 80
  hcc7_scratch0 : 72 + S8.numel ≤ 80
  hrank0 : 0 < grid0.rank
  k0_off1_inb : ∀ i : grid0.Coords, ∀ a, (k0_off1 i) a + S1.size a ≤ S102400.size a
  k0_off3_inb : ∀ i : grid0.Coords, ∀ a, (k0_off3 i) a + S1.size a ≤ S102400.size a
  k0_off5_inb : ∀ i : grid0.Coords, ∀ a, (k0_off5 i) a + S1.size a ≤ S102400.size a
  k0_off7_inb : ∀ i : grid0.Coords, ∀ a, (k0_off7 i) a + S1.size a ≤ S102400.size a
  k0_off9_inb : ∀ i : grid0.Coords, ∀ a, (k0_off9 i) a + S1.size a ≤ S102400.size a
  k0_off11_inb : ∀ i : grid0.Coords, ∀ a, (k0_off11 i) a + S1.size a ≤ S102400.size a
  k0_off13_inb : ∀ i : grid0.Coords, ∀ a, (k0_off13 i) a + S1.size a ≤ S102400.size a
  k0_off15_inb : ∀ i : grid0.Coords, ∀ a, (k0_off15 i) a + S1.size a ≤ S102400.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x64.size a ≤ S102400x64.size a
  hwx0_0 : ∀ i : grid0.Coords, EltTy.bits .f32 = 32 ∨ (Rect.block (s := S102400x64) S8x64.size (cc0_transform_1 i) (hinb0_0 i)).WholeWords (EltTy.packing .f32)
  hrank1 : 0 < grid1.rank
  k1_off1_inb : ∀ i : grid1.Coords, ∀ a, (k1_off1 i) a + S1.size a ≤ S102400.size a
  k1_off3_inb : ∀ i : grid1.Coords, ∀ a, (k1_off3 i) a + S1.size a ≤ S102400.size a
  k1_off5_inb : ∀ i : grid1.Coords, ∀ a, (k1_off5 i) a + S1.size a ≤ S102400.size a
  k1_off7_inb : ∀ i : grid1.Coords, ∀ a, (k1_off7 i) a + S1.size a ≤ S102400.size a
  k1_off9_inb : ∀ i : grid1.Coords, ∀ a, (k1_off9 i) a + S1.size a ≤ S102400.size a
  k1_off11_inb : ∀ i : grid1.Coords, ∀ a, (k1_off11 i) a + S1.size a ≤ S102400.size a
  k1_off13_inb : ∀ i : grid1.Coords, ∀ a, (k1_off13 i) a + S1.size a ≤ S102400.size a
  k1_off15_inb : ∀ i : grid1.Coords, ∀ a, (k1_off15 i) a + S1.size a ≤ S102400.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S8x64.size a ≤ S102400x64.size a
  hwx1_0 : ∀ i : grid1.Coords, EltTy.bits .f32 = 32 ∨ (Rect.block (s := S102400x64) S8x64.size (cc1_transform_1 i) (hinb1_0 i)).WholeWords (EltTy.packing .f32)
  hrank2 : 0 < grid2.rank
  k2_off1_inb : ∀ i : grid2.Coords, ∀ a, (k2_off1 i) a + S1.size a ≤ S102400.size a
  k2_off3_inb : ∀ i : grid2.Coords, ∀ a, (k2_off3 i) a + S1.size a ≤ S102400.size a
  k2_off5_inb : ∀ i : grid2.Coords, ∀ a, (k2_off5 i) a + S1.size a ≤ S102400.size a
  k2_off7_inb : ∀ i : grid2.Coords, ∀ a, (k2_off7 i) a + S1.size a ≤ S102400.size a
  k2_off9_inb : ∀ i : grid2.Coords, ∀ a, (k2_off9 i) a + S1.size a ≤ S102400.size a
  k2_off11_inb : ∀ i : grid2.Coords, ∀ a, (k2_off11 i) a + S1.size a ≤ S102400.size a
  k2_off13_inb : ∀ i : grid2.Coords, ∀ a, (k2_off13 i) a + S1.size a ≤ S102400.size a
  k2_off15_inb : ∀ i : grid2.Coords, ∀ a, (k2_off15 i) a + S1.size a ≤ S102400.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x64.size a ≤ S102400x64.size a
  hwx2_0 : ∀ i : grid2.Coords, EltTy.bits .f32 = 32 ∨ (Rect.block (s := S102400x64) S8x64.size (cc2_transform_1 i) (hinb2_0 i)).WholeWords (EltTy.packing .f32)
  hrank3 : 0 < grid3.rank
  k3_off1_inb : ∀ i : grid3.Coords, ∀ a, (k3_off1 i) a + S1.size a ≤ S102400.size a
  k3_off3_inb : ∀ i : grid3.Coords, ∀ a, (k3_off3 i) a + S1.size a ≤ S102400.size a
  k3_off5_inb : ∀ i : grid3.Coords, ∀ a, (k3_off5 i) a + S1.size a ≤ S102400.size a
  k3_off7_inb : ∀ i : grid3.Coords, ∀ a, (k3_off7 i) a + S1.size a ≤ S102400.size a
  k3_off9_inb : ∀ i : grid3.Coords, ∀ a, (k3_off9 i) a + S1.size a ≤ S102400.size a
  k3_off11_inb : ∀ i : grid3.Coords, ∀ a, (k3_off11 i) a + S1.size a ≤ S102400.size a
  k3_off13_inb : ∀ i : grid3.Coords, ∀ a, (k3_off13 i) a + S1.size a ≤ S102400.size a
  k3_off15_inb : ∀ i : grid3.Coords, ∀ a, (k3_off15 i) a + S1.size a ≤ S102400.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S8x64.size a ≤ S102400x64.size a
  hwx3_0 : ∀ i : grid3.Coords, EltTy.bits .f32 = 32 ∨ (Rect.block (s := S102400x64) S8x64.size (cc3_transform_1 i) (hinb3_0 i)).WholeWords (EltTy.packing .f32)
  hrank4 : 0 < grid4.rank
  k4_off1_inb : ∀ i : grid4.Coords, ∀ a, (k4_off1 i) a + S1.size a ≤ S102400.size a
  k4_off3_inb : ∀ i : grid4.Coords, ∀ a, (k4_off3 i) a + S1.size a ≤ S102400.size a
  k4_off5_inb : ∀ i : grid4.Coords, ∀ a, (k4_off5 i) a + S1.size a ≤ S102400.size a
  k4_off7_inb : ∀ i : grid4.Coords, ∀ a, (k4_off7 i) a + S1.size a ≤ S102400.size a
  k4_off9_inb : ∀ i : grid4.Coords, ∀ a, (k4_off9 i) a + S1.size a ≤ S102400.size a
  k4_off11_inb : ∀ i : grid4.Coords, ∀ a, (k4_off11 i) a + S1.size a ≤ S102400.size a
  k4_off13_inb : ∀ i : grid4.Coords, ∀ a, (k4_off13 i) a + S1.size a ≤ S102400.size a
  k4_off15_inb : ∀ i : grid4.Coords, ∀ a, (k4_off15 i) a + S1.size a ≤ S102400.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S8x64.size a ≤ S102400x64.size a
  hwx4_0 : ∀ i : grid4.Coords, EltTy.bits .f32 = 32 ∨ (Rect.block (s := S102400x64) S8x64.size (cc4_transform_1 i) (hinb4_0 i)).WholeWords (EltTy.packing .f32)
  hrank5 : 0 < grid5.rank
  k5_off1_inb : ∀ i : grid5.Coords, ∀ a, (k5_off1 i) a + S1.size a ≤ S102400.size a
  k5_off3_inb : ∀ i : grid5.Coords, ∀ a, (k5_off3 i) a + S1.size a ≤ S102400.size a
  k5_off5_inb : ∀ i : grid5.Coords, ∀ a, (k5_off5 i) a + S1.size a ≤ S102400.size a
  k5_off7_inb : ∀ i : grid5.Coords, ∀ a, (k5_off7 i) a + S1.size a ≤ S102400.size a
  k5_off9_inb : ∀ i : grid5.Coords, ∀ a, (k5_off9 i) a + S1.size a ≤ S102400.size a
  k5_off11_inb : ∀ i : grid5.Coords, ∀ a, (k5_off11 i) a + S1.size a ≤ S102400.size a
  k5_off13_inb : ∀ i : grid5.Coords, ∀ a, (k5_off13 i) a + S1.size a ≤ S102400.size a
  k5_off15_inb : ∀ i : grid5.Coords, ∀ a, (k5_off15 i) a + S1.size a ≤ S102400.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S8x64.size a ≤ S102400x64.size a
  hwx5_0 : ∀ i : grid5.Coords, EltTy.bits .f32 = 32 ∨ (Rect.block (s := S102400x64) S8x64.size (cc5_transform_1 i) (hinb5_0 i)).WholeWords (EltTy.packing .f32)
  hrank6 : 0 < grid6.rank
  k6_off1_inb : ∀ i : grid6.Coords, ∀ a, (k6_off1 i) a + S1.size a ≤ S102400.size a
  k6_off3_inb : ∀ i : grid6.Coords, ∀ a, (k6_off3 i) a + S1.size a ≤ S102400.size a
  k6_off5_inb : ∀ i : grid6.Coords, ∀ a, (k6_off5 i) a + S1.size a ≤ S102400.size a
  k6_off7_inb : ∀ i : grid6.Coords, ∀ a, (k6_off7 i) a + S1.size a ≤ S102400.size a
  k6_off9_inb : ∀ i : grid6.Coords, ∀ a, (k6_off9 i) a + S1.size a ≤ S102400.size a
  k6_off11_inb : ∀ i : grid6.Coords, ∀ a, (k6_off11 i) a + S1.size a ≤ S102400.size a
  k6_off13_inb : ∀ i : grid6.Coords, ∀ a, (k6_off13 i) a + S1.size a ≤ S102400.size a
  k6_off15_inb : ∀ i : grid6.Coords, ∀ a, (k6_off15 i) a + S1.size a ≤ S102400.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S8x64.size a ≤ S102400x64.size a
  hwx6_0 : ∀ i : grid6.Coords, EltTy.bits .f32 = 32 ∨ (Rect.block (s := S102400x64) S8x64.size (cc6_transform_1 i) (hinb6_0 i)).WholeWords (EltTy.packing .f32)
  hrank7 : 0 < grid7.rank
  k7_off1_inb : ∀ i : grid7.Coords, ∀ a, (k7_off1 i) a + S1.size a ≤ S102400.size a
  k7_off3_inb : ∀ i : grid7.Coords, ∀ a, (k7_off3 i) a + S1.size a ≤ S102400.size a
  k7_off5_inb : ∀ i : grid7.Coords, ∀ a, (k7_off5 i) a + S1.size a ≤ S102400.size a
  k7_off7_inb : ∀ i : grid7.Coords, ∀ a, (k7_off7 i) a + S1.size a ≤ S102400.size a
  k7_off9_inb : ∀ i : grid7.Coords, ∀ a, (k7_off9 i) a + S1.size a ≤ S102400.size a
  k7_off11_inb : ∀ i : grid7.Coords, ∀ a, (k7_off11 i) a + S1.size a ≤ S102400.size a
  k7_off13_inb : ∀ i : grid7.Coords, ∀ a, (k7_off13 i) a + S1.size a ≤ S102400.size a
  k7_off15_inb : ∀ i : grid7.Coords, ∀ a, (k7_off15 i) a + S1.size a ≤ S102400.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S8x64.size a ≤ S102400x64.size a
  hwx7_0 : ∀ i : grid7.Coords, EltTy.bits .f32 = 32 ∨ (Rect.block (s := S102400x64) S8x64.size (cc7_transform_1 i) (hinb7_0 i)).WholeWords (EltTy.packing .f32)

variable [Facts₀]

abbrev cc0_scratch0 : DmaSems sig S8 := SemArray.consecutive 2 S8 hcc0_scratch0
abbrev cc1_scratch0 : DmaSems sig S8 := SemArray.consecutive 12 S8 hcc1_scratch0
abbrev cc2_scratch0 : DmaSems sig S8 := SemArray.consecutive 22 S8 hcc2_scratch0
abbrev cc3_scratch0 : DmaSems sig S8 := SemArray.consecutive 32 S8 hcc3_scratch0
abbrev cc4_scratch0 : DmaSems sig S8 := SemArray.consecutive 42 S8 hcc4_scratch0
abbrev cc5_scratch0 : DmaSems sig S8 := SemArray.consecutive 52 S8 hcc5_scratch0
abbrev cc6_scratch0 : DmaSems sig S8 := SemArray.consecutive 62 S8 hcc6_scratch0
abbrev cc7_scratch0 : DmaSems sig S8 := SemArray.consecutive 72 S8 hcc7_scratch0

abbrev spec0_0 : Pipeline.WinSpec sig grid0.rank :=
  Pipeline.WinSpec.ofSpec (Memref.whole main_v4) S8x64.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v7) S8x64.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v10) S8x64.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v13) S8x64.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev spec4_0 : Pipeline.WinSpec sig grid4.rank :=
  Pipeline.WinSpec.ofSpec (Memref.whole main_v16) S8x64.size reads4_0 true false 2 stage4_0 sem4_0 nbuf4_0 hstage4_0

abbrev spec4 : Fin 1 → Pipeline.WinSpec sig grid4.rank := fun | 0 => spec4_0 | ⟨_ + 1, h⟩ => absurd h (Nat.not_lt.2 (Nat.le_add_left _ _))
theorem hcount4 : ∀ w, grid4.bufCount (spec4 w).reads (spec4 w).sync = (spec4 w).nbuf := fun | 0 => nbuf4_0 | ⟨_ + 1, h⟩ => absurd h (Nat.not_lt.2 (Nat.le_add_left _ _))
abbrev ix4 (pf : pre4.Contents (Elt F)) : (w : Fin 1) → grid4.Coords → Fin (spec4 w).shape.rank → Nat := fun | 0 => cc4_transform_1 | ⟨_ + 1, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | ⟨_ + 1, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | ⟨_ + 1, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | ⟨_ + 1, h⟩ => absurd h (Nat.not_lt.2 (Nat.le_add_left _ _))
abbrev spec5_0 : Pipeline.WinSpec sig grid5.rank :=
  Pipeline.WinSpec.ofSpec (Memref.whole main_v19) S8x64.size reads5_0 true false 2 stage5_0 sem5_0 nbuf5_0 hstage5_0

abbrev spec5 : Fin 1 → Pipeline.WinSpec sig grid5.rank := fun | 0 => spec5_0 | ⟨_ + 1, h⟩ => absurd h (Nat.not_lt.2 (Nat.le_add_left _ _))
theorem hcount5 : ∀ w, grid5.bufCount (spec5 w).reads (spec5 w).sync = (spec5 w).nbuf := fun | 0 => nbuf5_0 | ⟨_ + 1, h⟩ => absurd h (Nat.not_lt.2 (Nat.le_add_left _ _))
abbrev ix5 (pf : pre5.Contents (Elt F)) : (w : Fin 1) → grid5.Coords → Fin (spec5 w).shape.rank → Nat := fun | 0 => cc5_transform_1 | ⟨_ + 1, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | ⟨_ + 1, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | ⟨_ + 1, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | ⟨_ + 1, h⟩ => absurd h (Nat.not_lt.2 (Nat.le_add_left _ _))
abbrev spec6_0 : Pipeline.WinSpec sig grid6.rank :=
  Pipeline.WinSpec.ofSpec (Memref.whole main_v22) S8x64.size reads6_0 true false 2 stage6_0 sem6_0 nbuf6_0 hstage6_0

abbrev spec6 : Fin 1 → Pipeline.WinSpec sig grid6.rank := fun | 0 => spec6_0 | ⟨_ + 1, h⟩ => absurd h (Nat.not_lt.2 (Nat.le_add_left _ _))
theorem hcount6 : ∀ w, grid6.bufCount (spec6 w).reads (spec6 w).sync = (spec6 w).nbuf := fun | 0 => nbuf6_0 | ⟨_ + 1, h⟩ => absurd h (Nat.not_lt.2 (Nat.le_add_left _ _))
abbrev ix6 (pf : pre6.Contents (Elt F)) : (w : Fin 1) → grid6.Coords → Fin (spec6 w).shape.rank → Nat := fun | 0 => cc6_transform_1 | ⟨_ + 1, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | ⟨_ + 1, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | ⟨_ + 1, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | ⟨_ + 1, h⟩ => absurd h (Nat.not_lt.2 (Nat.le_add_left _ _))
abbrev spec7_0 : Pipeline.WinSpec sig grid7.rank :=
  Pipeline.WinSpec.ofSpec (Memref.whole main_v25) S8x64.size reads7_0 true false 2 stage7_0 sem7_0 nbuf7_0 hstage7_0

abbrev spec7 : Fin 1 → Pipeline.WinSpec sig grid7.rank := fun | 0 => spec7_0 | ⟨_ + 1, h⟩ => absurd h (Nat.not_lt.2 (Nat.le_add_left _ _))
theorem hcount7 : ∀ w, grid7.bufCount (spec7 w).reads (spec7 w).sync = (spec7 w).nbuf := fun | 0 => nbuf7_0 | ⟨_ + 1, h⟩ => absurd h (Nat.not_lt.2 (Nat.le_add_left _ _))
abbrev ix7 (pf : pre7.Contents (Elt F)) : (w : Fin 1) → grid7.Coords → Fin (spec7 w).shape.rank → Nat := fun | 0 => cc7_transform_1 | ⟨_ + 1, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | ⟨_ + 1, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | ⟨_ + 1, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | ⟨_ + 1, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole

variable [Facts]
-- ==== ReferenceIdeal.lean ====
abbrev S16384x50 : Shape := ⟨2, ![16384, 50]⟩
abbrev S1000000x64 : Shape := ⟨2, ![1000000, 64]⟩
abbrev S819200 : Shape := ⟨1, ![819200]⟩
abbrev S_ : Shape := ⟨0, ![]⟩
abbrev S819200x1 : Shape := ⟨2, ![819200, 1]⟩
abbrev S1 : Shape := ⟨1, ![1]⟩
abbrev S1x1 : Shape := ⟨2, ![1, 1]⟩
abbrev S819200x64 : Shape := ⟨2, ![819200, 64]⟩

abbrev nBuf : Space → Nat
  | .hbm => 26
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S819200, .i32⟩
  | .hbm, ⟨3, _⟩ => ⟨S_, .i32⟩
  | .hbm, ⟨4, _⟩ => ⟨S819200, .i32⟩
  | .hbm, ⟨5, _⟩ => ⟨S819200, .i1⟩
  | .hbm, ⟨6, _⟩ => ⟨S_, .i32⟩
  | .hbm, ⟨7, _⟩ => ⟨S819200, .i32⟩
  | .hbm, ⟨8, _⟩ => ⟨S819200, .i32⟩
  | .hbm, ⟨9, _⟩ => ⟨S819200, .i32⟩
  | .hbm, ⟨10, _⟩ => ⟨S819200x1, .i32⟩
  | .hbm, ⟨11, _⟩ => ⟨S1, .i32⟩
  | .hbm, ⟨12, _⟩ => ⟨S_, .i32⟩
  | .hbm, ⟨13, _⟩ => ⟨S819200x1, .i32⟩
  | .hbm, ⟨14, _⟩ => ⟨S819200x1, .i1⟩
  | .hbm, ⟨15, _⟩ => ⟨S1x1, .i32⟩
  | .hbm, ⟨16, _⟩ => ⟨S819200x1, .i32⟩
  | .hbm, ⟨17, _⟩ => ⟨S819200x1, .i1⟩
  | .hbm, ⟨18, _⟩ => ⟨S819200x1, .i1⟩
  | .hbm, ⟨19, _⟩ => ⟨S_, .i1⟩
  | .hbm, ⟨20, _⟩ => ⟨S819200, .i1⟩
  | .hbm, ⟨21, _⟩ => ⟨S819200x64, .f32⟩
  | .hbm, ⟨22, _⟩ => ⟨S819200x64, .i1⟩
  | .hbm, ⟨23, _⟩ => ⟨S_, .f32⟩
  | .hbm, ⟨24, _⟩ => ⟨S819200x64, .f32⟩
  | .hbm, ⟨25, _⟩ => ⟨S819200x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  shapeCasts_S16384x50_S819200 : S16384x50.ShapeCasts S819200
  bcast_S_S819200 : S_.BroadcastsInDim S819200 (![] : Fin 0 → Fin S819200.rank)
  bcast_S819200_S819200x1_0 : S819200.BroadcastsInDim S819200x1 (![0] : Fin 1 → Fin S819200x1.rank)
  bcast_S_S819200x1 : S_.BroadcastsInDim S819200x1 (![] : Fin 0 → Fin S819200x1.rank)
  bcast_S1_S1x1_1 : S1.BroadcastsInDim S1x1 (![1] : Fin 1 → Fin S1x1.rank)
  bcast_S1x1_S819200x1_0_1 : S1x1.BroadcastsInDim S819200x1 (![0, 1] : Fin 2 → Fin S819200x1.rank)
  reducesTo_S819200x1_S819200_d1 : S819200x1.ReducesTo [1] S819200
  h_S_ : 0 < S_.numel
  bcast_S819200_S819200x64_0 : S819200.BroadcastsInDim S819200x64 (![0] : Fin 1 → Fin S819200x64.rank)
  bcast_S_S819200x64 : S_.BroadcastsInDim S819200x64 (![] : Fin 0 → Fin S819200x64.rank)
  gather_S1000000x64_S819200x1_S819200x64_1_0_n_n_0_1_164_wf : GatherDims.WF S1000000x64 S819200x1 S819200x64 [1] [0] [] [0] [] 1 ![1, 64]

variable [Facts₀]

def gather_S1000000x64_S819200x1_S819200x64_1_0_n_n_0_1_164 : GatherDims S1000000x64 S819200x1 S819200x64 where
  offsetDims := [1]
  collapsedSliceDims := [0]
  operandBatchingDims := []
  startIndicesBatchingDims := []
  startIndexMap := [0]
  indexVectorDim := 1
  sliceSizes := ![1, 64]
  wf := gather_S1000000x64_S819200x1_S819200x64_1_0_n_n_0_1_164_wf

class Facts : Prop extends Facts₀ where

variable [Facts]
-- ==== Proof.PreRange.lean ====
import proofs.«431176_j64484638982170_2_alg».proof.Proof.Gen.Pre_finite_inputs
import Idealize.ShloMosaic.Lib.Affine
import Idealize.ShloMosaic.Lib.ReduceAll
import Idealize.ShloMosaic.Lib.ValueIdx

namespace Cert.Hand.PreRange

open Idealize.ShloMosaic

instance : Subsingleton Cert.Pre_finite_inputs.S_.Idx := ⟨fun a b => funext fun d => d.elim0⟩

theorem toNat_lt_of_signed (w : BitVec 32) (h0 : IntOp.cmpi .sge w 0#32 = 1#1)
    (h1 : IntOp.cmpi .slt w 1000000#32 = 1#1) : w.toNat < 1000000 := by
  rw [IntOp.cmpi_sge] at h0
  rw [IntOp.cmpi_slt] at h1
  have e0 : (0#32 : BitVec 32).toInt = 0 := by decide
  have e1 : (1000000#32 : BitVec 32).toInt = 1000000 := by decide
  rw [e0] at h0
  rw [e1] at h1
  have hw := w.isLt
  rw [BitVec.toInt_eq_toNat_cond] at h0 h1
  split at h0 <;> omega

theorem ids_lt {F : FTy → Type} [FloatOps F] (ids : IVec Cert.Pre_finite_inputs.S16384x50 32)
    (table : FVec F Cert.Pre_finite_inputs.S1000000x64 .f32)
    (h : Cert.Pre_finite_inputs.fn (F := F) ids table = fun _ => 1#1) :
    ∀ x : Cert.Pre_finite_inputs.S16384x50.Idx, (ids x).toNat < 1000000 := by
  intro x
  have e := congrFun h ValueIdx.ix0
  dsimp only [Cert.Pre_finite_inputs.fn] at e
  have e2 := (IntOp.andi_eq_one.1 e).2
  have e3 := Host.reduce_andi_all _ _ _ _ _ e2 x
  obtain ⟨hge, hlt⟩ := IntOp.andi_eq_one.1 e3
  exact toNat_lt_of_signed (ids x) hge hlt

end Cert.Hand.PreRange
-- ==== Proof.CommonKernel.lean ====
import proofs.«431176_j64484638982170_2_alg».proof.Proof.Gen.Kernel.Launch
import Idealize.ShloMosaic.Lib.Tactic
import Idealize.ShloMosaic.Lib.Batch
import Idealize.ShloMosaic.Lib.Pipeline.Kit

noncomputable section

namespace Cert.Kernel.Hand

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev ptq (c : Dev nD) (q : PosShare TreeShare) {sp : Space} {S : Shape} {e : EltTy} (M : Memref sig .tc sp S e) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  ptq c fullShare M f
abbrev own (c : Dev nD) {sp : Space} {S : Shape} {e : EltTy} (M : Memref sig .tc sp S e) (f : Bf (F := F) c M) : sProp 𝕄 :=
  M.view.loc (c : Thread nD τ) ↦[M.view.set]{fullShare} f

abbrev row0 (M3 : Memref sig .tc .vmem S8x64 .f32) : Memref sig .tc .vmem S1x64 .f32 := M3.slice (Rect.unit (s := S8x64) ![0, 0] S1x64.size Facts₀.inb_S8x64_S1x64_0_0) (fun _ => rfl)
abbrev row1 (M3 : Memref sig .tc .vmem S8x64 .f32) : Memref sig .tc .vmem S1x64 .f32 := M3.slice (Rect.unit (s := S8x64) ![1, 0] S1x64.size Facts₀.inb_S8x64_S1x64_1_0) (fun _ => rfl)
abbrev row2 (M3 : Memref sig .tc .vmem S8x64 .f32) : Memref sig .tc .vmem S1x64 .f32 := M3.slice (Rect.unit (s := S8x64) ![2, 0] S1x64.size Facts₀.inb_S8x64_S1x64_2_0) (fun _ => rfl)
abbrev row3 (M3 : Memref sig .tc .vmem S8x64 .f32) : Memref sig .tc .vmem S1x64 .f32 := M3.slice (Rect.unit (s := S8x64) ![3, 0] S1x64.size Facts₀.inb_S8x64_S1x64_3_0) (fun _ => rfl)
abbrev row4 (M3 : Memref sig .tc .vmem S8x64 .f32) : Memref sig .tc .vmem S1x64 .f32 := M3.slice (Rect.unit (s := S8x64) ![4, 0] S1x64.size Facts₀.inb_S8x64_S1x64_4_0) (fun _ => rfl)
abbrev row5 (M3 : Memref sig .tc .vmem S8x64 .f32) : Memref sig .tc .vmem S1x64 .f32 := M3.slice (Rect.unit (s := S8x64) ![5, 0] S1x64.size Facts₀.inb_S8x64_S1x64_5_0) (fun _ => rfl)
abbrev row6 (M3 : Memref sig .tc .vmem S8x64 .f32) : Memref sig .tc .vmem S1x64 .f32 := M3.slice (Rect.unit (s := S8x64) ![6, 0] S1x64.size Facts₀.inb_S8x64_S1x64_6_0) (fun _ => rfl)
abbrev row7 (M3 : Memref sig .tc .vmem S8x64 .f32) : Memref sig .tc .vmem S1x64 .f32 := M3.slice (Rect.unit (s := S8x64) ![7, 0] S1x64.size Facts₀.inb_S8x64_S1x64_7_0) (fun _ => rfl)

abbrev arrTok (c : Dev nD) (k : ℕ) (farr : Bf (F := F) c (Memref.whole main_arg1)) : sProp 𝕄 :=
  ptq c (Transfers.shareTokN fullShare k) (Memref.whole main_arg1) farr
abbrev arrRest (c : Dev nD) (n : ℕ) (farr : Bf (F := F) c (Memref.whole main_arg1)) : sProp 𝕄 :=
  ptq c (Transfers.shareDrop fullShare n) (Memref.whole main_arg1) farr

def spareToks {ℓ : Loc nD τ sig} (f : Buf (Elt F) ℓ) (s : ℕ) : sProp 𝕄 :=
  iprop((ℓ ↦{Transfers.shareDrop fullShare (s + 8)} f) ∗ BI.bigSep (Finset.range s) (fun i => ℓ ↦{Transfers.shareTokN fullShare i} f))

/-- A full share is eight consecutive token shares beside a remainder. -/
theorem toks_split8 {ℓ : Loc nD τ sig} (f : Buf (Elt F) ℓ) (s : ℕ) :
    (ℓ ↦{fullShare} f : sProp 𝕄) ⊣⊢ iprop(spareToks f s ∗ (ℓ ↦{Transfers.shareTokN fullShare (s + 0)} f) ∗ (ℓ ↦{Transfers.shareTokN fullShare (s + 1)} f) ∗ (ℓ ↦{Transfers.shareTokN fullShare (s + 2)} f) ∗ (ℓ ↦{Transfers.shareTokN fullShare (s + 3)} f) ∗ (ℓ ↦{Transfers.shareTokN fullShare (s + 4)} f) ∗ (ℓ ↦{Transfers.shareTokN fullShare (s + 5)} f) ∗ (ℓ ↦{Transfers.shareTokN fullShare (s + 6)} f) ∗ (ℓ ↦{Transfers.shareTokN fullShare (s + 7)} f)) := by
  have h := Transfers.pointsTo_toks_range (Ix := Unit) (Name := ℕ) (U := UU nD τ) (Lvl := ℕ) (ℓ := ℓ) (S := Finset.univ) (f := f) fullShare (s + 8)
  have hb : BI.bigSep (Finset.range (s + 8)) (fun i => (ℓ ↦{Transfers.shareTokN fullShare i} f : sProp 𝕄))
      = iprop((ℓ ↦{Transfers.shareTokN fullShare (s + 7)} f) ∗ (ℓ ↦{Transfers.shareTokN fullShare (s + 6)} f) ∗ (ℓ ↦{Transfers.shareTokN fullShare (s + 5)} f) ∗ (ℓ ↦{Transfers.shareTokN fullShare (s + 4)} f) ∗ (ℓ ↦{Transfers.shareTokN fullShare (s + 3)} f) ∗ (ℓ ↦{Transfers.shareTokN fullShare (s + 2)} f) ∗ (ℓ ↦{Transfers.shareTokN fullShare (s + 1)} f) ∗ (ℓ ↦{Transfers.shareTokN fullShare (s + 0)} f) ∗ BI.bigSep (Finset.range s) (fun i => ℓ ↦{Transfers.shareTokN fullShare i} f)) := by
    rw [show s + 8 = (s + 7) + 1 from rfl, Finset.range_add_one, BI.bigSep_insert Finset.notMem_range_self,
      show s + 7 = (s + 6) + 1 from rfl, Finset.range_add_one, BI.bigSep_insert Finset.notMem_range_self,
      show s + 6 = (s + 5) + 1 from rfl, Finset.range_add_one, BI.bigSep_insert Finset.notMem_range_self,
      show s + 5 = (s + 4) + 1 from rfl, Finset.range_add_one, BI.bigSep_insert Finset.notMem_range_self,
      show s + 4 = (s + 3) + 1 from rfl, Finset.range_add_one, BI.bigSep_insert Finset.notMem_range_self,
      show s + 3 = (s + 2) + 1 from rfl, Finset.range_add_one, BI.bigSep_insert Finset.notMem_range_self,
      show s + 2 = (s + 1) + 1 from rfl, Finset.range_add_one, BI.bigSep_insert Finset.notMem_range_self,
      show s + 1 = (s + 0) + 1 from rfl, Finset.range_add_one, BI.bigSep_insert Finset.notMem_range_self]
    rfl
  rw [hb] at h
  unfold spareToks
  constructor
  · refine h.1.trans ?_
    iintro ⟨Hd, H7, H6, H5, H4, H3, H2, H1, H0, Hr⟩
    iframe
  · refine BIBase.Entails.trans ?_ h.2
    iintro ⟨⟨Hd, Hr⟩, H0, H1, H2, H3, H4, H5, H6, H7⟩
    iframe

end Cert.Kernel.Hand

end
-- ==== Proof.RowsKernel.lean ====
import proofs.«431176_j64484638982170_2_alg».proof.Proof.CommonKernel
import Idealize.ShloMosaic.Lib.Memref
import Idealize.ShloMosaic.Lib.ValueIdx

noncomputable section

namespace Cert.Kernel.Hand

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

abbrev rowRect (j : ℕ) (h : ∀ a, (![j, 0] : Fin 2 → ℕ) a + S1x64.size a ≤ S8x64.size a) : Rect S8x64 :=
  Rect.unit (s := S8x64) ![j, 0] S1x64.size h

theorem mem_rowRect {j : ℕ} {h : ∀ a, (![j, 0] : Fin 2 → ℕ) a + S1x64.size a ≤ S8x64.size a} {y : S8x64.Idx} :
    y ∈ (rowRect j h).set ↔ (y 0).val = j := by
  have h1 := ValueIdx.idx2_lt1 y
  rw [Rect.mem_set_unit, Fin.forall_fin_two]
  simp only [Matrix.cons_val_zero, Matrix.cons_val_one]
  constructor
  · rintro ⟨⟨h0, h0'⟩, -⟩; omega
  · intro e; refine ⟨⟨by omega, by omega⟩, by omega, by omega⟩

theorem rowRect_disjoint {j j' : ℕ} (hne : j ≠ j') {h : ∀ a, (![j, 0] : Fin 2 → ℕ) a + S1x64.size a ≤ S8x64.size a}
    {h' : ∀ a, (![j', 0] : Fin 2 → ℕ) a + S1x64.size a ≤ S8x64.size a} :
    Disjoint (rowRect j h).set (rowRect j' h').set :=
  Finset.disjoint_left.mpr fun y hy hy' => hne ((mem_rowRect.mp hy).symm.trans (mem_rowRect.mp hy'))

theorem rows_set (M3 : Memref sig .tc .vmem S8x64 .f32) :
    M3.view.set = (M3.view.slice (rowRect 0 inb_S8x64_S1x64_0_0)).set ∪ ((M3.view.slice (rowRect 1 inb_S8x64_S1x64_1_0)).set
      ∪ ((M3.view.slice (rowRect 2 inb_S8x64_S1x64_2_0)).set ∪ ((M3.view.slice (rowRect 3 inb_S8x64_S1x64_3_0)).set
      ∪ ((M3.view.slice (rowRect 4 inb_S8x64_S1x64_4_0)).set ∪ ((M3.view.slice (rowRect 5 inb_S8x64_S1x64_5_0)).set
      ∪ ((M3.view.slice (rowRect 6 inb_S8x64_S1x64_6_0)).set ∪ (M3.view.slice (rowRect 7 inb_S8x64_S1x64_7_0)).set)))))) := by
  ext i
  simp only [Finset.mem_union, View.set_slice, Finset.mem_map]
  constructor
  · intro hi
    obtain ⟨y, -, rfl⟩ := Finset.mem_map.mp hi
    have h0 := ValueIdx.idx2_lt0 y
    have hc : (y 0).val = 0 ∨ (y 0).val = 1 ∨ (y 0).val = 2 ∨ (y 0).val = 3 ∨ (y 0).val = 4 ∨ (y 0).val = 5 ∨ (y 0).val = 6
        ∨ (y 0).val = 7 := by omega
    rcases hc with h | h | h | h | h | h | h | h
    · exact .inl ⟨y, mem_rowRect.mpr h, rfl⟩
    · exact .inr (.inl ⟨y, mem_rowRect.mpr h, rfl⟩)
    · exact .inr (.inr (.inl ⟨y, mem_rowRect.mpr h, rfl⟩))
    · exact .inr (.inr (.inr (.inl ⟨y, mem_rowRect.mpr h, rfl⟩)))
    · exact .inr (.inr (.inr (.inr (.inl ⟨y, mem_rowRect.mpr h, rfl⟩))))
    · exact .inr (.inr (.inr (.inr (.inr (.inl ⟨y, mem_rowRect.mpr h, rfl⟩)))))
    · exact .inr (.inr (.inr (.inr (.inr (.inr (.inl ⟨y, mem_rowRect.mpr h, rfl⟩))))))
    · exact .inr (.inr (.inr (.inr (.inr (.inr (.inr ⟨y, mem_rowRect.mpr h, rfl⟩))))))
  · rintro (⟨y, -, rfl⟩ | ⟨y, -, rfl⟩ | ⟨y, -, rfl⟩ | ⟨y, -, rfl⟩ | ⟨y, -, rfl⟩ | ⟨y, -, rfl⟩ | ⟨y, -, rfl⟩ | ⟨y, -, rfl⟩) <;> exact M3.view.emb_mem_set y

theorem slice_disjoint (M3 : Memref sig .tc .vmem S8x64 .f32) {j j' : ℕ} (hne : j ≠ j')
    {h : ∀ a, (![j, 0] : Fin 2 → ℕ) a + S1x64.size a ≤ S8x64.size a}
    {h' : ∀ a, (![j', 0] : Fin 2 → ℕ) a + S1x64.size a ≤ S8x64.size a} :
    Disjoint (M3.view.slice (rowRect j h)).set (M3.view.slice (rowRect j' h')).set := by
  rw [View.set_slice, View.set_slice]; exact (Finset.disjoint_map _).mpr (rowRect_disjoint hne)

theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- A block is the disjoint union of its eight rows. -/
theorem own_rows_eq (c : Dev nD) (M3 : Memref sig .tc .vmem S8x64 .f32) (g : Bf (F := F) c M3) :
    (own c M3 g : sProp 𝕄) = iprop(own c (row0 M3) g ∗ own c (row1 M3) g ∗ own c (row2 M3) g ∗ own c (row3 M3) g
      ∗ own c (row4 M3) g ∗ own c (row5 M3) g ∗ own c (row6 M3) g ∗ own c (row7 M3) g) := by
  show (M3.view.loc (c : Thread nD τ) ↦[M3.view.set]{fullShare} g : sProp 𝕄) = _
  rw [rows_set M3]
  rw [pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (slice_disjoint M3 (by decide))]

theorem rows_split (c : Dev nD) (M3 : Memref sig .tc .vmem S8x64 .f32) (h3 : M3.IsWhole) (f : Bf (F := F) c M3) :
    own c M3 f ⊢ iprop(own c (row0 M3) f ∗ own c (row1 M3) f ∗ own c (row2 M3) f ∗ own c (row3 M3) f ∗ own c (row4 M3) f
      ∗ own c (row5 M3) f ∗ own c (row6 M3) f ∗ own c (row7 M3) f) :=
  Entails.of_eq (own_rows_eq c M3 f)

abbrev srcRowN (n : ℕ) (hn : ∀ a, (![n, 0] : Fin 2 → Nat) a + S1x64.size a ≤ S1000000x64.size a) : Memref sig .tc .hbm S1x64 .f32 :=
  (Memref.whole main_arg1).slice (Rect.unit (s := S1000000x64) ![n, 0] S1x64.size hn) (fun _ => rfl)

abbrev landedN (c : Dev nD) (R : Memref sig .tc .vmem S1x64 .f32) (f3 : Bf (F := F) c R) (farr : Bf (F := F) c (Memref.whole main_arg1))
    (n : ℕ) (hn : ∀ a, (![n, 0] : Fin 2 → Nat) a + S1x64.size a ≤ S1000000x64.size a) : Bf (F := F) c R :=
  R.view.writes (Elt F) f3 [⟨Rect.whole S1x64, ReadAs.same.apply ((srcRowN n hn).view.read (Elt F) farr)⟩]

def gblock {c : Dev nD} (farr : Bf (F := F) c (Memref.whole main_arg1)) (n : Fin 8 → ℕ) (hn : ∀ j, n j < 1000000) : S8x64.Idx → Elt F .f32 :=
  fun y => farr (ValueIdx.ix2 (⟨n ⟨(y 0).val, (y 0).isLt⟩, hn _⟩ : Fin 1000000) (⟨(y 1).val, (y 1).isLt⟩ : Fin 64))

theorem row_landed_read (c : Dev nD) (M3 : Memref sig .tc .vmem S8x64 .f32) (f3 : Bf (F := F) c M3)
    (farr : Bf (F := F) c (Memref.whole main_arg1)) (n : Fin 8 → ℕ) (hn : ∀ j, n j < 1000000)
    (j : Fin 8) (hj : ∀ a, (![j.val, 0] : Fin 2 → ℕ) a + S1x64.size a ≤ S8x64.size a)
    (hb : ∀ a, (![n j, 0] : Fin 2 → Nat) a + S1x64.size a ≤ S1000000x64.size a)
    (x : S1x64.Idx) :
    (M3.slice (rowRect j.val hj) (fun _ => rfl)).view.read (Elt F)
        (landedN c (M3.slice (rowRect j.val hj) (fun _ => rfl)) f3 farr (n j) hb) x
      = gblock farr n hn ((rowRect j.val hj).emb x) := by
  have hx := View.read_writes_cons_emb (M3.slice (rowRect j.val hj) (fun _ => rfl)).view f3 (Rect.whole S1x64)
    (ReadAs.same.apply ((srcRowN (n j) hb).view.read (Elt F) farr)) [] x
  have e : (Rect.whole S1x64).emb x = x := Rect.emb_whole_apply S1x64 x
  rw [e] at hx
  refine hx.trans ?_
  have hx0 : (x 0).val = 0 := by have := ValueIdx.idx2_lt0 x; omega
  rw [ReadAs.apply_same]
  show farr ((Rect.unit (s := S1000000x64) ![n j, 0] S1x64.size hb).emb x) = farr _
  congr 1
  funext a
  match a with
  | ⟨0, _⟩ =>
    apply Fin.ext
    have h0 : ((rowRect j.val hj).emb x 0).val = j.val := by
      show ![j.val, 0] 0 + 1 * (x 0).val = j.val
      rw [hx0]; rfl
    have key : ∀ t : Fin 8, t.val = j.val → n j = n t := fun t ht => congrArg n (Fin.ext ht.symm)
    refine Eq.trans ?_ (key _ h0)
    show ![n j, 0] 0 + 1 * (x 0).val = n j
    rw [hx0]; rfl
  | ⟨1, _⟩ =>
    apply Fin.ext
    rfl

theorem own_row_congr (c : Dev nD) (M3 : Memref sig .tc .vmem S8x64 .f32) (r : Rect S8x64) (hr : ∀ a, r.stride a = 1)
    (g g' : Bf (F := F) c M3)
    (h : ∀ x, (M3.slice r hr).view.read (Elt F) g x = M3.view.read (Elt F) g' (r.emb x)) :
    (own c (M3.slice r hr) g : sProp 𝕄) = own c (M3.slice r hr) g' :=
  pointsTo_congr fun i hi => by
    obtain ⟨x, -, rfl⟩ := Finset.mem_map.mp hi
    have := h x
    simp only [View.read] at this
    exact (cast_inj _).mp this

/-- Eight rows, row `j` holding table row `n j`, are the block that reads as `(j, k) ↦ table (n j, k)`. -/
theorem rows_join_block (c : Dev nD) (M3 : Memref sig .tc .vmem S8x64 .f32) (h3 : M3.IsWhole) (f3 : Bf (F := F) c M3)
    (farr : Bf (F := F) c (Memref.whole main_arg1))
    (n : Fin 8 → ℕ) (hn : ∀ j, n j < 1000000) (hb : ∀ j a, (![n j, 0] : Fin 2 → Nat) a + S1x64.size a ≤ S1000000x64.size a) :
    iprop(own c (row0 M3) (landedN c (row0 M3) f3 farr (n 0) (hb 0))
      ∗ own c (row1 M3) (landedN c (row1 M3) f3 farr (n 1) (hb 1))
      ∗ own c (row2 M3) (landedN c (row2 M3) f3 farr (n 2) (hb 2))
      ∗ own c (row3 M3) (landedN c (row3 M3) f3 farr (n 3) (hb 3))
      ∗ own c (row4 M3) (landedN c (row4 M3) f3 farr (n 4) (hb 4))
      ∗ own c (row5 M3) (landedN c (row5 M3) f3 farr (n 5) (hb 5))
      ∗ own c (row6 M3) (landedN c (row6 M3) f3 farr (n 6) (hb 6))
      ∗ own c (row7 M3) (landedN c (row7 M3) f3 farr (n 7) (hb 7)))
      ⊢ owns (c : Thread nD τ) M3 fullShare (gblock farr n hn) := by
  have key (j : Fin 8) (hj : ∀ a, (![j.val, 0] : Fin 2 → ℕ) a + S1x64.size a ≤ S8x64.size a) :
      (own c (M3.slice (rowRect j.val hj) (fun _ => rfl))
          (landedN c (M3.slice (rowRect j.val hj) (fun _ => rfl)) f3 farr (n j) (hb j)) : sProp 𝕄)
        = own c (M3.slice (rowRect j.val hj) (fun _ => rfl)) (M3.view.write (Elt F) f3 (gblock farr n hn) Finset.univ) :=
    own_row_congr c M3 _ _ _ _ fun x => (row_landed_read c M3 f3 farr n hn j hj (hb j) x).trans
      (View.read_write_of_mem (v := M3.view) f3 (gblock farr n hn) (Finset.mem_univ _)).symm
  have e0 : (own c (row0 M3) (landedN c (row0 M3) f3 farr (n 0) (hb 0)) : sProp 𝕄)
      = own c (row0 M3) (M3.view.write (Elt F) f3 (gblock farr n hn) Finset.univ) := key 0 inb_S8x64_S1x64_0_0
  have e1 : (own c (row1 M3) (landedN c (row1 M3) f3 farr (n 1) (hb 1)) : sProp 𝕄)
      = own c (row1 M3) (M3.view.write (Elt F) f3 (gblock farr n hn) Finset.univ) := key 1 inb_S8x64_S1x64_1_0
  have e2 : (own c (row2 M3) (landedN c (row2 M3) f3 farr (n 2) (hb 2)) : sProp 𝕄)
      = own c (row2 M3) (M3.view.write (Elt F) f3 (gblock farr n hn) Finset.univ) := key 2 inb_S8x64_S1x64_2_0
  have e3 : (own c (row3 M3) (landedN c (row3 M3) f3 farr (n 3) (hb 3)) : sProp 𝕄)
      = own c (row3 M3) (M3.view.write (Elt F) f3 (gblock farr n hn) Finset.univ) := key 3 inb_S8x64_S1x64_3_0
  have e4 : (own c (row4 M3) (landedN c (row4 M3) f3 farr (n 4) (hb 4)) : sProp 𝕄)
      = own c (row4 M3) (M3.view.write (Elt F) f3 (gblock farr n hn) Finset.univ) := key 4 inb_S8x64_S1x64_4_0
  have e5 : (own c (row5 M3) (landedN c (row5 M3) f3 farr (n 5) (hb 5)) : sProp 𝕄)
      = own c (row5 M3) (M3.view.write (Elt F) f3 (gblock farr n hn) Finset.univ) := key 5 inb_S8x64_S1x64_5_0
  have e6 : (own c (row6 M3) (landedN c (row6 M3) f3 farr (n 6) (hb 6)) : sProp 𝕄)
      = own c (row6 M3) (M3.view.write (Elt F) f3 (gblock farr n hn) Finset.univ) := key 6 inb_S8x64_S1x64_6_0
  have e7 : (own c (row7 M3) (landedN c (row7 M3) f3 farr (n 7) (hb 7)) : sProp 𝕄)
      = own c (row7 M3) (M3.view.write (Elt F) f3 (gblock farr n hn) Finset.univ) := key 7 inb_S8x64_S1x64_7_0
  rw [e0, e1, e2, e3, e4, e5, e6, e7, ← own_rows_eq c M3 (M3.view.write (Elt F) f3 (gblock farr n hn) Finset.univ)]
  have hr : M3.view.read (Elt F) (M3.view.write (Elt F) f3 (gblock farr n hn) Finset.univ) = gblock farr n hn :=
    View.read_write_univ (v := M3.view) f3 _
  have hi := owns_intro (Ix := Unit) (Name := ℕ) (U := UU nD τ) (Lvl := ℕ) (c : Thread nD τ) M3 fullShare
    (M3.view.write (Elt F) f3 (gblock farr n hn) Finset.univ)
  rw [hr] at hi
  exact hi

end Cert.Kernel.Hand

end
-- ==== Proof.Spec.lean ====
import Idealize.ShloMosaic.Lib.ValueIdx

namespace Cert.Hand.Spec

open Idealize.ShloMosaic

abbrev SIds : Shape := ⟨2, ![16384, 50]⟩
abbrev STab : Shape := ⟨2, ![1000000, 64]⟩
abbrev SOut : Shape := ⟨2, ![819200, 64]⟩

def idAt (ids : SIds.Idx → BitVec 32) (p : Fin 819200) : BitVec 32 :=
  ids (ValueIdx.ix2 (⟨p.val / 50, by omega⟩ : Fin 16384) (⟨p.val % 50, Nat.mod_lt _ (by decide)⟩ : Fin 50))

def rowOf (w : BitVec 32) : Fin 1000000 := ⟨w.toNat % 1000000, Nat.mod_lt _ (by decide)⟩

theorem rowOf_val_of_lt (w : BitVec 32) (h : w.toNat < 1000000) : (rowOf w).val = w.toNat := Nat.mod_eq_of_lt h

/-- `out[p, k] = table[ids_flat[p], k]`, an id read modulo the table's height. -/
def gather {α : Type} (ids : SIds.Idx → BitVec 32) (table : STab.Idx → α) : SOut.Idx → α :=
  fun y => table (ValueIdx.ix2 (rowOf (idAt ids (⟨(y 0).val, (y 0).isLt⟩ : Fin 819200))) (⟨(y 1).val, (y 1).isLt⟩ : Fin 64))

theorem gather_apply {α : Type} (ids : SIds.Idx → BitVec 32) (table : STab.Idx → α) (p : Fin 819200) (k : Fin 64) :
    gather ids table (ValueIdx.ix2 p k) = table (ValueIdx.ix2 (rowOf (idAt ids p)) k) := rfl

abbrev SChunk : Shape := ⟨2, ![102400, 64]⟩

/-- Rows `102400 K …` of the gather. -/
def gatherChunk {α : Type} (K : Fin 8) (ids : SIds.Idx → BitVec 32) (table : STab.Idx → α) : SChunk.Idx → α :=
  fun y => table (ValueIdx.ix2 (rowOf (idAt ids (⟨102400 * K.val + (y 0).val, by have h : (y 0).val < 102400 := (y 0).isLt; have := K.isLt; omega⟩ : Fin 819200)))
    (⟨(y 1).val, (y 1).isLt⟩ : Fin 64))

theorem gatherChunk_apply {α : Type} (K : Fin 8) (ids : SIds.Idx → BitVec 32) (table : STab.Idx → α) (p : Fin 102400) (k : Fin 64) :
    gatherChunk K ids table (ValueIdx.ix2 p k)
      = gather ids table (ValueIdx.ix2 (⟨102400 * K.val + p.val, by have := K.isLt; omega⟩ : Fin 819200) k) := rfl

end Cert.Hand.Spec
-- ==== Proof.TablesKernel.lean ====
import proofs.«431176_j64484638982170_2_alg».proof.Proof.CommonKernel
import proofs.«431176_j64484638982170_2_alg».proof.Proof.Spec

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

variable (m : (ℓ : Loc nD τ sig) → Buf (Elt F) ℓ)

abbrev idsOf (c : Dev nD) : IVec S16384x50 32 := m ((c : Thread nD τ).loc main_arg0)
abbrev arrOf (c : Dev nD) : Bf (F := F) c (Memref.whole main_arg1) := m ((c : Thread nD τ).loc main_arg1)

def InRange : Prop := ∀ (c : Dev nD) (x : S16384x50.Idx), (idsOf m c x).toNat < 1000000

def chunk (K : Fin 8) (ids : IVec S16384x50 32) : IVec S102400 32 := fun x =>
  Cert.Hand.Spec.idAt ids ⟨102400 * K.val + (x 0).val, by have h : (x 0).val < 102400 := (x 0).isLt; have := K.isLt; omega⟩

theorem chunk_lt {m} (hR : InRange (F := F) m) (c : Dev nD) (K : Fin 8) (x : S102400.Idx) : (chunk K (idsOf m c) x).toNat < 1000000 := hR c _

theorem row_inb (n : ℕ) (h : n < 1000000) : ∀ a, (![n, 0] : Fin 2 → Nat) a + S1x64.size a ≤ S1000000x64.size a := by
  intro a
  match a with
  | ⟨0, _⟩ => show n + 1 ≤ 1000000; omega
  | ⟨1, _⟩ => show 0 + 64 ≤ 64; omega

end Cert.Kernel.Hand

end
-- ==== Proof.BodyKernel.lean ====
import proofs.«431176_j64484638982170_2_alg».proof.Proof.RowsKernel
import proofs.«431176_j64484638982170_2_alg».proof.Proof.TablesKernel
import proofs.«431176_j64484638982170_2_alg».proof.Proof.Gen.Kernel.Skeleton

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

abbrev wordAt (T : Memref sig .tc .smem S102400 .i32) (c : Dev nD) (ftab : Bf (F := F) c T) (off : Fin 1 → ℕ)
    (h : ∀ a, off a + S1.size a ≤ S102400.size a) : Elt F .i32 :=
  T.view.readAt (Elt F) (Rect.unit (s := S102400) off S1.size h).toLoadRect ftab (Shape.Idx.first (Facts₀.numel1_S1.symm ▸ Nat.one_pos))

/-- The eight ids a grid point reads: entries `8 i … 8 i + 7` of its call's id table. -/
def words (T : Memref sig .tc .smem S102400 .i32) (c : Dev nD) (i : grid0.Coords) (ftab : Bf (F := F) c T) : Fin 8 → Elt F .i32
  | 0 => wordAt T c ftab (k0_off1 i) (Facts₀.k0_off1_inb i)
  | 1 => wordAt T c ftab (k0_off3 i) (Facts₀.k0_off3_inb i)
  | 2 => wordAt T c ftab (k0_off5 i) (Facts₀.k0_off5_inb i)
  | 3 => wordAt T c ftab (k0_off7 i) (Facts₀.k0_off7_inb i)
  | 4 => wordAt T c ftab (k0_off9 i) (Facts₀.k0_off9_inb i)
  | 5 => wordAt T c ftab (k0_off11 i) (Facts₀.k0_off11_inb i)
  | 6 => wordAt T c ftab (k0_off13 i) (Facts₀.k0_off13_inb i)
  | 7 => wordAt T c ftab (k0_off15 i) (Facts₀.k0_off15_inb i)
  | ⟨_ + 8, h⟩ => absurd h (Nat.not_lt.2 (Nat.le_add_left _ _))

abbrev srcRow (w : Elt F .i32) (hw : ∀ a, (k0_off2 w) a + S1x64.size a ≤ S1000000x64.size a) : Memref sig .tc .hbm S1x64 .f32 :=
  (Memref.whole main_arg1).slice (Rect.unit (s := S1000000x64) (k0_off2 w) S1x64.size hw) (fun _ => rfl)

abbrev landed (c : Dev nD) (R : Memref sig .tc .vmem S1x64 .f32) (f3 : Bf (F := F) c R) (farr : Bf (F := F) c (Memref.whole main_arg1))
    (w : Elt F .i32) (hw : ∀ a, (k0_off2 w) a + S1x64.size a ≤ S1000000x64.size a) : Bf (F := F) c R :=
  R.view.writes (Elt F) f3 [⟨Rect.whole S1x64, ReadAs.same.apply ((srcRow w hw).view.read (Elt F) farr)⟩]

abbrev sm0 (sc : DmaSems sig S8) : DmaSem sig := ((sc.slice (Rect.unit (s := S8) ![0] S1.size inb_S8_S1_0)).squeeze S_ squeezes_S1_S_).sem
abbrev sm1 (sc : DmaSems sig S8) : DmaSem sig := ((sc.slice (Rect.unit (s := S8) ![1] S1.size inb_S8_S1_1)).squeeze S_ squeezes_S1_S_).sem
abbrev sm2 (sc : DmaSems sig S8) : DmaSem sig := ((sc.slice (Rect.unit (s := S8) ![2] S1.size inb_S8_S1_2)).squeeze S_ squeezes_S1_S_).sem
abbrev sm3 (sc : DmaSems sig S8) : DmaSem sig := ((sc.slice (Rect.unit (s := S8) ![3] S1.size inb_S8_S1_3)).squeeze S_ squeezes_S1_S_).sem
abbrev sm4 (sc : DmaSems sig S8) : DmaSem sig := ((sc.slice (Rect.unit (s := S8) ![4] S1.size inb_S8_S1_4)).squeeze S_ squeezes_S1_S_).sem
abbrev sm5 (sc : DmaSems sig S8) : DmaSem sig := ((sc.slice (Rect.unit (s := S8) ![5] S1.size inb_S8_S1_5)).squeeze S_ squeezes_S1_S_).sem
abbrev sm6 (sc : DmaSems sig S8) : DmaSem sig := ((sc.slice (Rect.unit (s := S8) ![6] S1.size inb_S8_S1_6)).squeeze S_ squeezes_S1_S_).sem
abbrev sm7 (sc : DmaSems sig S8) : DmaSem sig := ((sc.slice (Rect.unit (s := S8) ![7] S1.size inb_S8_S1_7)).squeeze S_ squeezes_S1_S_).sem

abbrev semsOf (sc : DmaSems sig S8) (c : Dev nD) : sProp 𝕄 :=
  iprop(semVal ((c : Thread nD τ), SemLoc.dma (sm0 sc)) 0 ∗ semVal ((c : Thread nD τ), SemLoc.dma (sm1 sc)) 0 ∗ semVal ((c : Thread nD τ), SemLoc.dma (sm2 sc)) 0 ∗ semVal ((c : Thread nD τ), SemLoc.dma (sm3 sc)) 0 ∗ semVal ((c : Thread nD τ), SemLoc.dma (sm4 sc)) 0 ∗ semVal ((c : Thread nD τ), SemLoc.dma (sm5 sc)) 0 ∗ semVal ((c : Thread nD τ), SemLoc.dma (sm6 sc)) 0 ∗ semVal ((c : Thread nD τ), SemLoc.dma (sm7 sc)) 0)

abbrev toksOf (sc : DmaSems sig S8) (c : Dev nD) (farr : Bf (F := F) c (Memref.whole main_arg1)) : sProp 𝕄 :=
  iprop(arrTok c (sm0 sc).val farr ∗ arrTok c (sm1 sc).val farr ∗ arrTok c (sm2 sc).val farr ∗ arrTok c (sm3 sc).val farr ∗ arrTok c (sm4 sc).val farr ∗ arrTok c (sm5 sc).val farr ∗ arrTok c (sm6 sc).val farr ∗ arrTok c (sm7 sc).val farr)

set_option maxHeartbeats 1600000 in
/-- One run of the body: row `j` of the block ends as the table row id `j` names. -/
theorem kernelRun [∀ e, Nonempty (Elt F e)] (c : Dev nD) (i : grid0.Coords)
    (T : Memref sig .tc .smem S102400 .i32) (hT : T.IsWhole) (sc : DmaSems sig S8)
    (M3 : Memref sig .tc .vmem S8x64 .f32) (h3 : M3.IsWhole)
    (ftab : Bf (F := F) c T) (farr : Bf (F := F) c (Memref.whole main_arg1)) (f3 : Bf (F := F) c M3)
    (hw0 : k0_chk1 (wordAt T c ftab (k0_off1 i) (Facts₀.k0_off1_inb i)))
    (hw1 : k0_chk2 (wordAt T c ftab (k0_off3 i) (Facts₀.k0_off3_inb i)))
    (hw2 : k0_chk3 (wordAt T c ftab (k0_off5 i) (Facts₀.k0_off5_inb i)))
    (hw3 : k0_chk4 (wordAt T c ftab (k0_off7 i) (Facts₀.k0_off7_inb i)))
    (hw4 : k0_chk5 (wordAt T c ftab (k0_off9 i) (Facts₀.k0_off9_inb i)))
    (hw5 : k0_chk6 (wordAt T c ftab (k0_off11 i) (Facts₀.k0_off11_inb i)))
    (hw6 : k0_chk7 (wordAt T c ftab (k0_off13 i) (Facts₀.k0_off13_inb i)))
    (hw7 : k0_chk8 (wordAt T c ftab (k0_off15 i) (Facts₀.k0_off15_inb i)))
    (W : Waits sig Unit) (Q : PUnit → sProp 𝕄) :
    iprop(pt c T ftab ∗ toksOf sc c farr
      ∗ own c (row0 M3) f3 ∗ own c (row1 M3) f3 ∗ own c (row2 M3) f3 ∗ own c (row3 M3) f3 ∗ own c (row4 M3) f3 ∗ own c (row5 M3) f3 ∗ own c (row6 M3) f3 ∗ own c (row7 M3) f3
      ∗ semsOf sc c ∗ owes (c : Thread nD τ) 0 W
      ∗ (iprop(pt c T ftab ∗ toksOf sc c farr
          ∗ own c (row0 M3) (landed c (row0 M3) f3 farr (wordAt T c ftab (k0_off1 i) (Facts₀.k0_off1_inb i)) (hw0.1))
          ∗ own c (row1 M3) (landed c (row1 M3) f3 farr (wordAt T c ftab (k0_off3 i) (Facts₀.k0_off3_inb i)) (hw1.1))
          ∗ own c (row2 M3) (landed c (row2 M3) f3 farr (wordAt T c ftab (k0_off5 i) (Facts₀.k0_off5_inb i)) (hw2.1))
          ∗ own c (row3 M3) (landed c (row3 M3) f3 farr (wordAt T c ftab (k0_off7 i) (Facts₀.k0_off7_inb i)) (hw3.1))
          ∗ own c (row4 M3) (landed c (row4 M3) f3 farr (wordAt T c ftab (k0_off9 i) (Facts₀.k0_off9_inb i)) (hw4.1))
          ∗ own c (row5 M3) (landed c (row5 M3) f3 farr (wordAt T c ftab (k0_off11 i) (Facts₀.k0_off11_inb i)) (hw5.1))
          ∗ own c (row6 M3) (landed c (row6 M3) f3 farr (wordAt T c ftab (k0_off13 i) (Facts₀.k0_off13_inb i)) (hw6.1))
          ∗ own c (row7 M3) (landed c (row7 M3) f3 farr (wordAt T c ftab (k0_off15 i) (Facts₀.k0_off15_inb i)) (hw7))
          ∗ semsOf sc c ∗ ∃ W, owes (c : Thread nD τ) 0 W) -∗ Q ⟨⟩))
    ⊢ wp frame (wpE (defs₀ (F := F)) Variants.none c none) Set.univ
        (cc0__gather_kernel i T hT (Memref.whole main_arg1) (Memref.isWhole_whole _) M3 h3 sc) Q := by
  iintro ⟨Htab, ⟨HC0, HC1, HC2, HC3, HC4, HC5, HC6, HC7⟩, HR0, HR1, HR2, HR3, HR4, HR5, HR6, HR7, ⟨Hd0, Hd1, Hd2, Hd3, Hd4, Hd5, Hd6, Hd7⟩, HO, Hk⟩
  sl_exec
  sl_step
  iapply Hk
  unfold toksOf semsOf
  iframe
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  iexists _; iexact HO

/-- The same from and to the whole block, which ends as `(j, k) ↦ table (id j, k)`. -/
theorem gather_body [∀ e, Nonempty (Elt F e)] (c : Dev nD) (i : grid0.Coords)
    (T : Memref sig .tc .smem S102400 .i32) (hT : T.IsWhole) (sc : DmaSems sig S8) (s : ℕ)
    (hs : (sm0 sc).val = s + 0 ∧ (sm1 sc).val = s + 1 ∧ (sm2 sc).val = s + 2 ∧ (sm3 sc).val = s + 3 ∧ (sm4 sc).val = s + 4 ∧ (sm5 sc).val = s + 5 ∧ (sm6 sc).val = s + 6 ∧ (sm7 sc).val = s + 7)
    (M3 : Memref sig .tc .vmem S8x64 .f32) (h3 : M3.IsWhole)
    (ftab : Bf (F := F) c T) (farr : Bf (F := F) c (Memref.whole main_arg1))
    (hlt : ∀ j, (words T c i ftab j).toNat < 1000000)
    {δ : Type} (bf : δ → S8x64.Idx → Elt F .f32) (R : sProp 𝕄) (B B' : Set (SemLoc sig × Unit)) (hB' : ∀ x, x ∈ B') :
    iprop((pt c T ftab ∗ pt c (Memref.whole main_arg1) farr ∗ semsOf sc c ∗ R)
        ∗ (∃ W : Waits sig Unit, ⌜(W : Set (SemLoc sig × Unit)) ⊆ B⌝ ∗ owes (c : Thread nD τ) 0 W)
        ∗ (∃ d, owns (c : Thread nD τ) M3 fullShare (bf d)))
      ⊢ wp frame (wpE (defs₀ (F := F)) Variants.none c none) Set.univ
          (cc0__gather_kernel i T hT (Memref.whole main_arg1) (Memref.isWhole_whole _) M3 h3 sc)
          (fun _ => iprop((pt c T ftab ∗ pt c (Memref.whole main_arg1) farr ∗ semsOf sc c ∗ R)
            ∗ (∃ W : Waits sig Unit, ⌜(W : Set (SemLoc sig × Unit)) ⊆ B'⌝ ∗ owes (c : Thread nD τ) 0 W)
            ∗ owns (c : Thread nD τ) M3 fullShare (gblock farr (fun j => (words T c i ftab j).toNat) hlt))) := by
  obtain ⟨e0, e1, e2, e3, e4, e5, e6, e7⟩ := hs
  have hsp := toks_split8 (F := F) farr s
  rw [← e0, ← e1, ← e2, ← e3, ← e4, ← e5, ← e6, ← e7] at hsp
  unfold owns
  iintro ⟨⟨Htab, Harr, Hsems, Hrest⟩, ⟨%W, -, HO⟩, ⟨%d, %f, -, H3⟩⟩
  ihave HR := (rows_split c M3 h3 f) $$ H3
  icases HR with ⟨HR0, HR1, HR2, HR3, HR4, HR5, HR6, HR7⟩
  ihave HA := hsp.1 $$ Harr
  icases HA with ⟨Hsp, HC0, HC1, HC2, HC3, HC4, HC5, HC6, HC7⟩
  iapply (kernelRun c i T hT sc M3 h3 ftab farr f
    ⟨row_inb _ (hlt 0), row_inb _ (hlt 0)⟩
    ⟨row_inb _ (hlt 1), row_inb _ (hlt 1)⟩
    ⟨row_inb _ (hlt 2), row_inb _ (hlt 2)⟩
    ⟨row_inb _ (hlt 3), row_inb _ (hlt 3)⟩
    ⟨row_inb _ (hlt 4), row_inb _ (hlt 4)⟩
    ⟨row_inb _ (hlt 5), row_inb _ (hlt 5)⟩
    ⟨row_inb _ (hlt 6), row_inb _ (hlt 6)⟩
    (row_inb _ (hlt 7)) W _)
  unfold toksOf
  iframe Htab HC0 HC1 HC2 HC3 HC4 HC5 HC6 HC7 HR0 HR1 HR2 HR3 HR4 HR5 HR6 HR7 Hsems HO
  iintro ⟨Htab, ⟨HC0, HC1, HC2, HC3, HC4, HC5, HC6, HC7⟩, HR0, HR1, HR2, HR3, HR4, HR5, HR6, HR7, Hsems, ⟨%W', HO⟩⟩
  isplitl [Htab Hsp HC0 HC1 HC2 HC3 HC4 HC5 HC6 HC7 Hsems Hrest]
  · iframe Htab Hsems Hrest
    iapply hsp.2
    iframe
  isplitl [HO]
  · iexists W'; isplitr; · ipureintro; exact fun x _ => hB' x
    iexact HO
  iapply ((rows_join_block c M3 h3 f farr _ hlt (fun j => row_inb _ (hlt j))).trans (Entails.of_eq (by unfold owns; rfl)))
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  iexact HR7

end Cert.Kernel.Hand

end
-- ==== Proof.Dat0Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf0 : pre0.Contents (Elt F) := fun | 0 => chunk 0 (idsOf m 0) | ⟨_ + 1, h⟩ => absurd h (Nat.not_lt.2 (Nat.le_add_left _ _))
def adm0 : (pcfg0 (F := F)).Adm := ⟨pf0 m, trivial⟩

abbrev tab0 (c : Dev nD) : Bf (F := F) c (Memref.whole main_v3) := chunk 0 (idsOf m c)

/-- The table rows grid point `t` gathers. -/
def rows0 (c : Dev nD) (t : Fin grid0.N) : Fin 8 → ℕ := fun j => (words (Memref.whole main_v3) c (grid0.coords t) (tab0 m c) j).toNat

theorem rows0_lt (hR : InRange m) (c : Dev nD) (t : Fin grid0.N) (j : Fin 8) : rows0 m c t j < 1000000 := by
  have h := chunk_lt hR c (0 : Fin 8)
  match j with
  | 0 | 1 | 2 | 3 | 4 | 5 | 6 | 7 => exact h _

def Φ0 (c : Dev nD) : sProp 𝕄 :=
  iprop(pt c (Memref.whole main_v3) (tab0 m c) ∗ pt c (Memref.whole main_arg1) (arrOf m c) ∗ semsOf cc0_scratch0 c
    ∗ Pipeline.scopedRest (Ix := Unit) (Name := ℕ) (U := UU nD τ) (Lvl := ℕ) (Val := Elt F) spec0 c)

def dat0 (hR : InRange m) (c : Dev nD) : Dat τ (Elt F) Unit ℕ (UU nD τ) ℕ (cfg0 (adm0 m)) c where
  A w := m ((c : Thread nD τ).loc (Pipeline.arrRef spec0 w))
  after w t := match w with
    | ⟨0, _⟩ => gblock (arrOf m c) (rows0 m c t) (rows0_lt m hR c t)
  Φ _ := Φ0 m c
  q _ := fullShare
  owed _ := 0

theorem after0 (hR : InRange m) (c : Dev nD) (t : Fin grid0.N) :
    (dat0 m hR c).after 0 t = gblock (arrOf m c) (rows0 m c t) (rows0_lt m hR c t) := by dsimp only [dat0]; rfl

theorem body_obligation0 [∀ e, Nonempty (Elt F e)] (hR : InRange m) (c : Dev nD) :
    BodyObligation (dat0 m hR c) (defs₀ (F := F)) Variants.none () Set.univ := fun t => by
  rw [Gen.bigSep_W0, Gen.bigSep_W0]
  exact gather_body c (grid0.coords t) (Memref.whole main_v3) (Memref.isWhole_whole _) cc0_scratch0 2 ⟨rfl, rfl, rfl, rfl, rfl, rfl, rfl, rfl⟩
    _ (Gen.stage_whole0 0 _) (tab0 m c) (arrOf m c) (rows0_lt m hR c t) _ _ _ _ (fun _ => Or.inl trivial)

end Cert.Kernel.Hand

end
-- ==== Proof.Dat1Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf1 : pre1.Contents (Elt F) := fun | 0 => chunk 1 (idsOf m 0) | ⟨_ + 1, h⟩ => absurd h (Nat.not_lt.2 (Nat.le_add_left _ _))
def adm1 : (pcfg1 (F := F)).Adm := ⟨pf1 m, trivial⟩

abbrev tab1 (c : Dev nD) : Bf (F := F) c (Memref.whole main_v6) := chunk 1 (idsOf m c)

/-- The table rows grid point `t` gathers. -/
def rows1 (c : Dev nD) (t : Fin grid1.N) : Fin 8 → ℕ := fun j => (words (Memref.whole main_v6) c (grid1.coords t) (tab1 m c) j).toNat

theorem rows1_lt (hR : InRange m) (c : Dev nD) (t : Fin grid1.N) (j : Fin 8) : rows1 m c t j < 1000000 := by
  have h := chunk_lt hR c (1 : Fin 8)
  match j with
  | 0 | 1 | 2 | 3 | 4 | 5 | 6 | 7 => exact h _

def Φ1 (c : Dev nD) : sProp 𝕄 :=
  iprop(pt c (Memref.whole main_v6) (tab1 m c) ∗ pt c (Memref.whole main_arg1) (arrOf m c) ∗ semsOf cc1_scratch0 c
    ∗ Pipeline.scopedRest (Ix := Unit) (Name := ℕ) (U := UU nD τ) (Lvl := ℕ) (Val := Elt F) spec1 c)

def dat1 (hR : InRange m) (c : Dev nD) : Dat τ (Elt F) Unit ℕ (UU nD τ) ℕ (cfg1 (adm1 m)) c where
  A w := m ((c : Thread nD τ).loc (Pipeline.arrRef spec1 w))
  after w t := match w with
    | ⟨0, _⟩ => gblock (arrOf m c) (rows1 m c t) (rows1_lt m hR c t)
  Φ _ := Φ1 m c
  q _ := fullShare
  owed _ := 0

theorem after1 (hR : InRange m) (c : Dev nD) (t : Fin grid1.N) :
    (dat1 m hR c).after 0 t = gblock (arrOf m c) (rows1 m c t) (rows1_lt m hR c t) := by dsimp only [dat1]; rfl

theorem body_obligation1 [∀ e, Nonempty (Elt F e)] (hR : InRange m) (c : Dev nD) :
    BodyObligation (dat1 m hR c) (defs₀ (F := F)) Variants.none () Set.univ := fun t => by
  rw [Gen.bigSep_W1, Gen.bigSep_W1]
  exact gather_body c (grid1.coords t) (Memref.whole main_v6) (Memref.isWhole_whole _) cc1_scratch0 12 ⟨rfl, rfl, rfl, rfl, rfl, rfl, rfl, rfl⟩
    _ (Gen.stage_whole1 0 _) (tab1 m c) (arrOf m c) (rows1_lt m hR c t) _ _ _ _ (fun _ => Or.inl trivial)

end Cert.Kernel.Hand

end
-- ==== Proof.Dat2Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf2 : pre2.Contents (Elt F) := fun | 0 => chunk 2 (idsOf m 0) | ⟨_ + 1, h⟩ => absurd h (Nat.not_lt.2 (Nat.le_add_left _ _))
def adm2 : (pcfg2 (F := F)).Adm := ⟨pf2 m, trivial⟩

abbrev tab2 (c : Dev nD) : Bf (F := F) c (Memref.whole main_v9) := chunk 2 (idsOf m c)

/-- The table rows grid point `t` gathers. -/
def rows2 (c : Dev nD) (t : Fin grid2.N) : Fin 8 → ℕ := fun j => (words (Memref.whole main_v9) c (grid2.coords t) (tab2 m c) j).toNat

theorem rows2_lt (hR : InRange m) (c : Dev nD) (t : Fin grid2.N) (j : Fin 8) : rows2 m c t j < 1000000 := by
  have h := chunk_lt hR c (2 : Fin 8)
  match j with
  | 0 | 1 | 2 | 3 | 4 | 5 | 6 | 7 => exact h _

def Φ2 (c : Dev nD) : sProp 𝕄 :=
  iprop(pt c (Memref.whole main_v9) (tab2 m c) ∗ pt c (Memref.whole main_arg1) (arrOf m c) ∗ semsOf cc2_scratch0 c
    ∗ Pipeline.scopedRest (Ix := Unit) (Name := ℕ) (U := UU nD τ) (Lvl := ℕ) (Val := Elt F) spec2 c)

def dat2 (hR : InRange m) (c : Dev nD) : Dat τ (Elt F) Unit ℕ (UU nD τ) ℕ (cfg2 (adm2 m)) c where
  A w := m ((c : Thread nD τ).loc (Pipeline.arrRef spec2 w))
  after w t := match w with
    | ⟨0, _⟩ => gblock (arrOf m c) (rows2 m c t) (rows2_lt m hR c t)
  Φ _ := Φ2 m c
  q _ := fullShare
  owed _ := 0

theorem after2 (hR : InRange m) (c : Dev nD) (t : Fin grid2.N) :
    (dat2 m hR c).after 0 t = gblock (arrOf m c) (rows2 m c t) (rows2_lt m hR c t) := by dsimp only [dat2]; rfl

theorem body_obligation2 [∀ e, Nonempty (Elt F e)] (hR : InRange m) (c : Dev nD) :
    BodyObligation (dat2 m hR c) (defs₀ (F := F)) Variants.none () Set.univ := fun t => by
  rw [Gen.bigSep_W2, Gen.bigSep_W2]
  exact gather_body c (grid2.coords t) (Memref.whole main_v9) (Memref.isWhole_whole _) cc2_scratch0 22 ⟨rfl, rfl, rfl, rfl, rfl, rfl, rfl, rfl⟩
    _ (Gen.stage_whole2 0 _) (tab2 m c) (arrOf m c) (rows2_lt m hR c t) _ _ _ _ (fun _ => Or.inl trivial)

end Cert.Kernel.Hand

end
-- ==== Proof.Dat3Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf3 : pre3.Contents (Elt F) := fun | 0 => chunk 3 (idsOf m 0) | ⟨_ + 1, h⟩ => absurd h (Nat.not_lt.2 (Nat.le_add_left _ _))
def adm3 : (pcfg3 (F := F)).Adm := ⟨pf3 m, trivial⟩

abbrev tab3 (c : Dev nD) : Bf (F := F) c (Memref.whole main_v12) := chunk 3 (idsOf m c)

/-- The table rows grid point `t` gathers. -/
def rows3 (c : Dev nD) (t : Fin grid3.N) : Fin 8 → ℕ := fun j => (words (Memref.whole main_v12) c (grid3.coords t) (tab3 m c) j).toNat

theorem rows3_lt (hR : InRange m) (c : Dev nD) (t : Fin grid3.N) (j : Fin 8) : rows3 m c t j < 1000000 := by
  have h := chunk_lt hR c (3 : Fin 8)
  match j with
  | 0 | 1 | 2 | 3 | 4 | 5 | 6 | 7 => exact h _

def Φ3 (c : Dev nD) : sProp 𝕄 :=
  iprop(pt c (Memref.whole main_v12) (tab3 m c) ∗ pt c (Memref.whole main_arg1) (arrOf m c) ∗ semsOf cc3_scratch0 c
    ∗ Pipeline.scopedRest (Ix := Unit) (Name := ℕ) (U := UU nD τ) (Lvl := ℕ) (Val := Elt F) spec3 c)

def dat3 (hR : InRange m) (c : Dev nD) : Dat τ (Elt F) Unit ℕ (UU nD τ) ℕ (cfg3 (adm3 m)) c where
  A w := m ((c : Thread nD τ).loc (Pipeline.arrRef spec3 w))
  after w t := match w with
    | ⟨0, _⟩ => gblock (arrOf m c) (rows3 m c t) (rows3_lt m hR c t)
  Φ _ := Φ3 m c
  q _ := fullShare
  owed _ := 0

theorem after3 (hR : InRange m) (c : Dev nD) (t : Fin grid3.N) :
    (dat3 m hR c).after 0 t = gblock (arrOf m c) (rows3 m c t) (rows3_lt m hR c t) := by dsimp only [dat3]; rfl

theorem body_obligation3 [∀ e, Nonempty (Elt F e)] (hR : InRange m) (c : Dev nD) :
    BodyObligation (dat3 m hR c) (defs₀ (F := F)) Variants.none () Set.univ := fun t => by
  rw [Gen.bigSep_W3, Gen.bigSep_W3]
  exact gather_body c (grid3.coords t) (Memref.whole main_v12) (Memref.isWhole_whole _) cc3_scratch0 32 ⟨rfl, rfl, rfl, rfl, rfl, rfl, rfl, rfl⟩
    _ (Gen.stage_whole3 0 _) (tab3 m c) (arrOf m c) (rows3_lt m hR c t) _ _ _ _ (fun _ => Or.inl trivial)

end Cert.Kernel.Hand

end
-- ==== Proof.Dat4Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf4 : pre4.Contents (Elt F) := fun | 0 => chunk 4 (idsOf m 0) | ⟨_ + 1, h⟩ => absurd h (Nat.not_lt.2 (Nat.le_add_left _ _))
def adm4 : (pcfg4 (F := F)).Adm := ⟨pf4 m, trivial⟩

abbrev tab4 (c : Dev nD) : Bf (F := F) c (Memref.whole main_v15) := chunk 4 (idsOf m c)

/-- The table rows grid point `t` gathers. -/
def rows4 (c : Dev nD) (t : Fin grid4.N) : Fin 8 → ℕ := fun j => (words (Memref.whole main_v15) c (grid4.coords t) (tab4 m c) j).toNat

theorem rows4_lt (hR : InRange m) (c : Dev nD) (t : Fin grid4.N) (j : Fin 8) : rows4 m c t j < 1000000 := by
  have h := chunk_lt hR c (4 : Fin 8)
  match j with
  | 0 | 1 | 2 | 3 | 4 | 5 | 6 | 7 => exact h _

def Φ4 (c : Dev nD) : sProp 𝕄 :=
  iprop(pt c (Memref.whole main_v15) (tab4 m c) ∗ pt c (Memref.whole main_arg1) (arrOf m c) ∗ semsOf cc4_scratch0 c
    ∗ Pipeline.scopedRest (Ix := Unit) (Name := ℕ) (U := UU nD τ) (Lvl := ℕ) (Val := Elt F) spec4 c)

def dat4 (hR : InRange m) (c : Dev nD) : Dat τ (Elt F) Unit ℕ (UU nD τ) ℕ (cfg4 (adm4 m)) c where
  A w := m ((c : Thread nD τ).loc (Pipeline.arrRef spec4 w))
  after w t := match w with
    | ⟨0, _⟩ => gblock (arrOf m c) (rows4 m c t) (rows4_lt m hR c t)
  Φ _ := Φ4 m c
  q _ := fullShare
  owed _ := 0

theorem after4 (hR : InRange m) (c : Dev nD) (t : Fin grid4.N) :
    (dat4 m hR c).after 0 t = gblock (arrOf m c) (rows4 m c t) (rows4_lt m hR c t) := by dsimp only [dat4]; rfl

theorem body_obligation4 [∀ e, Nonempty (Elt F e)] (hR : InRange m) (c : Dev nD) :
    BodyObligation (dat4 m hR c) (defs₀ (F := F)) Variants.none () Set.univ := fun t => by
  rw [Gen.bigSep_W4, Gen.bigSep_W4]
  exact gather_body c (grid4.coords t) (Memref.whole main_v15) (Memref.isWhole_whole _) cc4_scratch0 42 ⟨rfl, rfl, rfl, rfl, rfl, rfl, rfl, rfl⟩
    _ (Gen.stage_whole4 0 _) (tab4 m c) (arrOf m c) (rows4_lt m hR c t) _ _ _ _ (fun _ => Or.inl trivial)

end Cert.Kernel.Hand

end
-- ==== Proof.Dat5Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf5 : pre5.Contents (Elt F) := fun | 0 => chunk 5 (idsOf m 0) | ⟨_ + 1, h⟩ => absurd h (Nat.not_lt.2 (Nat.le_add_left _ _))
def adm5 : (pcfg5 (F := F)).Adm := ⟨pf5 m, trivial⟩

abbrev tab5 (c : Dev nD) : Bf (F := F) c (Memref.whole main_v18) := chunk 5 (idsOf m c)

/-- The table rows grid point `t` gathers. -/
def rows5 (c : Dev nD) (t : Fin grid5.N) : Fin 8 → ℕ := fun j => (words (Memref.whole main_v18) c (grid5.coords t) (tab5 m c) j).toNat

theorem rows5_lt (hR : InRange m) (c : Dev nD) (t : Fin grid5.N) (j : Fin 8) : rows5 m c t j < 1000000 := by
  have h := chunk_lt hR c (5 : Fin 8)
  match j with
  | 0 | 1 | 2 | 3 | 4 | 5 | 6 | 7 => exact h _

def Φ5 (c : Dev nD) : sProp 𝕄 :=
  iprop(pt c (Memref.whole main_v18) (tab5 m c) ∗ pt c (Memref.whole main_arg1) (arrOf m c) ∗ semsOf cc5_scratch0 c
    ∗ Pipeline.scopedRest (Ix := Unit) (Name := ℕ) (U := UU nD τ) (Lvl := ℕ) (Val := Elt F) spec5 c)

def dat5 (hR : InRange m) (c : Dev nD) : Dat τ (Elt F) Unit ℕ (UU nD τ) ℕ (cfg5 (adm5 m)) c where
  A w := m ((c : Thread nD τ).loc (Pipeline.arrRef spec5 w))
  after w t := match w with
    | ⟨0, _⟩ => gblock (arrOf m c) (rows5 m c t) (rows5_lt m hR c t)
  Φ _ := Φ5 m c
  q _ := fullShare
  owed _ := 0

theorem after5 (hR : InRange m) (c : Dev nD) (t : Fin grid5.N) :
    (dat5 m hR c).after 0 t = gblock (arrOf m c) (rows5 m c t) (rows5_lt m hR c t) := by dsimp only [dat5]; rfl

theorem body_obligation5 [∀ e, Nonempty (Elt F e)] (hR : InRange m) (c : Dev nD) :
    BodyObligation (dat5 m hR c) (defs₀ (F := F)) Variants.none () Set.univ := fun t => by
  rw [Gen.bigSep_W5, Gen.bigSep_W5]
  exact gather_body c (grid5.coords t) (Memref.whole main_v18) (Memref.isWhole_whole _) cc5_scratch0 52 ⟨rfl, rfl, rfl, rfl, rfl, rfl, rfl, rfl⟩
    _ (Gen.stage_whole5 0 _) (tab5 m c) (arrOf m c) (rows5_lt m hR c t) _ _ _ _ (fun _ => Or.inl trivial)

end Cert.Kernel.Hand

end
-- ==== Proof.Dat6Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf6 : pre6.Contents (Elt F) := fun | 0 => chunk 6 (idsOf m 0) | ⟨_ + 1, h⟩ => absurd h (Nat.not_lt.2 (Nat.le_add_left _ _))
def adm6 : (pcfg6 (F := F)).Adm := ⟨pf6 m, trivial⟩

abbrev tab6 (c : Dev nD) : Bf (F := F) c (Memref.whole main_v21) := chunk 6 (idsOf m c)

/-- The table rows grid point `t` gathers. -/
def rows6 (c : Dev nD) (t : Fin grid6.N) : Fin 8 → ℕ := fun j => (words (Memref.whole main_v21) c (grid6.coords t) (tab6 m c) j).toNat

theorem rows6_lt (hR : InRange m) (c : Dev nD) (t : Fin grid6.N) (j : Fin 8) : rows6 m c t j < 1000000 := by
  have h := chunk_lt hR c (6 : Fin 8)
  match j with
  | 0 | 1 | 2 | 3 | 4 | 5 | 6 | 7 => exact h _

def Φ6 (c : Dev nD) : sProp 𝕄 :=
  iprop(pt c (Memref.whole main_v21) (tab6 m c) ∗ pt c (Memref.whole main_arg1) (arrOf m c) ∗ semsOf cc6_scratch0 c
    ∗ Pipeline.scopedRest (Ix := Unit) (Name := ℕ) (U := UU nD τ) (Lvl := ℕ) (Val := Elt F) spec6 c)

def dat6 (hR : InRange m) (c : Dev nD) : Dat τ (Elt F) Unit ℕ (UU nD τ) ℕ (cfg6 (adm6 m)) c where
  A w := m ((c : Thread nD τ).loc (Pipeline.arrRef spec6 w))
  after w t := match w with
    | ⟨0, _⟩ => gblock (arrOf m c) (rows6 m c t) (rows6_lt m hR c t)
  Φ _ := Φ6 m c
  q _ := fullShare
  owed _ := 0

theorem after6 (hR : InRange m) (c : Dev nD) (t : Fin grid6.N) :
    (dat6 m hR c).after 0 t = gblock (arrOf m c) (rows6 m c t) (rows6_lt m hR c t) := by dsimp only [dat6]; rfl

theorem body_obligation6 [∀ e, Nonempty (Elt F e)] (hR : InRange m) (c : Dev nD) :
    BodyObligation (dat6 m hR c) (defs₀ (F := F)) Variants.none () Set.univ := fun t => by
  rw [Gen.bigSep_W6, Gen.bigSep_W6]
  exact gather_body c (grid6.coords t) (Memref.whole main_v21) (Memref.isWhole_whole _) cc6_scratch0 62 ⟨rfl, rfl, rfl, rfl, rfl, rfl, rfl, rfl⟩
    _ (Gen.stage_whole6 0 _) (tab6 m c) (arrOf m c) (rows6_lt m hR c t) _ _ _ _ (fun _ => Or.inl trivial)

end Cert.Kernel.Hand

end
-- ==== Proof.Dat7Kernel.lean ====
import proofs.«431176_j64484638982170_2_alg».proof.Proof.BodyKernel
import Idealize.ShloMosaic.Lib.Pipeline.Regions

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf7 : pre7.Contents (Elt F) := fun | 0 => chunk 7 (idsOf m 0) | ⟨_ + 1, h⟩ => absurd h (Nat.not_lt.2 (Nat.le_add_left _ _))
def adm7 : (pcfg7 (F := F)).Adm := ⟨pf7 m, trivial⟩

abbrev tab7 (c : Dev nD) : Bf (F := F) c (Memref.whole main_v24) := chunk 7 (idsOf m c)

/-- The table rows grid point `t` gathers. -/
def rows7 (c : Dev nD) (t : Fin grid7.N) : Fin 8 → ℕ := fun j => (words (Memref.whole main_v24) c (grid7.coords t) (tab7 m c) j).toNat

theorem rows7_lt (hR : InRange m) (c : Dev nD) (t : Fin grid7.N) (j : Fin 8) : rows7 m c t j < 1000000 := by
  have h := chunk_lt hR c (7 : Fin 8)
  match j with
  | 0 | 1 | 2 | 3 | 4 | 5 | 6 | 7 => exact h _

def Φ7 (c : Dev nD) : sProp 𝕄 :=
  iprop(pt c (Memref.whole main_v24) (tab7 m c) ∗ pt c (Memref.whole main_arg1) (arrOf m c) ∗ semsOf cc7_scratch0 c
    ∗ Pipeline.scopedRest (Ix := Unit) (Name := ℕ) (U := UU nD τ) (Lvl := ℕ) (Val := Elt F) spec7 c)

def dat7 (hR : InRange m) (c : Dev nD) : Dat τ (Elt F) Unit ℕ (UU nD τ) ℕ (cfg7 (adm7 m)) c where
  A w := m ((c : Thread nD τ).loc (Pipeline.arrRef spec7 w))
  after w t := match w with
    | ⟨0, _⟩ => gblock (arrOf m c) (rows7 m c t) (rows7_lt m hR c t)
  Φ _ := Φ7 m c
  q _ := fullShare
  owed _ := 0

theorem after7 (hR : InRange m) (c : Dev nD) (t : Fin grid7.N) :
    (dat7 m hR c).after 0 t = gblock (arrOf m c) (rows7 m c t) (rows7_lt m hR c t) := by dsimp only [dat7]; rfl

theorem body_obligation7 [∀ e, Nonempty (Elt F e)] (hR : InRange m) (c : Dev nD) :
    BodyObligation (dat7 m hR c) (defs₀ (F := F)) Variants.none () Set.univ := fun t => by
  rw [Gen.bigSep_W7, Gen.bigSep_W7]
  exact gather_body c (grid7.coords t) (Memref.whole main_v24) (Memref.isWhole_whole _) cc7_scratch0 72 ⟨rfl, rfl, rfl, rfl, rfl, rfl, rfl, rfl⟩
    _ (Gen.stage_whole7 0 _) (tab7 m c) (arrOf m c) (rows7_lt m hR c t) _ _ _ _ (fun _ => Or.inl trivial)

end Cert.Kernel.Hand

end
-- ==== Proof.HostIdsKernel.lean ====
import proofs.«431176_j64484638982170_2_alg».proof.Proof.Gen.Kernel.Regions
import proofs.«431176_j64484638982170_2_alg».proof.Proof.TablesKernel
import Idealize.ShloMosaic.Lib.Pipeline.Value
import Idealize.ShloMosaic.Lib.StableHlo.Run

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

variable (m : (ℓ : Loc nD τ sig) → Buf (Elt F) ℓ) (outs : Gen.Outs (F := F))

/-- A reshape keeps row-major positions, so row `k` of the 8 × 102400 view holds positions `102400 k …` of the ids. -/
theorem chunk_read (k : ℕ) (hk : k < 8) (ids : IVec S16384x50 32)
    (h1 : S16384x50.ShapeCasts S819200) (h2 : S819200.ShapeCasts S8x102400)
    (hs : S8x102400.Slices ![k, 0] S1x102400) (h3 : S1x102400.ShapeCasts S102400) (x : S102400.Idx) :
    shapeCast S102400 (extractStridedSlice S1x102400 ![k, 0] (shapeCast S8x102400 (shapeCast S819200 ids h1) h2) hs) h3 x
      = chunk ⟨k, hk⟩ ids x := by
  have hx : (x 0).val < 102400 := (x 0).isLt
  refine (shapeCast_apply _ h3 x (ValueIdx.ix2 (⟨0, by decide⟩ : Fin 1) (⟨(x 0).val, hx⟩ : Fin 102400)) ?_).trans ?_
  · rw [Shape.rowMajor_val_two, Shape.rowMajor_val_one]
    show 0 * 102400 + (x 0).val = (x 0).val
    omega
  refine (extractStridedSlice_apply _ _ hs _ (ValueIdx.ix2 (⟨k, hk⟩ : Fin 8) (⟨(x 0).val, hx⟩ : Fin 102400)) ?_).trans ?_
  · intro a
    match a with
    | ⟨0, _⟩ => show k = k + 0; omega
    | ⟨1, _⟩ => show (x 0).val = 0 + (x 0).val; omega
  refine (shapeCast_apply _ h2 _ (ValueIdx.ix1 (⟨102400 * k + (x 0).val, by omega⟩ : Fin 819200)) ?_).trans ?_
  · rw [Shape.rowMajor_val_one, Shape.rowMajor_val_two]
    show 102400 * k + (x 0).val = k * 102400 + (x 0).val
    omega
  refine (shapeCast_apply _ h1 _ (ValueIdx.ix2 (⟨(102400 * k + (x 0).val) / 50, by omega⟩ : Fin 16384)
    (⟨(102400 * k + (x 0).val) % 50, Nat.mod_lt _ (by decide)⟩ : Fin 50)) ?_).trans ?_
  · rw [Shape.rowMajor_val_two, Shape.rowMajor_val_one]
    show (102400 * k + (x 0).val) / 50 * 50 + (102400 * k + (x 0).val) % 50 = 102400 * k + (x 0).val
    omega
  rfl

theorem v1_rows (c : Dev nD) : (Gen.V1 m c main_v1 : IVec S8x102400 32)
    = shapeCast S8x102400 (shapeCast S819200 (idsOf m c) Gen.shapeCasts_S16384x50_S819200) Gen.shapeCasts_S819200_S8x102400 := by
  show StableHlo.after Gen.hostOps0 _ (Proc.devRef .tc main_v1) = _
  after_results
  rfl

theorem rows_at_2 (c : Dev nD) : Gen.V2 m outs c main_v1 = Gen.V1 m c main_v1 :=
  Gen.V2_of m outs c main_v1 (by decide)
theorem rows_at_4 (c : Dev nD) : Gen.V4 m outs c main_v1 = Gen.V1 m c main_v1 :=
  (Gen.V4_of m outs c main_v1 (by decide)).trans <| (Gen.V3_of m outs c main_v1 (by decide)).trans (rows_at_2 m outs c)
theorem rows_at_6 (c : Dev nD) : Gen.V6 m outs c main_v1 = Gen.V1 m c main_v1 :=
  (Gen.V6_of m outs c main_v1 (by decide)).trans <| (Gen.V5_of m outs c main_v1 (by decide)).trans (rows_at_4 m outs c)
theorem rows_at_8 (c : Dev nD) : Gen.V8 m outs c main_v1 = Gen.V1 m c main_v1 :=
  (Gen.V8_of m outs c main_v1 (by decide)).trans <| (Gen.V7_of m outs c main_v1 (by decide)).trans (rows_at_6 m outs c)
theorem rows_at_10 (c : Dev nD) : Gen.V10 m outs c main_v1 = Gen.V1 m c main_v1 :=
  (Gen.V10_of m outs c main_v1 (by decide)).trans <| (Gen.V9_of m outs c main_v1 (by decide)).trans (rows_at_8 m outs c)
theorem rows_at_12 (c : Dev nD) : Gen.V12 m outs c main_v1 = Gen.V1 m c main_v1 :=
  (Gen.V12_of m outs c main_v1 (by decide)).trans <| (Gen.V11_of m outs c main_v1 (by decide)).trans (rows_at_10 m outs c)
theorem rows_at_14 (c : Dev nD) : Gen.V14 m outs c main_v1 = Gen.V1 m c main_v1 :=
  (Gen.V14_of m outs c main_v1 (by decide)).trans <| (Gen.V13_of m outs c main_v1 (by decide)).trans (rows_at_12 m outs c)

theorem tab_at_0 (c : Dev nD) : Gen.V1 m c main_v3 = chunk 0 (idsOf m c) := by
  show StableHlo.after Gen.hostOps0 _ (Proc.devRef .tc main_v3) = _
  after_results
  funext x
  exact chunk_read 0 (by decide) (idsOf m c) _ _ _ _ x

theorem tab_at_1 (c : Dev nD) : Gen.V3 m outs c main_v6 = chunk 1 (idsOf m c) := by
  show StableHlo.after Gen.hostOps1 _ (Proc.devRef .tc main_v6) = _
  after_results
  rw [rows_at_2 m outs c, v1_rows m c]
  funext x
  exact chunk_read 1 (by decide) (idsOf m c) _ _ _ _ x

theorem tab_at_2 (c : Dev nD) : Gen.V5 m outs c main_v9 = chunk 2 (idsOf m c) := by
  show StableHlo.after Gen.hostOps2 _ (Proc.devRef .tc main_v9) = _
  after_results
  rw [rows_at_4 m outs c, v1_rows m c]
  funext x
  exact chunk_read 2 (by decide) (idsOf m c) _ _ _ _ x

theorem tab_at_3 (c : Dev nD) : Gen.V7 m outs c main_v12 = chunk 3 (idsOf m c) := by
  show StableHlo.after Gen.hostOps3 _ (Proc.devRef .tc main_v12) = _
  after_results
  rw [rows_at_6 m outs c, v1_rows m c]
  funext x
  exact chunk_read 3 (by decide) (idsOf m c) _ _ _ _ x

theorem tab_at_4 (c : Dev nD) : Gen.V9 m outs c main_v15 = chunk 4 (idsOf m c) := by
  show StableHlo.after Gen.hostOps4 _ (Proc.devRef .tc main_v15) = _
  after_results
  rw [rows_at_8 m outs c, v1_rows m c]
  funext x
  exact chunk_read 4 (by decide) (idsOf m c) _ _ _ _ x

theorem tab_at_5 (c : Dev nD) : Gen.V11 m outs c main_v18 = chunk 5 (idsOf m c) := by
  show StableHlo.after Gen.hostOps5 _ (Proc.devRef .tc main_v18) = _
  after_results
  rw [rows_at_10 m outs c, v1_rows m c]
  funext x
  exact chunk_read 5 (by decide) (idsOf m c) _ _ _ _ x

theorem tab_at_6 (c : Dev nD) : Gen.V13 m outs c main_v21 = chunk 6 (idsOf m c) := by
  show StableHlo.after Gen.hostOps6 _ (Proc.devRef .tc main_v21) = _
  after_results
  rw [rows_at_12 m outs c, v1_rows m c]
  funext x
  exact chunk_read 6 (by decide) (idsOf m c) _ _ _ _ x

theorem tab_at_7 (c : Dev nD) : Gen.V15 m outs c main_v24 = chunk 7 (idsOf m c) := by
  show StableHlo.after Gen.hostOps7 _ (Proc.devRef .tc main_v24) = _
  after_results
  rw [rows_at_14 m outs c, v1_rows m c]
  funext x
  exact chunk_read 7 (by decide) (idsOf m c) _ _ _ _ x

theorem arr_at_0 (c : Dev nD) : Gen.V1 m c main_arg1 = arrOf m c :=
  (Gen.V1_of m c main_arg1 (by decide)).trans rfl
theorem arr_at_1 (c : Dev nD) : Gen.V3 m outs c main_arg1 = arrOf m c :=
  (Gen.V3_of m outs c main_arg1 (by decide)).trans <| (Gen.V2_of m outs c main_arg1 (by decide)).trans (arr_at_0 m c)
theorem arr_at_2 (c : Dev nD) : Gen.V5 m outs c main_arg1 = arrOf m c :=
  (Gen.V5_of m outs c main_arg1 (by decide)).trans <| (Gen.V4_of m outs c main_arg1 (by decide)).trans (arr_at_1 m outs c)
theorem arr_at_3 (c : Dev nD) : Gen.V7 m outs c main_arg1 = arrOf m c :=
  (Gen.V7_of m outs c main_arg1 (by decide)).trans <| (Gen.V6_of m outs c main_arg1 (by decide)).trans (arr_at_2 m outs c)
theorem arr_at_4 (c : Dev nD) : Gen.V9 m outs c main_arg1 = arrOf m c :=
  (Gen.V9_of m outs c main_arg1 (by decide)).trans <| (Gen.V8_of m outs c main_arg1 (by decide)).trans (arr_at_3 m outs c)
theorem arr_at_5 (c : Dev nD) : Gen.V11 m outs c main_arg1 = arrOf m c :=
  (Gen.V11_of m outs c main_arg1 (by decide)).trans <| (Gen.V10_of m outs c main_arg1 (by decide)).trans (arr_at_4 m outs c)
theorem arr_at_6 (c : Dev nD) : Gen.V13 m outs c main_arg1 = arrOf m c :=
  (Gen.V13_of m outs c main_arg1 (by decide)).trans <| (Gen.V12_of m outs c main_arg1 (by decide)).trans (arr_at_5 m outs c)
theorem arr_at_7 (c : Dev nD) : Gen.V15 m outs c main_arg1 = arrOf m c :=
  (Gen.V15_of m outs c main_arg1 (by decide)).trans <| (Gen.V14_of m outs c main_arg1 (by decide)).trans (arr_at_6 m outs c)

theorem out_at_0 (c : Dev nD) : Gen.V1 m c main_v4 = m ((c : Thread nD τ).loc main_v4) :=
  (Gen.V1_of m c main_v4 (by decide)).trans rfl
theorem out_at_1 (c : Dev nD) : Gen.V3 m outs c main_v7 = m ((c : Thread nD τ).loc main_v7) :=
  (Gen.V3_of m outs c main_v7 (by decide)).trans <| (Gen.V2_of m outs c main_v7 (by decide)).trans <| (Gen.V1_of m c main_v7 (by decide)).trans rfl
theorem out_at_2 (c : Dev nD) : Gen.V5 m outs c main_v10 = m ((c : Thread nD τ).loc main_v10) :=
  (Gen.V5_of m outs c main_v10 (by decide)).trans <| (Gen.V4_of m outs c main_v10 (by decide)).trans <| (Gen.V3_of m outs c main_v10 (by decide)).trans <| (Gen.V2_of m outs c main_v10 (by decide)).trans <| (Gen.V1_of m c main_v10 (by decide)).trans rfl
theorem out_at_3 (c : Dev nD) : Gen.V7 m outs c main_v13 = m ((c : Thread nD τ).loc main_v13) :=
  (Gen.V7_of m outs c main_v13 (by decide)).trans <| (Gen.V6_of m outs c main_v13 (by decide)).trans <| (Gen.V5_of m outs c main_v13 (by decide)).trans <| (Gen.V4_of m outs c main_v13 (by decide)).trans <| (Gen.V3_of m outs c main_v13 (by decide)).trans <| (Gen.V2_of m outs c main_v13 (by decide)).trans <| (Gen.V1_of m c main_v13 (by decide)).trans rfl
theorem out_at_4 (c : Dev nD) : Gen.V9 m outs c main_v16 = m ((c : Thread nD τ).loc main_v16) :=
  (Gen.V9_of m outs c main_v16 (by decide)).trans <| (Gen.V8_of m outs c main_v16 (by decide)).trans <| (Gen.V7_of m outs c main_v16 (by decide)).trans <| (Gen.V6_of m outs c main_v16 (by decide)).trans <| (Gen.V5_of m outs c main_v16 (by decide)).trans <| (Gen.V4_of m outs c main_v16 (by decide)).trans <| (Gen.V3_of m outs c main_v16 (by decide)).trans <| (Gen.V2_of m outs c main_v16 (by decide)).trans <| (Gen.V1_of m c main_v16 (by decide)).trans rfl
theorem out_at_5 (c : Dev nD) : Gen.V11 m outs c main_v19 = m ((c : Thread nD τ).loc main_v19) :=
  (Gen.V11_of m outs c main_v19 (by decide)).trans <| (Gen.V10_of m outs c main_v19 (by decide)).trans <| (Gen.V9_of m outs c main_v19 (by decide)).trans <| (Gen.V8_of m outs c main_v19 (by decide)).trans <| (Gen.V7_of m outs c main_v19 (by decide)).trans <| (Gen.V6_of m outs c main_v19 (by decide)).trans <| (Gen.V5_of m outs c main_v19 (by decide)).trans <| (Gen.V4_of m outs c main_v19 (by decide)).trans <| (Gen.V3_of m outs c main_v19 (by decide)).trans <| (Gen.V2_of m outs c main_v19 (by decide)).trans <| (Gen.V1_of m c main_v19 (by decide)).trans rfl
theorem out_at_6 (c : Dev nD) : Gen.V13 m outs c main_v22 = m ((c : Thread nD τ).loc main_v22) :=
  (Gen.V13_of m outs c main_v22 (by decide)).trans <| (Gen.V12_of m outs c main_v22 (by decide)).trans <| (Gen.V11_of m outs c main_v22 (by decide)).trans <| (Gen.V10_of m outs c main_v22 (by decide)).trans <| (Gen.V9_of m outs c main_v22 (by decide)).trans <| (Gen.V8_of m outs c main_v22 (by decide)).trans <| (Gen.V7_of m outs c main_v22 (by decide)).trans <| (Gen.V6_of m outs c main_v22 (by decide)).trans <| (Gen.V5_of m outs c main_v22 (by decide)).trans <| (Gen.V4_of m outs c main_v22 (by decide)).trans <| (Gen.V3_of m outs c main_v22 (by decide)).trans <| (Gen.V2_of m outs c main_v22 (by decide)).trans <| (Gen.V1_of m c main_v22 (by decide)).trans rfl
theorem out_at_7 (c : Dev nD) : Gen.V15 m outs c main_v25 = m ((c : Thread nD τ).loc main_v25) :=
  (Gen.V15_of m outs c main_v25 (by decide)).trans <| (Gen.V14_of m outs c main_v25 (by decide)).trans <| (Gen.V13_of m outs c main_v25 (by decide)).trans <| (Gen.V12_of m outs c main_v25 (by decide)).trans <| (Gen.V11_of m outs c main_v25 (by decide)).trans <| (Gen.V10_of m outs c main_v25 (by decide)).trans <| (Gen.V9_of m outs c main_v25 (by decide)).trans <| (Gen.V8_of m outs c main_v25 (by decide)).trans <| (Gen.V7_of m outs c main_v25 (by decide)).trans <| (Gen.V6_of m outs c main_v25 (by decide)).trans <| (Gen.V5_of m outs c main_v25 (by decide)).trans <| (Gen.V4_of m outs c main_v25 (by decide)).trans <| (Gen.V3_of m outs c main_v25 (by decide)).trans <| (Gen.V2_of m outs c main_v25 (by decide)).trans <| (Gen.V1_of m c main_v25 (by decide)).trans rfl

end Cert.Kernel.Hand

end
-- ==== Proof.FamilyKernel.lean ====
import proofs.«431176_j64484638982170_2_alg».proof.Proof.Dat0Kernel
import proofs.«431176_j64484638982170_2_alg».proof.Proof.Dat1Kernel
import proofs.«431176_j64484638982170_2_alg».proof.Proof.Dat2Kernel
import proofs.«431176_j64484638982170_2_alg».proof.Proof.Dat3Kernel
import proofs.«431176_j64484638982170_2_alg».proof.Proof.Dat4Kernel
import proofs.«431176_j64484638982170_2_alg».proof.Proof.Dat5Kernel
import proofs.«431176_j64484638982170_2_alg».proof.Proof.Dat6Kernel
import proofs.«431176_j64484638982170_2_alg».proof.Proof.Dat7Kernel
import proofs.«431176_j64484638982170_2_alg».proof.Proof.HostIdsKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ)

def adms : (p : Fin 8) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨_ + 8, h⟩ => absurd h (Nat.not_lt.2 (Nat.le_add_left _ _))

def pdats (hR : InRange m) : (p : Fin 8) → (c : Dev nD) → Dat τ (Elt F) Unit ℕ (UU nD τ) ℕ (Pipeline.pin (pcfgs (F := F)) (adms m) p) c
  | ⟨0, _⟩ => dat0 m hR
  | ⟨1, _⟩ => dat1 m hR
  | ⟨2, _⟩ => dat2 m hR
  | ⟨3, _⟩ => dat3 m hR
  | ⟨4, _⟩ => dat4 m hR
  | ⟨5, _⟩ => dat5 m hR
  | ⟨6, _⟩ => dat6 m hR
  | ⟨7, _⟩ => dat7 m hR
  | ⟨_ + 8, h⟩ => absurd h (Nat.not_lt.2 (Nat.le_add_left _ _))

abbrev L : GSem nD τ sig → Finset Unit := fun _ => ∅
abbrev lv : GSem nD τ sig → Unit → ℕ := fun _ _ => 0

abbrev E (_ : Fin 9) (c : Dev nD) : sProp 𝕄 := iprop(∃ W, owes (c : Thread nD τ) (0 : CellTallies nD τ sig Unit) W)

def outs (hR : InRange m) : Gen.Outs (F := F) := fun _ r c =>
  if h0 : r = main_v4 then (by subst h0; exact (dat0 m hR c).arrAt 0 grid0.N) else
  if h1 : r = main_v7 then (by subst h1; exact (dat1 m hR c).arrAt 0 grid1.N) else
  if h2 : r = main_v10 then (by subst h2; exact (dat2 m hR c).arrAt 0 grid2.N) else
  if h3 : r = main_v13 then (by subst h3; exact (dat3 m hR c).arrAt 0 grid3.N) else
  if h4 : r = main_v16 then (by subst h4; exact (dat4 m hR c).arrAt 0 grid4.N) else
  if h5 : r = main_v19 then (by subst h5; exact (dat5 m hR c).arrAt 0 grid5.N) else
  if h6 : r = main_v22 then (by subst h6; exact (dat6 m hR c).arrAt 0 grid6.N) else
  if h7 : r = main_v25 then (by subst h7; exact (dat7 m hR c).arrAt 0 grid7.N) else
  m ((c : Thread nD τ).loc r)

theorem outs_at0 (hR : InRange m) (c : Dev nD) : outs m hR 2 main_v4 c = (dat0 m hR c).arrAt 0 grid0.N := by
  unfold outs
  rw [dif_pos rfl]
theorem outs_at1 (hR : InRange m) (c : Dev nD) : outs m hR 4 main_v7 c = (dat1 m hR c).arrAt 0 grid1.N := by
  unfold outs
  rw [dif_neg (by decide : ¬ main_v7 = main_v4), dif_pos rfl]
theorem outs_at2 (hR : InRange m) (c : Dev nD) : outs m hR 6 main_v10 c = (dat2 m hR c).arrAt 0 grid2.N := by
  unfold outs
  rw [dif_neg (by decide : ¬ main_v10 = main_v4), dif_neg (by decide : ¬ main_v10 = main_v7), dif_pos rfl]
theorem outs_at3 (hR : InRange m) (c : Dev nD) : outs m hR 8 main_v13 c = (dat3 m hR c).arrAt 0 grid3.N := by
  unfold outs
  rw [dif_neg (by decide : ¬ main_v13 = main_v4), dif_neg (by decide : ¬ main_v13 = main_v7), dif_neg (by decide : ¬ main_v13 = main_v10), dif_pos rfl]
theorem outs_at4 (hR : InRange m) (c : Dev nD) : outs m hR 10 main_v16 c = (dat4 m hR c).arrAt 0 grid4.N := by
  unfold outs
  rw [dif_neg (by decide : ¬ main_v16 = main_v4), dif_neg (by decide : ¬ main_v16 = main_v7), dif_neg (by decide : ¬ main_v16 = main_v10), dif_neg (by decide : ¬ main_v16 = main_v13), dif_pos rfl]
theorem outs_at5 (hR : InRange m) (c : Dev nD) : outs m hR 12 main_v19 c = (dat5 m hR c).arrAt 0 grid5.N := by
  unfold outs
  rw [dif_neg (by decide : ¬ main_v19 = main_v4), dif_neg (by decide : ¬ main_v19 = main_v7), dif_neg (by decide : ¬ main_v19 = main_v10), dif_neg (by decide : ¬ main_v19 = main_v13), dif_neg (by decide : ¬ main_v19 = main_v16), dif_pos rfl]
theorem outs_at6 (hR : InRange m) (c : Dev nD) : outs m hR 14 main_v22 c = (dat6 m hR c).arrAt 0 grid6.N := by
  unfold outs
  rw [dif_neg (by decide : ¬ main_v22 = main_v4), dif_neg (by decide : ¬ main_v22 = main_v7), dif_neg (by decide : ¬ main_v22 = main_v10), dif_neg (by decide : ¬ main_v22 = main_v13), dif_neg (by decide : ¬ main_v22 = main_v16), dif_neg (by decide : ¬ main_v22 = main_v19), dif_pos rfl]
theorem outs_at7 (hR : InRange m) (c : Dev nD) : outs m hR 16 main_v25 c = (dat7 m hR c).arrAt 0 grid7.N := by
  unfold outs
  rw [dif_neg (by decide : ¬ main_v25 = main_v4), dif_neg (by decide : ¬ main_v25 = main_v7), dif_neg (by decide : ¬ main_v25 = main_v10), dif_neg (by decide : ¬ main_v25 = main_v13), dif_neg (by decide : ¬ main_v25 = main_v16), dif_neg (by decide : ¬ main_v25 = main_v19), dif_neg (by decide : ¬ main_v25 = main_v22), dif_pos rfl]

theorem held3 (a b d : Ref sig .tc) (hab : (Proc.devRef .tc a : DevRef τ sig) ∉ ({Proc.devRef .tc b, Proc.devRef .tc d} : Finset (DevRef τ sig)))
    (hbd : (Proc.devRef .tc b : DevRef τ sig) ∉ ({Proc.devRef .tc d} : Finset (DevRef τ sig))) (c : Dev nD) (V : Valuation τ sig (Elt F)) :
    (StableHlo.held (c : Thread nD τ) {Proc.devRef .tc a, Proc.devRef .tc b, Proc.devRef .tc d} V : sProp 𝕄)
      = iprop((((c : Thread nD τ).loc a) ↦{fullShare} V a) ∗ (((c : Thread nD τ).loc b) ↦{fullShare} V b) ∗ (((c : Thread nD τ).loc d) ↦{fullShare} V d)) := by
  unfold StableHlo.held
  rw [BI.bigSep_insert hab, BI.bigSep_insert hbd, BI.bigSep_singleton]
  rfl

theorem held_update (c : Dev nD) (S T : Finset (DevRef τ sig)) (V : Valuation τ sig (Elt F)) (r : Ref sig .tc) (x : Buf (Elt F) ((c : Thread nD τ).loc r))
    (hr : (Proc.devRef .tc r : DevRef τ sig) ∈ T) :
    (StableHlo.held (c : Thread nD τ) (S \ T) (Function.update V r x) : sProp 𝕄) = StableHlo.held (c : Thread nD τ) (S \ T) V :=
  StableHlo.held_congr _ fun b hb => by
    have hne : b ≠ Proc.devRef .tc r := fun h => (Finset.mem_sdiff.mp hb).2 (h ▸ hr)
    simp only [Function.update_of_ne hne]

/-- Three buffers split off the rest; what is owed stays within any bound that holds of everything. -/
theorem entry_shuffle (c : Dev nD) (Pout Ptab Parr Z Sm : sProp 𝕄) (B : Set (SemLoc sig × Unit)) (hB : ∀ x, x ∈ B) :
    iprop(((((Pout ∗ Ptab ∗ Parr) ∗ Z) ∗ E 0 c) ∗ Sm ∗ levAts L lv)
      ⊢ |={Set.univ}=> iprop(Pout ∗ Ptab ∗ (∃ W : Waits sig Unit, ⌜(W : Set (SemLoc sig × Unit)) ⊆ B⌝ ∗ owes (c : Thread nD τ) 0 W) ∗ (Parr ∗ Sm) ∗ Z)) := by
  iintro ⟨⟨⟨⟨Hout, Htab, Harr⟩, Hz⟩, ⟨%W, HO⟩⟩, Hos, -⟩
  imodintro
  iframe Hout Htab Harr Hos Hz
  iexists W; isplitr; · ipureintro; exact fun x _ => hB x
  iexact HO

/-- The converse. -/
theorem exit_shuffle (c : Dev nD) (Pout Ptab Parr Z : sProp 𝕄) (B : Set (SemLoc sig × Unit)) :
    iprop(Pout ∗ (∃ W : Waits sig Unit, ⌜(W : Set (SemLoc sig × Unit)) ⊆ B⌝ ∗ owes (c : Thread nD τ) 0 W) ∗ (Ptab ∗ Parr) ∗ Z)
      ⊢ |={Set.univ}=> iprop(((Pout ∗ Ptab ∗ Parr) ∗ Z) ∗ E 0 c) := by
  iintro ⟨Hout, ⟨%W, -, HO⟩, ⟨Htab, Harr⟩, Hz⟩
  imodintro
  iframe Hout Htab Harr Hz
  iexists W; iexact HO

end Cert.Kernel.Hand

end
-- ==== Proof.Region0Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p0 : Fin 8 := 0
abbrev eIn0 : Fin 9 := 0
abbrev eOut0 : Fin 9 := 1

abbrev osem0 : Fin 8 → SemLoc sig := fun j => .dma (cc0_scratch0.ix (ValueIdx.ix1 j))
theorem ownSemFacts0 : Pipeline.OwnSemFacts spec0 osem0 := by decide
theorem semsOwn0_eq (c : Dev nD) :
    (Pipeline.ownSems0 (Ix := Unit) (Name := ℕ) (U := UU nD τ) (Lvl := ℕ) (Val := Elt F) (τ := τ) osem0 c : sProp 𝕄) = semsOf cc0_scratch0 c :=
  Pipeline.ownSems0_eq_of_list c osem0 [0, 1, 2, 3, 4, 5, 6, 7] (by decide) (by decide)

abbrev T0 : Finset (DevRef τ sig) := {Proc.devRef .tc main_v4, Proc.devRef .tc main_v3, Proc.devRef .tc main_arg1}
theorem hT0 : T0 ⊆ Pipeline.ucRefs τ sig := by decide
theorem arrays0 (c : Dev nD) (f : (w : Fin (cfg0 (adm0 m)).W) → Buf (Elt F) (((cfg0 (adm0 m)).win w).arr.view.loc (c : Thread nD τ))) :
    ((dat0 m hR c).arrays f : sProp 𝕄) = (((c : Thread nD τ).loc main_v4) ↦{fullShare} f 0) := by
  unfold Dat.arrays
  rw [Gen.bigSep_W0, (Gen.arr_whole0 0).set_eq_univ]
  rfl

theorem after_out0 (c : Dev nD) : Gen.V2 m (outs m hR) c main_v4 = (dat0 m hR c).arrAt 0 grid0.N :=
  (Function.update_self _ _ _).trans (outs_at0 m hR c)

set_option backward.isDefEq.respectTransparency.types false in
def reg0 [∀ e, Nonempty (Elt F e)] : Pipeline.RegionSeg (pcfgs (F := F)) (adms m) (pdats m hR) () (defs₀ (F := F)) Variants.none L lv p0 where
  win := (Gen.launch0 (F := F)).win.to₀
  block_pos := (Gen.launch0 (F := F)).block_pos
  stage_whole := (Gen.launch0 (F := F)).stage_whole
  K := Fin 8
  osem := osem0
  ho := ownSemFacts0
  hbody c := (body_obligation0 m hR c).loose
  hwaits := Pipeline.hwaits_of_owed_zero _ _ _ _ L lv p0 fun _ _ => rfl
  pre c := iprop(StableHlo.held (c : Thread nD τ) (Pipeline.ucRefs τ sig) (Gen.V1 m c) ∗ E eIn0 c)
  post c := iprop(StableHlo.held (c : Thread nD τ) (Pipeline.ucRefs τ sig) (Gen.V2 m (outs m hR) c) ∗ E eOut0 c)
  X c := iprop(pt c (Memref.whole main_arg1) (arrOf m c) ∗ semsOf cc0_scratch0 c)
  Y c := iprop(pt c (Memref.whole main_v3) (tab0 m c) ∗ pt c (Memref.whole main_arg1) (arrOf m c))
  Z c := StableHlo.held (c : Thread nD τ) (Pipeline.ucRefs τ sig \ T0) (Gen.V1 m c)
  hentry c := by
    obtain rfl : c = (0 : Dev nD) := Subsingleton.elim _ _
    rw [StableHlo.held_sub_split (0 : Dev nD).tc hT0 (Gen.V1 m 0), held3 main_v4 main_v3 main_arg1 (by decide) (by decide), semsOwn0_eq, tab_at_0, arr_at_0,
      out_at_0, show (pdats m hR p0 0) = dat0 m hR 0 from rfl, arrays0]
    unfold Pipeline.prefHeld
    rw [Gen.bigSep_W0]
    exact entry_shuffle 0 _ _ _ _ _ _ (fun _ => Or.inl trivial)
  hin c := by
    obtain rfl : c = (0 : Dev nD) := Subsingleton.elim _ _
    rw [show (pdats m hR p0 0).Φ 0 = Φ0 m 0 from rfl]; unfold Φ0 Pipeline.prefHeld
    rw [Gen.bigSep_W0]
    iintro ⟨⟨Harr, Hos⟩, Htab, Hr⟩
    isplitl [Htab]; · iexact Htab
    iframe
  hout c := by
    rw [semsOwn0_eq, show (pdats m hR p0 c).Φ (Fin.last _) = Φ0 m c from rfl]; unfold Φ0
    iintro ⟨Htab, Harr, Hos, Hr⟩
    iframe
  hexit c := by
    rw [StableHlo.held_sub_split (c : Thread nD τ) hT0 (Gen.V2 m (outs m hR) c), held3 main_v4 main_v3 main_arg1 (by decide) (by decide), after_out0,
      held_update c _ T0 _ main_v4 _ (by decide), Gen.V2_of m (outs m hR) c main_v3 (by decide), tab_at_0,
      Gen.V2_of m (outs m hR) c main_arg1 (by decide), arr_at_0, show (pdats m hR p0 c) = dat0 m hR c from rfl, arrays0]
    exact exit_shuffle c _ _ _ _ _

end Cert.Kernel.Hand

end
-- ==== Proof.Region1Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p1 : Fin 8 := 1
abbrev eIn1 : Fin 9 := 1
abbrev eOut1 : Fin 9 := 2

abbrev osem1 : Fin 8 → SemLoc sig := fun j => .dma (cc1_scratch0.ix (ValueIdx.ix1 j))
theorem ownSemFacts1 : Pipeline.OwnSemFacts spec1 osem1 := by decide
theorem semsOwn1_eq (c : Dev nD) :
    (Pipeline.ownSems0 (Ix := Unit) (Name := ℕ) (U := UU nD τ) (Lvl := ℕ) (Val := Elt F) (τ := τ) osem1 c : sProp 𝕄) = semsOf cc1_scratch0 c :=
  Pipeline.ownSems0_eq_of_list c osem1 [0, 1, 2, 3, 4, 5, 6, 7] (by decide) (by decide)

abbrev T1 : Finset (DevRef τ sig) := {Proc.devRef .tc main_v7, Proc.devRef .tc main_v6, Proc.devRef .tc main_arg1}
theorem hT1 : T1 ⊆ Pipeline.ucRefs τ sig := by decide
theorem arrays1 (c : Dev nD) (f : (w : Fin (cfg1 (adm1 m)).W) → Buf (Elt F) (((cfg1 (adm1 m)).win w).arr.view.loc (c : Thread nD τ))) :
    ((dat1 m hR c).arrays f : sProp 𝕄) = (((c : Thread nD τ).loc main_v7) ↦{fullShare} f 0) := by
  unfold Dat.arrays
  rw [Gen.bigSep_W1, (Gen.arr_whole1 0).set_eq_univ]
  rfl

theorem after_out1 (c : Dev nD) : Gen.V4 m (outs m hR) c main_v7 = (dat1 m hR c).arrAt 0 grid1.N :=
  (Function.update_self _ _ _).trans (outs_at1 m hR c)

set_option backward.isDefEq.respectTransparency.types false in
def reg1 [∀ e, Nonempty (Elt F e)] : Pipeline.RegionSeg (pcfgs (F := F)) (adms m) (pdats m hR) () (defs₀ (F := F)) Variants.none L lv p1 where
  win := (Gen.launch1 (F := F)).win.to₀
  block_pos := (Gen.launch1 (F := F)).block_pos
  stage_whole := (Gen.launch1 (F := F)).stage_whole
  K := Fin 8
  osem := osem1
  ho := ownSemFacts1
  hbody c := (body_obligation1 m hR c).loose
  hwaits := Pipeline.hwaits_of_owed_zero _ _ _ _ L lv p1 fun _ _ => rfl
  pre c := iprop(StableHlo.held (c : Thread nD τ) (Pipeline.ucRefs τ sig) (Gen.V3 m (outs m hR) c) ∗ E eIn1 c)
  post c := iprop(StableHlo.held (c : Thread nD τ) (Pipeline.ucRefs τ sig) (Gen.V4 m (outs m hR) c) ∗ E eOut1 c)
  X c := iprop(pt c (Memref.whole main_arg1) (arrOf m c) ∗ semsOf cc1_scratch0 c)
  Y c := iprop(pt c (Memref.whole main_v6) (tab1 m c) ∗ pt c (Memref.whole main_arg1) (arrOf m c))
  Z c := StableHlo.held (c : Thread nD τ) (Pipeline.ucRefs τ sig \ T1) (Gen.V3 m (outs m hR) c)
  hentry c := by
    obtain rfl : c = (0 : Dev nD) := Subsingleton.elim _ _
    rw [StableHlo.held_sub_split (0 : Dev nD).tc hT1 (Gen.V3 m (outs m hR) 0), held3 main_v7 main_v6 main_arg1 (by decide) (by decide), semsOwn1_eq, tab_at_1, arr_at_1,
      out_at_1, show (pdats m hR p1 0) = dat1 m hR 0 from rfl, arrays1]
    unfold Pipeline.prefHeld
    rw [Gen.bigSep_W1]
    exact entry_shuffle 0 _ _ _ _ _ _ (fun _ => Or.inl trivial)
  hin c := by
    obtain rfl : c = (0 : Dev nD) := Subsingleton.elim _ _
    rw [show (pdats m hR p1 0).Φ 0 = Φ1 m 0 from rfl]; unfold Φ1 Pipeline.prefHeld
    rw [Gen.bigSep_W1]
    iintro ⟨⟨Harr, Hos⟩, Htab, Hr⟩
    isplitl [Htab]; · iexact Htab
    iframe
  hout c := by
    rw [semsOwn1_eq, show (pdats m hR p1 c).Φ (Fin.last _) = Φ1 m c from rfl]; unfold Φ1
    iintro ⟨Htab, Harr, Hos, Hr⟩
    iframe
  hexit c := by
    rw [StableHlo.held_sub_split (c : Thread nD τ) hT1 (Gen.V4 m (outs m hR) c), held3 main_v7 main_v6 main_arg1 (by decide) (by decide), after_out1,
      held_update c _ T1 _ main_v7 _ (by decide), Gen.V4_of m (outs m hR) c main_v6 (by decide), tab_at_1,
      Gen.V4_of m (outs m hR) c main_arg1 (by decide), arr_at_1, show (pdats m hR p1 c) = dat1 m hR c from rfl, arrays1]
    exact exit_shuffle c _ _ _ _ _

end Cert.Kernel.Hand

end
-- ==== Proof.Region2Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p2 : Fin 8 := 2
abbrev eIn2 : Fin 9 := 2
abbrev eOut2 : Fin 9 := 3

abbrev osem2 : Fin 8 → SemLoc sig := fun j => .dma (cc2_scratch0.ix (ValueIdx.ix1 j))
theorem ownSemFacts2 : Pipeline.OwnSemFacts spec2 osem2 := by decide
theorem semsOwn2_eq (c : Dev nD) :
    (Pipeline.ownSems0 (Ix := Unit) (Name := ℕ) (U := UU nD τ) (Lvl := ℕ) (Val := Elt F) (τ := τ) osem2 c : sProp 𝕄) = semsOf cc2_scratch0 c :=
  Pipeline.ownSems0_eq_of_list c osem2 [0, 1, 2, 3, 4, 5, 6, 7] (by decide) (by decide)

abbrev T2 : Finset (DevRef τ sig) := {Proc.devRef .tc main_v10, Proc.devRef .tc main_v9, Proc.devRef .tc main_arg1}
theorem hT2 : T2 ⊆ Pipeline.ucRefs τ sig := by decide
theorem arrays2 (c : Dev nD) (f : (w : Fin (cfg2 (adm2 m)).W) → Buf (Elt F) (((cfg2 (adm2 m)).win w).arr.view.loc (c : Thread nD τ))) :
    ((dat2 m hR c).arrays f : sProp 𝕄) = (((c : Thread nD τ).loc main_v10) ↦{fullShare} f 0) := by
  unfold Dat.arrays
  rw [Gen.bigSep_W2, (Gen.arr_whole2 0).set_eq_univ]
  rfl

theorem after_out2 (c : Dev nD) : Gen.V6 m (outs m hR) c main_v10 = (dat2 m hR c).arrAt 0 grid2.N :=
  (Function.update_self _ _ _).trans (outs_at2 m hR c)

set_option backward.isDefEq.respectTransparency.types false in
def reg2 [∀ e, Nonempty (Elt F e)] : Pipeline.RegionSeg (pcfgs (F := F)) (adms m) (pdats m hR) () (defs₀ (F := F)) Variants.none L lv p2 where
  win := (Gen.launch2 (F := F)).win.to₀
  block_pos := (Gen.launch2 (F := F)).block_pos
  stage_whole := (Gen.launch2 (F := F)).stage_whole
  K := Fin 8
  osem := osem2
  ho := ownSemFacts2
  hbody c := (body_obligation2 m hR c).loose
  hwaits := Pipeline.hwaits_of_owed_zero _ _ _ _ L lv p2 fun _ _ => rfl
  pre c := iprop(StableHlo.held (c : Thread nD τ) (Pipeline.ucRefs τ sig) (Gen.V5 m (outs m hR) c) ∗ E eIn2 c)
  post c := iprop(StableHlo.held (c : Thread nD τ) (Pipeline.ucRefs τ sig) (Gen.V6 m (outs m hR) c) ∗ E eOut2 c)
  X c := iprop(pt c (Memref.whole main_arg1) (arrOf m c) ∗ semsOf cc2_scratch0 c)
  Y c := iprop(pt c (Memref.whole main_v9) (tab2 m c) ∗ pt c (Memref.whole main_arg1) (arrOf m c))
  Z c := StableHlo.held (c : Thread nD τ) (Pipeline.ucRefs τ sig \ T2) (Gen.V5 m (outs m hR) c)
  hentry c := by
    obtain rfl : c = (0 : Dev nD) := Subsingleton.elim _ _
    rw [StableHlo.held_sub_split (0 : Dev nD).tc hT2 (Gen.V5 m (outs m hR) 0), held3 main_v10 main_v9 main_arg1 (by decide) (by decide), semsOwn2_eq, tab_at_2, arr_at_2,
      out_at_2, show (pdats m hR p2 0) = dat2 m hR 0 from rfl, arrays2]
    unfold Pipeline.prefHeld
    rw [Gen.bigSep_W2]
    exact entry_shuffle 0 _ _ _ _ _ _ (fun _ => Or.inl trivial)
  hin c := by
    obtain rfl : c = (0 : Dev nD) := Subsingleton.elim _ _
    rw [show (pdats m hR p2 0).Φ 0 = Φ2 m 0 from rfl]; unfold Φ2 Pipeline.prefHeld
    rw [Gen.bigSep_W2]
    iintro ⟨⟨Harr, Hos⟩, Htab, Hr⟩
    isplitl [Htab]; · iexact Htab
    iframe
  hout c := by
    rw [semsOwn2_eq, show (pdats m hR p2 c).Φ (Fin.last _) = Φ2 m c from rfl]; unfold Φ2
    iintro ⟨Htab, Harr, Hos, Hr⟩
    iframe
  hexit c := by
    rw [StableHlo.held_sub_split (c : Thread nD τ) hT2 (Gen.V6 m (outs m hR) c), held3 main_v10 main_v9 main_arg1 (by decide) (by decide), after_out2,
      held_update c _ T2 _ main_v10 _ (by decide), Gen.V6_of m (outs m hR) c main_v9 (by decide), tab_at_2,
      Gen.V6_of m (outs m hR) c main_arg1 (by decide), arr_at_2, show (pdats m hR p2 c) = dat2 m hR c from rfl, arrays2]
    exact exit_shuffle c _ _ _ _ _

end Cert.Kernel.Hand

end
-- ==== Proof.Region3Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p3 : Fin 8 := 3
abbrev eIn3 : Fin 9 := 3
abbrev eOut3 : Fin 9 := 4

abbrev osem3 : Fin 8 → SemLoc sig := fun j => .dma (cc3_scratch0.ix (ValueIdx.ix1 j))
theorem ownSemFacts3 : Pipeline.OwnSemFacts spec3 osem3 := by decide
theorem semsOwn3_eq (c : Dev nD) :
    (Pipeline.ownSems0 (Ix := Unit) (Name := ℕ) (U := UU nD τ) (Lvl := ℕ) (Val := Elt F) (τ := τ) osem3 c : sProp 𝕄) = semsOf cc3_scratch0 c :=
  Pipeline.ownSems0_eq_of_list c osem3 [0, 1, 2, 3, 4, 5, 6, 7] (by decide) (by decide)

abbrev T3 : Finset (DevRef τ sig) := {Proc.devRef .tc main_v13, Proc.devRef .tc main_v12, Proc.devRef .tc main_arg1}
theorem hT3 : T3 ⊆ Pipeline.ucRefs τ sig := by decide
theorem arrays3 (c : Dev nD) (f : (w : Fin (cfg3 (adm3 m)).W) → Buf (Elt F) (((cfg3 (adm3 m)).win w).arr.view.loc (c : Thread nD τ))) :
    ((dat3 m hR c).arrays f : sProp 𝕄) = (((c : Thread nD τ).loc main_v13) ↦{fullShare} f 0) := by
  unfold Dat.arrays
  rw [Gen.bigSep_W3, (Gen.arr_whole3 0).set_eq_univ]
  rfl

theorem after_out3 (c : Dev nD) : Gen.V8 m (outs m hR) c main_v13 = (dat3 m hR c).arrAt 0 grid3.N :=
  (Function.update_self _ _ _).trans (outs_at3 m hR c)

set_option backward.isDefEq.respectTransparency.types false in
def reg3 [∀ e, Nonempty (Elt F e)] : Pipeline.RegionSeg (pcfgs (F := F)) (adms m) (pdats m hR) () (defs₀ (F := F)) Variants.none L lv p3 where
  win := (Gen.launch3 (F := F)).win.to₀
  block_pos := (Gen.launch3 (F := F)).block_pos
  stage_whole := (Gen.launch3 (F := F)).stage_whole
  K := Fin 8
  osem := osem3
  ho := ownSemFacts3
  hbody c := (body_obligation3 m hR c).loose
  hwaits := Pipeline.hwaits_of_owed_zero _ _ _ _ L lv p3 fun _ _ => rfl
  pre c := iprop(StableHlo.held (c : Thread nD τ) (Pipeline.ucRefs τ sig) (Gen.V7 m (outs m hR) c) ∗ E eIn3 c)
  post c := iprop(StableHlo.held (c : Thread nD τ) (Pipeline.ucRefs τ sig) (Gen.V8 m (outs m hR) c) ∗ E eOut3 c)
  X c := iprop(pt c (Memref.whole main_arg1) (arrOf m c) ∗ semsOf cc3_scratch0 c)
  Y c := iprop(pt c (Memref.whole main_v12) (tab3 m c) ∗ pt c (Memref.whole main_arg1) (arrOf m c))
  Z c := StableHlo.held (c : Thread nD τ) (Pipeline.ucRefs τ sig \ T3) (Gen.V7 m (outs m hR) c)
  hentry c := by
    obtain rfl : c = (0 : Dev nD) := Subsingleton.elim _ _
    rw [StableHlo.held_sub_split (0 : Dev nD).tc hT3 (Gen.V7 m (outs m hR) 0), held3 main_v13 main_v12 main_arg1 (by decide) (by decide), semsOwn3_eq, tab_at_3, arr_at_3,
      out_at_3, show (pdats m hR p3 0) = dat3 m hR 0 from rfl, arrays3]
    unfold Pipeline.prefHeld
    rw [Gen.bigSep_W3]
    exact entry_shuffle 0 _ _ _ _ _ _ (fun _ => Or.inl trivial)
  hin c := by
    obtain rfl : c = (0 : Dev nD) := Subsingleton.elim _ _
    rw [show (pdats m hR p3 0).Φ 0 = Φ3 m 0 from rfl]; unfold Φ3 Pipeline.prefHeld
    rw [Gen.bigSep_W3]
    iintro ⟨⟨Harr, Hos⟩, Htab, Hr⟩
    isplitl [Htab]; · iexact Htab
    iframe
  hout c := by
    rw [semsOwn3_eq, show (pdats m hR p3 c).Φ (Fin.last _) = Φ3 m c from rfl]; unfold Φ3
    iintro ⟨Htab, Harr, Hos, Hr⟩
    iframe
  hexit c := by
    rw [StableHlo.held_sub_split (c : Thread nD τ) hT3 (Gen.V8 m (outs m hR) c), held3 main_v13 main_v12 main_arg1 (by decide) (by decide), after_out3,
      held_update c _ T3 _ main_v13 _ (by decide), Gen.V8_of m (outs m hR) c main_v12 (by decide), tab_at_3,
      Gen.V8_of m (outs m hR) c main_arg1 (by decide), arr_at_3, show (pdats m hR p3 c) = dat3 m hR c from rfl, arrays3]
    exact exit_shuffle c _ _ _ _ _

end Cert.Kernel.Hand

end
-- ==== Proof.Region4Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p4 : Fin 8 := 4
abbrev eIn4 : Fin 9 := 4
abbrev eOut4 : Fin 9 := 5

abbrev osem4 : Fin 8 → SemLoc sig := fun j => .dma (cc4_scratch0.ix (ValueIdx.ix1 j))
theorem ownSemFacts4 : Pipeline.OwnSemFacts spec4 osem4 := by decide
theorem semsOwn4_eq (c : Dev nD) :
    (Pipeline.ownSems0 (Ix := Unit) (Name := ℕ) (U := UU nD τ) (Lvl := ℕ) (Val := Elt F) (τ := τ) osem4 c : sProp 𝕄) = semsOf cc4_scratch0 c :=
  Pipeline.ownSems0_eq_of_list c osem4 [0, 1, 2, 3, 4, 5, 6, 7] (by decide) (by decide)

abbrev T4 : Finset (DevRef τ sig) := {Proc.devRef .tc main_v16, Proc.devRef .tc main_v15, Proc.devRef .tc main_arg1}
theorem hT4 : T4 ⊆ Pipeline.ucRefs τ sig := by decide
theorem arrays4 (c : Dev nD) (f : (w : Fin (cfg4 (adm4 m)).W) → Buf (Elt F) (((cfg4 (adm4 m)).win w).arr.view.loc (c : Thread nD τ))) :
    ((dat4 m hR c).arrays f : sProp 𝕄) = (((c : Thread nD τ).loc main_v16) ↦{fullShare} f 0) := by
  unfold Dat.arrays
  rw [Gen.bigSep_W4, (Gen.arr_whole4 0).set_eq_univ]
  rfl

theorem after_out4 (c : Dev nD) : Gen.V10 m (outs m hR) c main_v16 = (dat4 m hR c).arrAt 0 grid4.N :=
  (Function.update_self _ _ _).trans (outs_at4 m hR c)

set_option backward.isDefEq.respectTransparency.types false in
def reg4 [∀ e, Nonempty (Elt F e)] : Pipeline.RegionSeg (pcfgs (F := F)) (adms m) (pdats m hR) () (defs₀ (F := F)) Variants.none L lv p4 where
  win := (Gen.launch4 (F := F)).win.to₀
  block_pos := (Gen.launch4 (F := F)).block_pos
  stage_whole := (Gen.launch4 (F := F)).stage_whole
  K := Fin 8
  osem := osem4
  ho := ownSemFacts4
  hbody c := (body_obligation4 m hR c).loose
  hwaits := Pipeline.hwaits_of_owed_zero _ _ _ _ L lv p4 fun _ _ => rfl
  pre c := iprop(StableHlo.held (c : Thread nD τ) (Pipeline.ucRefs τ sig) (Gen.V9 m (outs m hR) c) ∗ E eIn4 c)
  post c := iprop(StableHlo.held (c : Thread nD τ) (Pipeline.ucRefs τ sig) (Gen.V10 m (outs m hR) c) ∗ E eOut4 c)
  X c := iprop(pt c (Memref.whole main_arg1) (arrOf m c) ∗ semsOf cc4_scratch0 c)
  Y c := iprop(pt c (Memref.whole main_v15) (tab4 m c) ∗ pt c (Memref.whole main_arg1) (arrOf m c))
  Z c := StableHlo.held (c : Thread nD τ) (Pipeline.ucRefs τ sig \ T4) (Gen.V9 m (outs m hR) c)
  hentry c := by
    obtain rfl : c = (0 : Dev nD) := Subsingleton.elim _ _
    rw [StableHlo.held_sub_split (0 : Dev nD).tc hT4 (Gen.V9 m (outs m hR) 0), held3 main_v16 main_v15 main_arg1 (by decide) (by decide), semsOwn4_eq, tab_at_4, arr_at_4,
      out_at_4, show (pdats m hR p4 0) = dat4 m hR 0 from rfl, arrays4]
    unfold Pipeline.prefHeld
    rw [Gen.bigSep_W4]
    exact entry_shuffle 0 _ _ _ _ _ _ (fun _ => Or.inl trivial)
  hin c := by
    obtain rfl : c = (0 : Dev nD) := Subsingleton.elim _ _
    rw [show (pdats m hR p4 0).Φ 0 = Φ4 m 0 from rfl]; unfold Φ4 Pipeline.prefHeld
    rw [Gen.bigSep_W4]
    iintro ⟨⟨Harr, Hos⟩, Htab, Hr⟩
    isplitl [Htab]; · iexact Htab
    iframe
  hout c := by
    rw [semsOwn4_eq, show (pdats m hR p4 c).Φ (Fin.last _) = Φ4 m c from rfl]; unfold Φ4
    iintro ⟨Htab, Harr, Hos, Hr⟩
    iframe
  hexit c := by
    rw [StableHlo.held_sub_split (c : Thread nD τ) hT4 (Gen.V10 m (outs m hR) c), held3 main_v16 main_v15 main_arg1 (by decide) (by decide), after_out4,
      held_update c _ T4 _ main_v16 _ (by decide), Gen.V10_of m (outs m hR) c main_v15 (by decide), tab_at_4,
      Gen.V10_of m (outs m hR) c main_arg1 (by decide), arr_at_4, show (pdats m hR p4 c) = dat4 m hR c from rfl, arrays4]
    exact exit_shuffle c _ _ _ _ _

end Cert.Kernel.Hand

end
-- ==== Proof.Region5Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p5 : Fin 8 := 5
abbrev eIn5 : Fin 9 := 5
abbrev eOut5 : Fin 9 := 6

abbrev osem5 : Fin 8 → SemLoc sig := fun j => .dma (cc5_scratch0.ix (ValueIdx.ix1 j))
theorem ownSemFacts5 : Pipeline.OwnSemFacts spec5 osem5 := by decide
theorem semsOwn5_eq (c : Dev nD) :
    (Pipeline.ownSems0 (Ix := Unit) (Name := ℕ) (U := UU nD τ) (Lvl := ℕ) (Val := Elt F) (τ := τ) osem5 c : sProp 𝕄) = semsOf cc5_scratch0 c :=
  Pipeline.ownSems0_eq_of_list c osem5 [0, 1, 2, 3, 4, 5, 6, 7] (by decide) (by decide)

abbrev T5 : Finset (DevRef τ sig) := {Proc.devRef .tc main_v19, Proc.devRef .tc main_v18, Proc.devRef .tc main_arg1}
theorem hT5 : T5 ⊆ Pipeline.ucRefs τ sig := by decide
theorem arrays5 (c : Dev nD) (f : (w : Fin (cfg5 (adm5 m)).W) → Buf (Elt F) (((cfg5 (adm5 m)).win w).arr.view.loc (c : Thread nD τ))) :
    ((dat5 m hR c).arrays f : sProp 𝕄) = (((c : Thread nD τ).loc main_v19) ↦{fullShare} f 0) := by
  unfold Dat.arrays
  rw [Gen.bigSep_W5, (Gen.arr_whole5 0).set_eq_univ]
  rfl

theorem after_out5 (c : Dev nD) : Gen.V12 m (outs m hR) c main_v19 = (dat5 m hR c).arrAt 0 grid5.N :=
  (Function.update_self _ _ _).trans (outs_at5 m hR c)

set_option backward.isDefEq.respectTransparency.types false in
def reg5 [∀ e, Nonempty (Elt F e)] : Pipeline.RegionSeg (pcfgs (F := F)) (adms m) (pdats m hR) () (defs₀ (F := F)) Variants.none L lv p5 where
  win := (Gen.launch5 (F := F)).win.to₀
  block_pos := (Gen.launch5 (F := F)).block_pos
  stage_whole := (Gen.launch5 (F := F)).stage_whole
  K := Fin 8
  osem := osem5
  ho := ownSemFacts5
  hbody c := (body_obligation5 m hR c).loose
  hwaits := Pipeline.hwaits_of_owed_zero _ _ _ _ L lv p5 fun _ _ => rfl
  pre c := iprop(StableHlo.held (c : Thread nD τ) (Pipeline.ucRefs τ sig) (Gen.V11 m (outs m hR) c) ∗ E eIn5 c)
  post c := iprop(StableHlo.held (c : Thread nD τ) (Pipeline.ucRefs τ sig) (Gen.V12 m (outs m hR) c) ∗ E eOut5 c)
  X c := iprop(pt c (Memref.whole main_arg1) (arrOf m c) ∗ semsOf cc5_scratch0 c)
  Y c := iprop(pt c (Memref.whole main_v18) (tab5 m c) ∗ pt c (Memref.whole main_arg1) (arrOf m c))
  Z c := StableHlo.held (c : Thread nD τ) (Pipeline.ucRefs τ sig \ T5) (Gen.V11 m (outs m hR) c)
  hentry c := by
    obtain rfl : c = (0 : Dev nD) := Subsingleton.elim _ _
    rw [StableHlo.held_sub_split (0 : Dev nD).tc hT5 (Gen.V11 m (outs m hR) 0), held3 main_v19 main_v18 main_arg1 (by decide) (by decide), semsOwn5_eq, tab_at_5, arr_at_5,
      out_at_5, show (pdats m hR p5 0) = dat5 m hR 0 from rfl, arrays5]
    unfold Pipeline.prefHeld
    rw [Gen.bigSep_W5]
    exact entry_shuffle 0 _ _ _ _ _ _ (fun _ => Or.inl trivial)
  hin c := by
    obtain rfl : c = (0 : Dev nD) := Subsingleton.elim _ _
    rw [show (pdats m hR p5 0).Φ 0 = Φ5 m 0 from rfl]; unfold Φ5 Pipeline.prefHeld
    rw [Gen.bigSep_W5]
    iintro ⟨⟨Harr, Hos⟩, Htab, Hr⟩
    isplitl [Htab]; · iexact Htab
    iframe
  hout c := by
    rw [semsOwn5_eq, show (pdats m hR p5 c).Φ (Fin.last _) = Φ5 m c from rfl]; unfold Φ5
    iintro ⟨Htab, Harr, Hos, Hr⟩
    iframe
  hexit c := by
    rw [StableHlo.held_sub_split (c : Thread nD τ) hT5 (Gen.V12 m (outs m hR) c), held3 main_v19 main_v18 main_arg1 (by decide) (by decide), after_out5,
      held_update c _ T5 _ main_v19 _ (by decide), Gen.V12_of m (outs m hR) c main_v18 (by decide), tab_at_5,
      Gen.V12_of m (outs m hR) c main_arg1 (by decide), arr_at_5, show (pdats m hR p5 c) = dat5 m hR c from rfl, arrays5]
    exact exit_shuffle c _ _ _ _ _

end Cert.Kernel.Hand

end
-- ==== Proof.Region6Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p6 : Fin 8 := 6
abbrev eIn6 : Fin 9 := 6
abbrev eOut6 : Fin 9 := 7

abbrev osem6 : Fin 8 → SemLoc sig := fun j => .dma (cc6_scratch0.ix (ValueIdx.ix1 j))
theorem ownSemFacts6 : Pipeline.OwnSemFacts spec6 osem6 := by decide
theorem semsOwn6_eq (c : Dev nD) :
    (Pipeline.ownSems0 (Ix := Unit) (Name := ℕ) (U := UU nD τ) (Lvl := ℕ) (Val := Elt F) (τ := τ) osem6 c : sProp 𝕄) = semsOf cc6_scratch0 c :=
  Pipeline.ownSems0_eq_of_list c osem6 [0, 1, 2, 3, 4, 5, 6, 7] (by decide) (by decide)

abbrev T6 : Finset (DevRef τ sig) := {Proc.devRef .tc main_v22, Proc.devRef .tc main_v21, Proc.devRef .tc main_arg1}
theorem hT6 : T6 ⊆ Pipeline.ucRefs τ sig := by decide
theorem arrays6 (c : Dev nD) (f : (w : Fin (cfg6 (adm6 m)).W) → Buf (Elt F) (((cfg6 (adm6 m)).win w).arr.view.loc (c : Thread nD τ))) :
    ((dat6 m hR c).arrays f : sProp 𝕄) = (((c : Thread nD τ).loc main_v22) ↦{fullShare} f 0) := by
  unfold Dat.arrays
  rw [Gen.bigSep_W6, (Gen.arr_whole6 0).set_eq_univ]
  rfl

theorem after_out6 (c : Dev nD) : Gen.V14 m (outs m hR) c main_v22 = (dat6 m hR c).arrAt 0 grid6.N :=
  (Function.update_self _ _ _).trans (outs_at6 m hR c)

set_option backward.isDefEq.respectTransparency.types false in
def reg6 [∀ e, Nonempty (Elt F e)] : Pipeline.RegionSeg (pcfgs (F := F)) (adms m) (pdats m hR) () (defs₀ (F := F)) Variants.none L lv p6 where
  win := (Gen.launch6 (F := F)).win.to₀
  block_pos := (Gen.launch6 (F := F)).block_pos
  stage_whole := (Gen.launch6 (F := F)).stage_whole
  K := Fin 8
  osem := osem6
  ho := ownSemFacts6
  hbody c := (body_obligation6 m hR c).loose
  hwaits := Pipeline.hwaits_of_owed_zero _ _ _ _ L lv p6 fun _ _ => rfl
  pre c := iprop(StableHlo.held (c : Thread nD τ) (Pipeline.ucRefs τ sig) (Gen.V13 m (outs m hR) c) ∗ E eIn6 c)
  post c := iprop(StableHlo.held (c : Thread nD τ) (Pipeline.ucRefs τ sig) (Gen.V14 m (outs m hR) c) ∗ E eOut6 c)
  X c := iprop(pt c (Memref.whole main_arg1) (arrOf m c) ∗ semsOf cc6_scratch0 c)
  Y c := iprop(pt c (Memref.whole main_v21) (tab6 m c) ∗ pt c (Memref.whole main_arg1) (arrOf m c))
  Z c := StableHlo.held (c : Thread nD τ) (Pipeline.ucRefs τ sig \ T6) (Gen.V13 m (outs m hR) c)
  hentry c := by
    obtain rfl : c = (0 : Dev nD) := Subsingleton.elim _ _
    rw [StableHlo.held_sub_split (0 : Dev nD).tc hT6 (Gen.V13 m (outs m hR) 0), held3 main_v22 main_v21 main_arg1 (by decide) (by decide), semsOwn6_eq, tab_at_6, arr_at_6,
      out_at_6, show (pdats m hR p6 0) = dat6 m hR 0 from rfl, arrays6]
    unfold Pipeline.prefHeld
    rw [Gen.bigSep_W6]
    exact entry_shuffle 0 _ _ _ _ _ _ (fun _ => Or.inl trivial)
  hin c := by
    obtain rfl : c = (0 : Dev nD) := Subsingleton.elim _ _
    rw [show (pdats m hR p6 0).Φ 0 = Φ6 m 0 from rfl]; unfold Φ6 Pipeline.prefHeld
    rw [Gen.bigSep_W6]
    iintro ⟨⟨Harr, Hos⟩, Htab, Hr⟩
    isplitl [Htab]; · iexact Htab
    iframe
  hout c := by
    rw [semsOwn6_eq, show (pdats m hR p6 c).Φ (Fin.last _) = Φ6 m c from rfl]; unfold Φ6
    iintro ⟨Htab, Harr, Hos, Hr⟩
    iframe
  hexit c := by
    rw [StableHlo.held_sub_split (c : Thread nD τ) hT6 (Gen.V14 m (outs m hR) c), held3 main_v22 main_v21 main_arg1 (by decide) (by decide), after_out6,
      held_update c _ T6 _ main_v22 _ (by decide), Gen.V14_of m (outs m hR) c main_v21 (by decide), tab_at_6,
      Gen.V14_of m (outs m hR) c main_arg1 (by decide), arr_at_6, show (pdats m hR p6 c) = dat6 m hR c from rfl, arrays6]
    exact exit_shuffle c _ _ _ _ _

end Cert.Kernel.Hand

end
-- ==== Proof.Region7Kernel.lean ====
import proofs.«431176_j64484638982170_2_alg».proof.Proof.FamilyKernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p7 : Fin 8 := 7
abbrev eIn7 : Fin 9 := 7
abbrev eOut7 : Fin 9 := 8

abbrev osem7 : Fin 8 → SemLoc sig := fun j => .dma (cc7_scratch0.ix (ValueIdx.ix1 j))
theorem ownSemFacts7 : Pipeline.OwnSemFacts spec7 osem7 := by decide
theorem semsOwn7_eq (c : Dev nD) :
    (Pipeline.ownSems0 (Ix := Unit) (Name := ℕ) (U := UU nD τ) (Lvl := ℕ) (Val := Elt F) (τ := τ) osem7 c : sProp 𝕄) = semsOf cc7_scratch0 c :=
  Pipeline.ownSems0_eq_of_list c osem7 [0, 1, 2, 3, 4, 5, 6, 7] (by decide) (by decide)

abbrev T7 : Finset (DevRef τ sig) := {Proc.devRef .tc main_v25, Proc.devRef .tc main_v24, Proc.devRef .tc main_arg1}
theorem hT7 : T7 ⊆ Pipeline.ucRefs τ sig := by decide
theorem arrays7 (c : Dev nD) (f : (w : Fin (cfg7 (adm7 m)).W) → Buf (Elt F) (((cfg7 (adm7 m)).win w).arr.view.loc (c : Thread nD τ))) :
    ((dat7 m hR c).arrays f : sProp 𝕄) = (((c : Thread nD τ).loc main_v25) ↦{fullShare} f 0) := by
  unfold Dat.arrays
  rw [Gen.bigSep_W7, (Gen.arr_whole7 0).set_eq_univ]
  rfl

theorem after_out7 (c : Dev nD) : Gen.V16 m (outs m hR) c main_v25 = (dat7 m hR c).arrAt 0 grid7.N :=
  (Function.update_self _ _ _).trans (outs_at7 m hR c)

set_option backward.isDefEq.respectTransparency.types false in
def reg7 [∀ e, Nonempty (Elt F e)] : Pipeline.RegionSeg (pcfgs (F := F)) (adms m) (pdats m hR) () (defs₀ (F := F)) Variants.none L lv p7 where
  win := (Gen.launch7 (F := F)).win.to₀
  block_pos := (Gen.launch7 (F := F)).block_pos
  stage_whole := (Gen.launch7 (F := F)).stage_whole
  K := Fin 8
  osem := osem7
  ho := ownSemFacts7
  hbody c := (body_obligation7 m hR c).loose
  hwaits := Pipeline.hwaits_of_owed_zero _ _ _ _ L lv p7 fun _ _ => rfl
  pre c := iprop(StableHlo.held (c : Thread nD τ) (Pipeline.ucRefs τ sig) (Gen.V15 m (outs m hR) c) ∗ E eIn7 c)
  post c := iprop(StableHlo.held (c : Thread nD τ) (Pipeline.ucRefs τ sig) (Gen.V16 m (outs m hR) c) ∗ E eOut7 c)
  X c := iprop(pt c (Memref.whole main_arg1) (arrOf m c) ∗ semsOf cc7_scratch0 c)
  Y c := iprop(pt c (Memref.whole main_v24) (tab7 m c) ∗ pt c (Memref.whole main_arg1) (arrOf m c))
  Z c := StableHlo.held (c : Thread nD τ) (Pipeline.ucRefs τ sig \ T7) (Gen.V15 m (outs m hR) c)
  hentry c := by
    obtain rfl : c = (0 : Dev nD) := Subsingleton.elim _ _
    rw [StableHlo.held_sub_split (0 : Dev nD).tc hT7 (Gen.V15 m (outs m hR) 0), held3 main_v25 main_v24 main_arg1 (by decide) (by decide), semsOwn7_eq, tab_at_7, arr_at_7,
      out_at_7, show (pdats m hR p7 0) = dat7 m hR 0 from rfl, arrays7]
    unfold Pipeline.prefHeld
    rw [Gen.bigSep_W7]
    exact entry_shuffle 0 _ _ _ _ _ _ (fun _ => Or.inl trivial)
  hin c := by
    obtain rfl : c = (0 : Dev nD) := Subsingleton.elim _ _
    rw [show (pdats m hR p7 0).Φ 0 = Φ7 m 0 from rfl]; unfold Φ7 Pipeline.prefHeld
    rw [Gen.bigSep_W7]
    iintro ⟨⟨Harr, Hos⟩, Htab, Hr⟩
    isplitl [Htab]; · iexact Htab
    iframe
  hout c := by
    rw [semsOwn7_eq, show (pdats m hR p7 c).Φ (Fin.last _) = Φ7 m c from rfl]; unfold Φ7
    iintro ⟨Htab, Harr, Hos, Hr⟩
    iframe
  hexit c := by
    rw [StableHlo.held_sub_split (c : Thread nD τ) hT7 (Gen.V16 m (outs m hR) c), held3 main_v25 main_v24 main_arg1 (by decide) (by decide), after_out7,
      held_update c _ T7 _ main_v25 _ (by decide), Gen.V16_of m (outs m hR) c main_v24 (by decide), tab_at_7,
      Gen.V16_of m (outs m hR) c main_arg1 (by decide), arr_at_7, show (pdats m hR p7 c) = dat7 m hR c from rfl, arrays7]
    exact exit_shuffle c _ _ _ _ _

end Cert.Kernel.Hand

end
-- ==== Proof.LaunchKernel.lean ====
import proofs.«431176_j64484638982170_2_alg».proof.Proof.Region0Kernel
import proofs.«431176_j64484638982170_2_alg».proof.Proof.Region1Kernel
import proofs.«431176_j64484638982170_2_alg».proof.Proof.Region2Kernel
import proofs.«431176_j64484638982170_2_alg».proof.Proof.Region3Kernel
import proofs.«431176_j64484638982170_2_alg».proof.Proof.Region4Kernel
import proofs.«431176_j64484638982170_2_alg».proof.Proof.Region5Kernel
import proofs.«431176_j64484638982170_2_alg».proof.Proof.Region6Kernel
import proofs.«431176_j64484638982170_2_alg».proof.Proof.Region7Kernel

noncomputable section

namespace Cert.Kernel.Hand

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ)

abbrev EP : Emb (UR sig nD τ) (MT nD τ sig Unit (Elt F) ℕ (UU nD τ) ℕ) := embL

def u₀ : UU nD τ := (initOf (Pipeline.cells (Pipeline.pin (pcfgs (F := F)) (adms m)) (Gen.cellOf_inj (adms m)))
  (Pipeline.launchToks (Pipeline.pin (pcfgs (F := F)) (adms m)) (Gen.cellOf_inj (adms m))), 1)

theorem hu₀ : (ownU (u₀ m) : sProp 𝕄) ⊢ |={Set.univ}=> iprop(BI.own (EP (F := F) (initOf (Pipeline.cells (Pipeline.pin (pcfgs (F := F)) (adms m)) (Gen.cellOf_inj (adms m)))
    (Pipeline.launchToks (Pipeline.pin (pcfgs (F := F)) (adms m)) (Gen.cellOf_inj (adms m))))) ∗ bigSep Finset.univ (fun _ : Dev nD => (BI.emp : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, -, -⟩, -⟩
  imodintro
  iexists ∅; iexact HO

set_option backward.isDefEq.respectTransparency.types false in
theorem frame_run [∀ e, Nonempty (Elt F e)] (hR : InRange m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (EP (F := F)) () Variants.none L lv (fun _ _ => rfl) ρ (outs m hR) (adms m) (pdats m hR) 0 (fun _ => BI.emp) (u₀ m) (hu₀ m)
    E (hE0 ρ) (fun _ => .rfl)
    (reg0 m hR) (fun _ => .rfl) (fun _ => .rfl)
    (reg1 m hR) (fun _ => .rfl) (fun _ => .rfl)
    (reg2 m hR) (fun _ => .rfl) (fun _ => .rfl)
    (reg3 m hR) (fun _ => .rfl) (fun _ => .rfl)
    (reg4 m hR) (fun _ => .rfl) (fun _ => .rfl)
    (reg5 m hR) (fun _ => .rfl) (fun _ => .rfl)
    (reg6 m hR) (fun _ => .rfl) (fun _ => .rfl)
    (reg7 m hR) (fun _ => .rfl) (fun _ => .rfl)

end Cert.Kernel.Hand

end
-- ==== Proof.CommonKernelIdeal.lean ====
import proofs.«431176_j64484638982170_2_alg».proof.Proof.Gen.KernelIdeal.Launch
import Idealize.ShloMosaic.Lib.Tactic
import Idealize.ShloMosaic.Lib.Batch
import Idealize.ShloMosaic.Lib.Pipeline.Kit

noncomputable section

namespace Cert.KernelIdeal.Hand

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev ptq (c : Dev nD) (q : PosShare TreeShare) {sp : Space} {S : Shape} {e : EltTy} (M : Memref sig .tc sp S e) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  ptq c fullShare M f
abbrev own (c : Dev nD) {sp : Space} {S : Shape} {e : EltTy} (M : Memref sig .tc sp S e) (f : Bf (F := F) c M) : sProp 𝕄 :=
  M.view.loc (c : Thread nD τ) ↦[M.view.set]{fullShare} f

abbrev row0 (M3 : Memref sig .tc .vmem S8x64 .f32) : Memref sig .tc .vmem S1x64 .f32 := M3.slice (Rect.unit (s := S8x64) ![0, 0] S1x64.size Facts₀.inb_S8x64_S1x64_0_0) (fun _ => rfl)
abbrev row1 (M3 : Memref sig .tc .vmem S8x64 .f32) : Memref sig .tc .vmem S1x64 .f32 := M3.slice (Rect.unit (s := S8x64) ![1, 0] S1x64.size Facts₀.inb_S8x64_S1x64_1_0) (fun _ => rfl)
abbrev row2 (M3 : Memref sig .tc .vmem S8x64 .f32) : Memref sig .tc .vmem S1x64 .f32 := M3.slice (Rect.unit (s := S8x64) ![2, 0] S1x64.size Facts₀.inb_S8x64_S1x64_2_0) (fun _ => rfl)
abbrev row3 (M3 : Memref sig .tc .vmem S8x64 .f32) : Memref sig .tc .vmem S1x64 .f32 := M3.slice (Rect.unit (s := S8x64) ![3, 0] S1x64.size Facts₀.inb_S8x64_S1x64_3_0) (fun _ => rfl)
abbrev row4 (M3 : Memref sig .tc .vmem S8x64 .f32) : Memref sig .tc .vmem S1x64 .f32 := M3.slice (Rect.unit (s := S8x64) ![4, 0] S1x64.size Facts₀.inb_S8x64_S1x64_4_0) (fun _ => rfl)
abbrev row5 (M3 : Memref sig .tc .vmem S8x64 .f32) : Memref sig .tc .vmem S1x64 .f32 := M3.slice (Rect.unit (s := S8x64) ![5, 0] S1x64.size Facts₀.inb_S8x64_S1x64_5_0) (fun _ => rfl)
abbrev row6 (M3 : Memref sig .tc .vmem S8x64 .f32) : Memref sig .tc .vmem S1x64 .f32 := M3.slice (Rect.unit (s := S8x64) ![6, 0] S1x64.size Facts₀.inb_S8x64_S1x64_6_0) (fun _ => rfl)
abbrev row7 (M3 : Memref sig .tc .vmem S8x64 .f32) : Memref sig .tc .vmem S1x64 .f32 := M3.slice (Rect.unit (s := S8x64) ![7, 0] S1x64.size Facts₀.inb_S8x64_S1x64_7_0) (fun _ => rfl)

abbrev arrTok (c : Dev nD) (k : ℕ) (farr : Bf (F := F) c (Memref.whole main_arg1)) : sProp 𝕄 :=
  ptq c (Transfers.shareTokN fullShare k) (Memref.whole main_arg1) farr
abbrev arrRest (c : Dev nD) (n : ℕ) (farr : Bf (F := F) c (Memref.whole main_arg1)) : sProp 𝕄 :=
  ptq c (Transfers.shareDrop fullShare n) (Memref.whole main_arg1) farr

def spareToks {ℓ : Loc nD τ sig} (f : Buf (Elt F) ℓ) (s : ℕ) : sProp 𝕄 :=
  iprop((ℓ ↦{Transfers.shareDrop fullShare (s + 8)} f) ∗ BI.bigSep (Finset.range s) (fun i => ℓ ↦{Transfers.shareTokN fullShare i} f))

/-- A full share is eight consecutive token shares beside a remainder. -/
theorem toks_split8 {ℓ : Loc nD τ sig} (f : Buf (Elt F) ℓ) (s : ℕ) :
    (ℓ ↦{fullShare} f : sProp 𝕄) ⊣⊢ iprop(spareToks f s ∗ (ℓ ↦{Transfers.shareTokN fullShare (s + 0)} f) ∗ (ℓ ↦{Transfers.shareTokN fullShare (s + 1)} f) ∗ (ℓ ↦{Transfers.shareTokN fullShare (s + 2)} f) ∗ (ℓ ↦{Transfers.shareTokN fullShare (s + 3)} f) ∗ (ℓ ↦{Transfers.shareTokN fullShare (s + 4)} f) ∗ (ℓ ↦{Transfers.shareTokN fullShare (s + 5)} f) ∗ (ℓ ↦{Transfers.shareTokN fullShare (s + 6)} f) ∗ (ℓ ↦{Transfers.shareTokN fullShare (s + 7)} f)) := by
  have h := Transfers.pointsTo_toks_range (Ix := Unit) (Name := ℕ) (U := UU nD τ) (Lvl := ℕ) (ℓ := ℓ) (S := Finset.univ) (f := f) fullShare (s + 8)
  have hb : BI.bigSep (Finset.range (s + 8)) (fun i => (ℓ ↦{Transfers.shareTokN fullShare i} f : sProp 𝕄))
      = iprop((ℓ ↦{Transfers.shareTokN fullShare (s + 7)} f) ∗ (ℓ ↦{Transfers.shareTokN fullShare (s + 6)} f) ∗ (ℓ ↦{Transfers.shareTokN fullShare (s + 5)} f) ∗ (ℓ ↦{Transfers.shareTokN fullShare (s + 4)} f) ∗ (ℓ ↦{Transfers.shareTokN fullShare (s + 3)} f) ∗ (ℓ ↦{Transfers.shareTokN fullShare (s + 2)} f) ∗ (ℓ ↦{Transfers.shareTokN fullShare (s + 1)} f) ∗ (ℓ ↦{Transfers.shareTokN fullShare (s + 0)} f) ∗ BI.bigSep (Finset.range s) (fun i => ℓ ↦{Transfers.shareTokN fullShare i} f)) := by
    rw [show s + 8 = (s + 7) + 1 from rfl, Finset.range_add_one, BI.bigSep_insert Finset.notMem_range_self,
      show s + 7 = (s + 6) + 1 from rfl, Finset.range_add_one, BI.bigSep_insert Finset.notMem_range_self,
      show s + 6 = (s + 5) + 1 from rfl, Finset.range_add_one, BI.bigSep_insert Finset.notMem_range_self,
      show s + 5 = (s + 4) + 1 from rfl, Finset.range_add_one, BI.bigSep_insert Finset.notMem_range_self,
      show s + 4 = (s + 3) + 1 from rfl, Finset.range_add_one, BI.bigSep_insert Finset.notMem_range_self,
      show s + 3 = (s + 2) + 1 from rfl, Finset.range_add_one, BI.bigSep_insert Finset.notMem_range_self,
      show s + 2 = (s + 1) + 1 from rfl, Finset.range_add_one, BI.bigSep_insert Finset.notMem_range_self,
      show s + 1 = (s + 0) + 1 from rfl, Finset.range_add_one, BI.bigSep_insert Finset.notMem_range_self]
    rfl
  rw [hb] at h
  unfold spareToks
  constructor
  · refine h.1.trans ?_
    iintro ⟨Hd, H7, H6, H5, H4, H3, H2, H1, H0, Hr⟩
    iframe
  · refine BIBase.Entails.trans ?_ h.2
    iintro ⟨⟨Hd, Hr⟩, H0, H1, H2, H3, H4, H5, H6, H7⟩
    iframe

end Cert.KernelIdeal.Hand

end
-- ==== Proof.RowsKernelIdeal.lean ====
import proofs.«431176_j64484638982170_2_alg».proof.Proof.CommonKernelIdeal
import Idealize.ShloMosaic.Lib.Memref
import Idealize.ShloMosaic.Lib.ValueIdx

noncomputable section

namespace Cert.KernelIdeal.Hand

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

abbrev rowRect (j : ℕ) (h : ∀ a, (![j, 0] : Fin 2 → ℕ) a + S1x64.size a ≤ S8x64.size a) : Rect S8x64 :=
  Rect.unit (s := S8x64) ![j, 0] S1x64.size h

theorem mem_rowRect {j : ℕ} {h : ∀ a, (![j, 0] : Fin 2 → ℕ) a + S1x64.size a ≤ S8x64.size a} {y : S8x64.Idx} :
    y ∈ (rowRect j h).set ↔ (y 0).val = j := by
  have h1 := ValueIdx.idx2_lt1 y
  rw [Rect.mem_set_unit, Fin.forall_fin_two]
  simp only [Matrix.cons_val_zero, Matrix.cons_val_one]
  constructor
  · rintro ⟨⟨h0, h0'⟩, -⟩; omega
  · intro e; refine ⟨⟨by omega, by omega⟩, by omega, by omega⟩

theorem rowRect_disjoint {j j' : ℕ} (hne : j ≠ j') {h : ∀ a, (![j, 0] : Fin 2 → ℕ) a + S1x64.size a ≤ S8x64.size a}
    {h' : ∀ a, (![j', 0] : Fin 2 → ℕ) a + S1x64.size a ≤ S8x64.size a} :
    Disjoint (rowRect j h).set (rowRect j' h').set :=
  Finset.disjoint_left.mpr fun y hy hy' => hne ((mem_rowRect.mp hy).symm.trans (mem_rowRect.mp hy'))

theorem rows_set (M3 : Memref sig .tc .vmem S8x64 .f32) :
    M3.view.set = (M3.view.slice (rowRect 0 inb_S8x64_S1x64_0_0)).set ∪ ((M3.view.slice (rowRect 1 inb_S8x64_S1x64_1_0)).set
      ∪ ((M3.view.slice (rowRect 2 inb_S8x64_S1x64_2_0)).set ∪ ((M3.view.slice (rowRect 3 inb_S8x64_S1x64_3_0)).set
      ∪ ((M3.view.slice (rowRect 4 inb_S8x64_S1x64_4_0)).set ∪ ((M3.view.slice (rowRect 5 inb_S8x64_S1x64_5_0)).set
      ∪ ((M3.view.slice (rowRect 6 inb_S8x64_S1x64_6_0)).set ∪ (M3.view.slice (rowRect 7 inb_S8x64_S1x64_7_0)).set)))))) := by
  ext i
  simp only [Finset.mem_union, View.set_slice, Finset.mem_map]
  constructor
  · intro hi
    obtain ⟨y, -, rfl⟩ := Finset.mem_map.mp hi
    have h0 := ValueIdx.idx2_lt0 y
    have hc : (y 0).val = 0 ∨ (y 0).val = 1 ∨ (y 0).val = 2 ∨ (y 0).val = 3 ∨ (y 0).val = 4 ∨ (y 0).val = 5 ∨ (y 0).val = 6
        ∨ (y 0).val = 7 := by omega
    rcases hc with h | h | h | h | h | h | h | h
    · exact .inl ⟨y, mem_rowRect.mpr h, rfl⟩
    · exact .inr (.inl ⟨y, mem_rowRect.mpr h, rfl⟩)
    · exact .inr (.inr (.inl ⟨y, mem_rowRect.mpr h, rfl⟩))
    · exact .inr (.inr (.inr (.inl ⟨y, mem_rowRect.mpr h, rfl⟩)))
    · exact .inr (.inr (.inr (.inr (.inl ⟨y, mem_rowRect.mpr h, rfl⟩))))
    · exact .inr (.inr (.inr (.inr (.inr (.inl ⟨y, mem_rowRect.mpr h, rfl⟩)))))
    · exact .inr (.inr (.inr (.inr (.inr (.inr (.inl ⟨y, mem_rowRect.mpr h, rfl⟩))))))
    · exact .inr (.inr (.inr (.inr (.inr (.inr (.inr ⟨y, mem_rowRect.mpr h, rfl⟩))))))
  · rintro (⟨y, -, rfl⟩ | ⟨y, -, rfl⟩ | ⟨y, -, rfl⟩ | ⟨y, -, rfl⟩ | ⟨y, -, rfl⟩ | ⟨y, -, rfl⟩ | ⟨y, -, rfl⟩ | ⟨y, -, rfl⟩) <;> exact M3.view.emb_mem_set y

theorem slice_disjoint (M3 : Memref sig .tc .vmem S8x64 .f32) {j j' : ℕ} (hne : j ≠ j')
    {h : ∀ a, (![j, 0] : Fin 2 → ℕ) a + S1x64.size a ≤ S8x64.size a}
    {h' : ∀ a, (![j', 0] : Fin 2 → ℕ) a + S1x64.size a ≤ S8x64.size a} :
    Disjoint (M3.view.slice (rowRect j h)).set (M3.view.slice (rowRect j' h')).set := by
  rw [View.set_slice, View.set_slice]; exact (Finset.disjoint_map _).mpr (rowRect_disjoint hne)

theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- A block is the disjoint union of its eight rows. -/
theorem own_rows_eq (c : Dev nD) (M3 : Memref sig .tc .vmem S8x64 .f32) (g : Bf (F := F) c M3) :
    (own c M3 g : sProp 𝕄) = iprop(own c (row0 M3) g ∗ own c (row1 M3) g ∗ own c (row2 M3) g ∗ own c (row3 M3) g
      ∗ own c (row4 M3) g ∗ own c (row5 M3) g ∗ own c (row6 M3) g ∗ own c (row7 M3) g) := by
  show (M3.view.loc (c : Thread nD τ) ↦[M3.view.set]{fullShare} g : sProp 𝕄) = _
  rw [rows_set M3]
  rw [pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (by repeat' (first | (rw [Finset.disjoint_union_right]; constructor) | exact slice_disjoint M3 (by decide))),
    pt_union_eq (slice_disjoint M3 (by decide))]

theorem rows_split (c : Dev nD) (M3 : Memref sig .tc .vmem S8x64 .f32) (h3 : M3.IsWhole) (f : Bf (F := F) c M3) :
    own c M3 f ⊢ iprop(own c (row0 M3) f ∗ own c (row1 M3) f ∗ own c (row2 M3) f ∗ own c (row3 M3) f ∗ own c (row4 M3) f
      ∗ own c (row5 M3) f ∗ own c (row6 M3) f ∗ own c (row7 M3) f) :=
  Entails.of_eq (own_rows_eq c M3 f)

abbrev srcRowN (n : ℕ) (hn : ∀ a, (![n, 0] : Fin 2 → Nat) a + S1x64.size a ≤ S1000000x64.size a) : Memref sig .tc .hbm S1x64 .f32 :=
  (Memref.whole main_arg1).slice (Rect.unit (s := S1000000x64) ![n, 0] S1x64.size hn) (fun _ => rfl)

abbrev landedN (c : Dev nD) (R : Memref sig .tc .vmem S1x64 .f32) (f3 : Bf (F := F) c R) (farr : Bf (F := F) c (Memref.whole main_arg1))
    (n : ℕ) (hn : ∀ a, (![n, 0] : Fin 2 → Nat) a + S1x64.size a ≤ S1000000x64.size a) : Bf (F := F) c R :=
  R.view.writes (Elt F) f3 [⟨Rect.whole S1x64, ReadAs.same.apply ((srcRowN n hn).view.read (Elt F) farr)⟩]

def gblock {c : Dev nD} (farr : Bf (F := F) c (Memref.whole main_arg1)) (n : Fin 8 → ℕ) (hn : ∀ j, n j < 1000000) : S8x64.Idx → Elt F .f32 :=
  fun y => farr (ValueIdx.ix2 (⟨n ⟨(y 0).val, (y 0).isLt⟩, hn _⟩ : Fin 1000000) (⟨(y 1).val, (y 1).isLt⟩ : Fin 64))

theorem row_landed_read (c : Dev nD) (M3 : Memref sig .tc .vmem S8x64 .f32) (f3 : Bf (F := F) c M3)
    (farr : Bf (F := F) c (Memref.whole main_arg1)) (n : Fin 8 → ℕ) (hn : ∀ j, n j < 1000000)
    (j : Fin 8) (hj : ∀ a, (![j.val, 0] : Fin 2 → ℕ) a + S1x64.size a ≤ S8x64.size a)
    (hb : ∀ a, (![n j, 0] : Fin 2 → Nat) a + S1x64.size a ≤ S1000000x64.size a)
    (x : S1x64.Idx) :
    (M3.slice (rowRect j.val hj) (fun _ => rfl)).view.read (Elt F)
        (landedN c (M3.slice (rowRect j.val hj) (fun _ => rfl)) f3 farr (n j) hb) x
      = gblock farr n hn ((rowRect j.val hj).emb x) := by
  have hx := View.read_writes_cons_emb (M3.slice (rowRect j.val hj) (fun _ => rfl)).view f3 (Rect.whole S1x64)
    (ReadAs.same.apply ((srcRowN (n j) hb).view.read (Elt F) farr)) [] x
  have e : (Rect.whole S1x64).emb x = x := Rect.emb_whole_apply S1x64 x
  rw [e] at hx
  refine hx.trans ?_
  have hx0 : (x 0).val = 0 := by have := ValueIdx.idx2_lt0 x; omega
  rw [ReadAs.apply_same]
  show farr ((Rect.unit (s := S1000000x64) ![n j, 0] S1x64.size hb).emb x) = farr _
  congr 1
  funext a
  match a with
  | ⟨0, _⟩ =>
    apply Fin.ext
    have h0 : ((rowRect j.val hj).emb x 0).val = j.val := by
      show ![j.val, 0] 0 + 1 * (x 0).val = j.val
      rw [hx0]; rfl
    have key : ∀ t : Fin 8, t.val = j.val → n j = n t := fun t ht => congrArg n (Fin.ext ht.symm)
    refine Eq.trans ?_ (key _ h0)
    show ![n j, 0] 0 + 1 * (x 0).val = n j
    rw [hx0]; rfl
  | ⟨1, _⟩ =>
    apply Fin.ext
    rfl

theorem own_row_congr (c : Dev nD) (M3 : Memref sig .tc .vmem S8x64 .f32) (r : Rect S8x64) (hr : ∀ a, r.stride a = 1)
    (g g' : Bf (F := F) c M3)
    (h : ∀ x, (M3.slice r hr).view.read (Elt F) g x = M3.view.read (Elt F) g' (r.emb x)) :
    (own c (M3.slice r hr) g : sProp 𝕄) = own c (M3.slice r hr) g' :=
  pointsTo_congr fun i hi => by
    obtain ⟨x, -, rfl⟩ := Finset.mem_map.mp hi
    have := h x
    simp only [View.read] at this
    exact (cast_inj _).mp this

/-- Eight rows, row `j` holding table row `n j`, are the block that reads as `(j, k) ↦ table (n j, k)`. -/
theorem rows_join_block (c : Dev nD) (M3 : Memref sig .tc .vmem S8x64 .f32) (h3 : M3.IsWhole) (f3 : Bf (F := F) c M3)
    (farr : Bf (F := F) c (Memref.whole main_arg1))
    (n : Fin 8 → ℕ) (hn : ∀ j, n j < 1000000) (hb : ∀ j a, (![n j, 0] : Fin 2 → Nat) a + S1x64.size a ≤ S1000000x64.size a) :
    iprop(own c (row0 M3) (landedN c (row0 M3) f3 farr (n 0) (hb 0))
      ∗ own c (row1 M3) (landedN c (row1 M3) f3 farr (n 1) (hb 1))
      ∗ own c (row2 M3) (landedN c (row2 M3) f3 farr (n 2) (hb 2))
      ∗ own c (row3 M3) (landedN c (row3 M3) f3 farr (n 3) (hb 3))
      ∗ own c (row4 M3) (landedN c (row4 M3) f3 farr (n 4) (hb 4))
      ∗ own c (row5 M3) (landedN c (row5 M3) f3 farr (n 5) (hb 5))
      ∗ own c (row6 M3) (landedN c (row6 M3) f3 farr (n 6) (hb 6))
      ∗ own c (row7 M3) (landedN c (row7 M3) f3 farr (n 7) (hb 7)))
      ⊢ owns (c : Thread nD τ) M3 fullShare (gblock farr n hn) := by
  have key (j : Fin 8) (hj : ∀ a, (![j.val, 0] : Fin 2 → ℕ) a + S1x64.size a ≤ S8x64.size a) :
      (own c (M3.slice (rowRect j.val hj) (fun _ => rfl))
          (landedN c (M3.slice (rowRect j.val hj) (fun _ => rfl)) f3 farr (n j) (hb j)) : sProp 𝕄)
        = own c (M3.slice (rowRect j.val hj) (fun _ => rfl)) (M3.view.write (Elt F) f3 (gblock farr n hn) Finset.univ) :=
    own_row_congr c M3 _ _ _ _ fun x => (row_landed_read c M3 f3 farr n hn j hj (hb j) x).trans
      (View.read_write_of_mem (v := M3.view) f3 (gblock farr n hn) (Finset.mem_univ _)).symm
  have e0 : (own c (row0 M3) (landedN c (row0 M3) f3 farr (n 0) (hb 0)) : sProp 𝕄)
      = own c (row0 M3) (M3.view.write (Elt F) f3 (gblock farr n hn) Finset.univ) := key 0 inb_S8x64_S1x64_0_0
  have e1 : (own c (row1 M3) (landedN c (row1 M3) f3 farr (n 1) (hb 1)) : sProp 𝕄)
      = own c (row1 M3) (M3.view.write (Elt F) f3 (gblock farr n hn) Finset.univ) := key 1 inb_S8x64_S1x64_1_0
  have e2 : (own c (row2 M3) (landedN c (row2 M3) f3 farr (n 2) (hb 2)) : sProp 𝕄)
      = own c (row2 M3) (M3.view.write (Elt F) f3 (gblock farr n hn) Finset.univ) := key 2 inb_S8x64_S1x64_2_0
  have e3 : (own c (row3 M3) (landedN c (row3 M3) f3 farr (n 3) (hb 3)) : sProp 𝕄)
      = own c (row3 M3) (M3.view.write (Elt F) f3 (gblock farr n hn) Finset.univ) := key 3 inb_S8x64_S1x64_3_0
  have e4 : (own c (row4 M3) (landedN c (row4 M3) f3 farr (n 4) (hb 4)) : sProp 𝕄)
      = own c (row4 M3) (M3.view.write (Elt F) f3 (gblock farr n hn) Finset.univ) := key 4 inb_S8x64_S1x64_4_0
  have e5 : (own c (row5 M3) (landedN c (row5 M3) f3 farr (n 5) (hb 5)) : sProp 𝕄)
      = own c (row5 M3) (M3.view.write (Elt F) f3 (gblock farr n hn) Finset.univ) := key 5 inb_S8x64_S1x64_5_0
  have e6 : (own c (row6 M3) (landedN c (row6 M3) f3 farr (n 6) (hb 6)) : sProp 𝕄)
      = own c (row6 M3) (M3.view.write (Elt F) f3 (gblock farr n hn) Finset.univ) := key 6 inb_S8x64_S1x64_6_0
  have e7 : (own c (row7 M3) (landedN c (row7 M3) f3 farr (n 7) (hb 7)) : sProp 𝕄)
      = own c (row7 M3) (M3.view.write (Elt F) f3 (gblock farr n hn) Finset.univ) := key 7 inb_S8x64_S1x64_7_0
  rw [e0, e1, e2, e3, e4, e5, e6, e7, ← own_rows_eq c M3 (M3.view.write (Elt F) f3 (gblock farr n hn) Finset.univ)]
  have hr : M3.view.read (Elt F) (M3.view.write (Elt F) f3 (gblock farr n hn) Finset.univ) = gblock farr n hn :=
    View.read_write_univ (v := M3.view) f3 _
  have hi := owns_intro (Ix := Unit) (Name := ℕ) (U := UU nD τ) (Lvl := ℕ) (c : Thread nD τ) M3 fullShare
    (M3.view.write (Elt F) f3 (gblock farr n hn) Finset.univ)
  rw [hr] at hi
  exact hi

end Cert.KernelIdeal.Hand

end
-- ==== Proof.TablesKernelIdeal.lean ====
import proofs.«431176_j64484638982170_2_alg».proof.Proof.CommonKernelIdeal
import proofs.«431176_j64484638982170_2_alg».proof.Proof.Spec

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

variable (m : (ℓ : Loc nD τ sig) → Buf (Elt F) ℓ)

abbrev idsOf (c : Dev nD) : IVec S16384x50 32 := m ((c : Thread nD τ).loc main_arg0)
abbrev arrOf (c : Dev nD) : Bf (F := F) c (Memref.whole main_arg1) := m ((c : Thread nD τ).loc main_arg1)

def InRange : Prop := ∀ (c : Dev nD) (x : S16384x50.Idx), (idsOf m c x).toNat < 1000000

def chunk (K : Fin 8) (ids : IVec S16384x50 32) : IVec S102400 32 := fun x =>
  Cert.Hand.Spec.idAt ids ⟨102400 * K.val + (x 0).val, by have h : (x 0).val < 102400 := (x 0).isLt; have := K.isLt; omega⟩

theorem chunk_lt {m} (hR : InRange (F := F) m) (c : Dev nD) (K : Fin 8) (x : S102400.Idx) : (chunk K (idsOf m c) x).toNat < 1000000 := hR c _

theorem row_inb (n : ℕ) (h : n < 1000000) : ∀ a, (![n, 0] : Fin 2 → Nat) a + S1x64.size a ≤ S1000000x64.size a := by
  intro a
  match a with
  | ⟨0, _⟩ => show n + 1 ≤ 1000000; omega
  | ⟨1, _⟩ => show 0 + 64 ≤ 64; omega

end Cert.KernelIdeal.Hand

end
-- ==== Proof.BodyKernelIdeal.lean ====
import proofs.«431176_j64484638982170_2_alg».proof.Proof.RowsKernelIdeal
import proofs.«431176_j64484638982170_2_alg».proof.Proof.TablesKernelIdeal
import proofs.«431176_j64484638982170_2_alg».proof.Proof.Gen.KernelIdeal.Skeleton

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

abbrev wordAt (T : Memref sig .tc .smem S102400 .i32) (c : Dev nD) (ftab : Bf (F := F) c T) (off : Fin 1 → ℕ)
    (h : ∀ a, off a + S1.size a ≤ S102400.size a) : Elt F .i32 :=
  T.view.readAt (Elt F) (Rect.unit (s := S102400) off S1.size h).toLoadRect ftab (Shape.Idx.first (Facts₀.numel1_S1.symm ▸ Nat.one_pos))

/-- The eight ids a grid point reads: entries `8 i … 8 i + 7` of its call's id table. -/
def words (T : Memref sig .tc .smem S102400 .i32) (c : Dev nD) (i : grid0.Coords) (ftab : Bf (F := F) c T) : Fin 8 → Elt F .i32
  | 0 => wordAt T c ftab (k0_off1 i) (Facts₀.k0_off1_inb i)
  | 1 => wordAt T c ftab (k0_off3 i) (Facts₀.k0_off3_inb i)
  | 2 => wordAt T c ftab (k0_off5 i) (Facts₀.k0_off5_inb i)
  | 3 => wordAt T c ftab (k0_off7 i) (Facts₀.k0_off7_inb i)
  | 4 => wordAt T c ftab (k0_off9 i) (Facts₀.k0_off9_inb i)
  | 5 => wordAt T c ftab (k0_off11 i) (Facts₀.k0_off11_inb i)
  | 6 => wordAt T c ftab (k0_off13 i) (Facts₀.k0_off13_inb i)
  | 7 => wordAt T c ftab (k0_off15 i) (Facts₀.k0_off15_inb i)
  | ⟨_ + 8, h⟩ => absurd h (Nat.not_lt.2 (Nat.le_add_left _ _))

abbrev srcRow (w : Elt F .i32) (hw : ∀ a, (k0_off2 w) a + S1x64.size a ≤ S1000000x64.size a) : Memref sig .tc .hbm S1x64 .f32 :=
  (Memref.whole main_arg1).slice (Rect.unit (s := S1000000x64) (k0_off2 w) S1x64.size hw) (fun _ => rfl)

abbrev landed (c : Dev nD) (R : Memref sig .tc .vmem S1x64 .f32) (f3 : Bf (F := F) c R) (farr : Bf (F := F) c (Memref.whole main_arg1))
    (w : Elt F .i32) (hw : ∀ a, (k0_off2 w) a + S1x64.size a ≤ S1000000x64.size a) : Bf (F := F) c R :=
  R.view.writes (Elt F) f3 [⟨Rect.whole S1x64, ReadAs.same.apply ((srcRow w hw).view.read (Elt F) farr)⟩]

abbrev sm0 (sc : DmaSems sig S8) : DmaSem sig := ((sc.slice (Rect.unit (s := S8) ![0] S1.size inb_S8_S1_0)).squeeze S_ squeezes_S1_S_).sem
abbrev sm1 (sc : DmaSems sig S8) : DmaSem sig := ((sc.slice (Rect.unit (s := S8) ![1] S1.size inb_S8_S1_1)).squeeze S_ squeezes_S1_S_).sem
abbrev sm2 (sc : DmaSems sig S8) : DmaSem sig := ((sc.slice (Rect.unit (s := S8) ![2] S1.size inb_S8_S1_2)).squeeze S_ squeezes_S1_S_).sem
abbrev sm3 (sc : DmaSems sig S8) : DmaSem sig := ((sc.slice (Rect.unit (s := S8) ![3] S1.size inb_S8_S1_3)).squeeze S_ squeezes_S1_S_).sem
abbrev sm4 (sc : DmaSems sig S8) : DmaSem sig := ((sc.slice (Rect.unit (s := S8) ![4] S1.size inb_S8_S1_4)).squeeze S_ squeezes_S1_S_).sem
abbrev sm5 (sc : DmaSems sig S8) : DmaSem sig := ((sc.slice (Rect.unit (s := S8) ![5] S1.size inb_S8_S1_5)).squeeze S_ squeezes_S1_S_).sem
abbrev sm6 (sc : DmaSems sig S8) : DmaSem sig := ((sc.slice (Rect.unit (s := S8) ![6] S1.size inb_S8_S1_6)).squeeze S_ squeezes_S1_S_).sem
abbrev sm7 (sc : DmaSems sig S8) : DmaSem sig := ((sc.slice (Rect.unit (s := S8) ![7] S1.size inb_S8_S1_7)).squeeze S_ squeezes_S1_S_).sem

abbrev semsOf (sc : DmaSems sig S8) (c : Dev nD) : sProp 𝕄 :=
  iprop(semVal ((c : Thread nD τ), SemLoc.dma (sm0 sc)) 0 ∗ semVal ((c : Thread nD τ), SemLoc.dma (sm1 sc)) 0 ∗ semVal ((c : Thread nD τ), SemLoc.dma (sm2 sc)) 0 ∗ semVal ((c : Thread nD τ), SemLoc.dma (sm3 sc)) 0 ∗ semVal ((c : Thread nD τ), SemLoc.dma (sm4 sc)) 0 ∗ semVal ((c : Thread nD τ), SemLoc.dma (sm5 sc)) 0 ∗ semVal ((c : Thread nD τ), SemLoc.dma (sm6 sc)) 0 ∗ semVal ((c : Thread nD τ), SemLoc.dma (sm7 sc)) 0)

abbrev toksOf (sc : DmaSems sig S8) (c : Dev nD) (farr : Bf (F := F) c (Memref.whole main_arg1)) : sProp 𝕄 :=
  iprop(arrTok c (sm0 sc).val farr ∗ arrTok c (sm1 sc).val farr ∗ arrTok c (sm2 sc).val farr ∗ arrTok c (sm3 sc).val farr ∗ arrTok c (sm4 sc).val farr ∗ arrTok c (sm5 sc).val farr ∗ arrTok c (sm6 sc).val farr ∗ arrTok c (sm7 sc).val farr)

set_option maxHeartbeats 1600000 in
/-- One run of the body: row `j` of the block ends as the table row id `j` names. -/
theorem kernelRun [∀ e, Nonempty (Elt F e)] (c : Dev nD) (i : grid0.Coords)
    (T : Memref sig .tc .smem S102400 .i32) (hT : T.IsWhole) (sc : DmaSems sig S8)
    (M3 : Memref sig .tc .vmem S8x64 .f32) (h3 : M3.IsWhole)
    (ftab : Bf (F := F) c T) (farr : Bf (F := F) c (Memref.whole main_arg1)) (f3 : Bf (F := F) c M3)
    (hw0 : k0_chk1 (wordAt T c ftab (k0_off1 i) (Facts₀.k0_off1_inb i)))
    (hw1 : k0_chk2 (wordAt T c ftab (k0_off3 i) (Facts₀.k0_off3_inb i)))
    (hw2 : k0_chk3 (wordAt T c ftab (k0_off5 i) (Facts₀.k0_off5_inb i)))
    (hw3 : k0_chk4 (wordAt T c ftab (k0_off7 i) (Facts₀.k0_off7_inb i)))
    (hw4 : k0_chk5 (wordAt T c ftab (k0_off9 i) (Facts₀.k0_off9_inb i)))
    (hw5 : k0_chk6 (wordAt T c ftab (k0_off11 i) (Facts₀.k0_off11_inb i)))
    (hw6 : k0_chk7 (wordAt T c ftab (k0_off13 i) (Facts₀.k0_off13_inb i)))
    (hw7 : k0_chk8 (wordAt T c ftab (k0_off15 i) (Facts₀.k0_off15_inb i)))
    (W : Waits sig Unit) (Q : PUnit → sProp 𝕄) :
    iprop(pt c T ftab ∗ toksOf sc c farr
      ∗ own c (row0 M3) f3 ∗ own c (row1 M3) f3 ∗ own c (row2 M3) f3 ∗ own c (row3 M3) f3 ∗ own c (row4 M3) f3 ∗ own c (row5 M3) f3 ∗ own c (row6 M3) f3 ∗ own c (row7 M3) f3
      ∗ semsOf sc c ∗ owes (c : Thread nD τ) 0 W
      ∗ (iprop(pt c T ftab ∗ toksOf sc c farr
          ∗ own c (row0 M3) (landed c (row0 M3) f3 farr (wordAt T c ftab (k0_off1 i) (Facts₀.k0_off1_inb i)) (hw0.1))
          ∗ own c (row1 M3) (landed c (row1 M3) f3 farr (wordAt T c ftab (k0_off3 i) (Facts₀.k0_off3_inb i)) (hw1.1))
          ∗ own c (row2 M3) (landed c (row2 M3) f3 farr (wordAt T c ftab (k0_off5 i) (Facts₀.k0_off5_inb i)) (hw2.1))
          ∗ own c (row3 M3) (landed c (row3 M3) f3 farr (wordAt T c ftab (k0_off7 i) (Facts₀.k0_off7_inb i)) (hw3.1))
          ∗ own c (row4 M3) (landed c (row4 M3) f3 farr (wordAt T c ftab (k0_off9 i) (Facts₀.k0_off9_inb i)) (hw4.1))
          ∗ own c (row5 M3) (landed c (row5 M3) f3 farr (wordAt T c ftab (k0_off11 i) (Facts₀.k0_off11_inb i)) (hw5.1))
          ∗ own c (row6 M3) (landed c (row6 M3) f3 farr (wordAt T c ftab (k0_off13 i) (Facts₀.k0_off13_inb i)) (hw6.1))
          ∗ own c (row7 M3) (landed c (row7 M3) f3 farr (wordAt T c ftab (k0_off15 i) (Facts₀.k0_off15_inb i)) (hw7))
          ∗ semsOf sc c ∗ ∃ W, owes (c : Thread nD τ) 0 W) -∗ Q ⟨⟩))
    ⊢ wp frame (wpE (defs₀ (F := F)) Variants.none c none) Set.univ
        (cc0__gather_kernel i T hT (Memref.whole main_arg1) (Memref.isWhole_whole _) M3 h3 sc) Q := by
  iintro ⟨Htab, ⟨HC0, HC1, HC2, HC3, HC4, HC5, HC6, HC7⟩, HR0, HR1, HR2, HR3, HR4, HR5, HR6, HR7, ⟨Hd0, Hd1, Hd2, Hd3, Hd4, Hd5, Hd6, Hd7⟩, HO, Hk⟩
  sl_exec
  sl_step
  iapply Hk
  unfold toksOf semsOf
  iframe
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  iexists _; iexact HO

/-- The same from and to the whole block, which ends as `(j, k) ↦ table (id j, k)`. -/
theorem gather_body [∀ e, Nonempty (Elt F e)] (c : Dev nD) (i : grid0.Coords)
    (T : Memref sig .tc .smem S102400 .i32) (hT : T.IsWhole) (sc : DmaSems sig S8) (s : ℕ)
    (hs : (sm0 sc).val = s + 0 ∧ (sm1 sc).val = s + 1 ∧ (sm2 sc).val = s + 2 ∧ (sm3 sc).val = s + 3 ∧ (sm4 sc).val = s + 4 ∧ (sm5 sc).val = s + 5 ∧ (sm6 sc).val = s + 6 ∧ (sm7 sc).val = s + 7)
    (M3 : Memref sig .tc .vmem S8x64 .f32) (h3 : M3.IsWhole)
    (ftab : Bf (F := F) c T) (farr : Bf (F := F) c (Memref.whole main_arg1))
    (hlt : ∀ j, (words T c i ftab j).toNat < 1000000)
    {δ : Type} (bf : δ → S8x64.Idx → Elt F .f32) (R : sProp 𝕄) (B B' : Set (SemLoc sig × Unit)) (hB' : ∀ x, x ∈ B') :
    iprop((pt c T ftab ∗ pt c (Memref.whole main_arg1) farr ∗ semsOf sc c ∗ R)
        ∗ (∃ W : Waits sig Unit, ⌜(W : Set (SemLoc sig × Unit)) ⊆ B⌝ ∗ owes (c : Thread nD τ) 0 W)
        ∗ (∃ d, owns (c : Thread nD τ) M3 fullShare (bf d)))
      ⊢ wp frame (wpE (defs₀ (F := F)) Variants.none c none) Set.univ
          (cc0__gather_kernel i T hT (Memref.whole main_arg1) (Memref.isWhole_whole _) M3 h3 sc)
          (fun _ => iprop((pt c T ftab ∗ pt c (Memref.whole main_arg1) farr ∗ semsOf sc c ∗ R)
            ∗ (∃ W : Waits sig Unit, ⌜(W : Set (SemLoc sig × Unit)) ⊆ B'⌝ ∗ owes (c : Thread nD τ) 0 W)
            ∗ owns (c : Thread nD τ) M3 fullShare (gblock farr (fun j => (words T c i ftab j).toNat) hlt))) := by
  obtain ⟨e0, e1, e2, e3, e4, e5, e6, e7⟩ := hs
  have hsp := toks_split8 (F := F) farr s
  rw [← e0, ← e1, ← e2, ← e3, ← e4, ← e5, ← e6, ← e7] at hsp
  unfold owns
  iintro ⟨⟨Htab, Harr, Hsems, Hrest⟩, ⟨%W, -, HO⟩, ⟨%d, %f, -, H3⟩⟩
  ihave HR := (rows_split c M3 h3 f) $$ H3
  icases HR with ⟨HR0, HR1, HR2, HR3, HR4, HR5, HR6, HR7⟩
  ihave HA := hsp.1 $$ Harr
  icases HA with ⟨Hsp, HC0, HC1, HC2, HC3, HC4, HC5, HC6, HC7⟩
  iapply (kernelRun c i T hT sc M3 h3 ftab farr f
    ⟨row_inb _ (hlt 0), row_inb _ (hlt 0)⟩
    ⟨row_inb _ (hlt 1), row_inb _ (hlt 1)⟩
    ⟨row_inb _ (hlt 2), row_inb _ (hlt 2)⟩
    ⟨row_inb _ (hlt 3), row_inb _ (hlt 3)⟩
    ⟨row_inb _ (hlt 4), row_inb _ (hlt 4)⟩
    ⟨row_inb _ (hlt 5), row_inb _ (hlt 5)⟩
    ⟨row_inb _ (hlt 6), row_inb _ (hlt 6)⟩
    (row_inb _ (hlt 7)) W _)
  unfold toksOf
  iframe Htab HC0 HC1 HC2 HC3 HC4 HC5 HC6 HC7 HR0 HR1 HR2 HR3 HR4 HR5 HR6 HR7 Hsems HO
  iintro ⟨Htab, ⟨HC0, HC1, HC2, HC3, HC4, HC5, HC6, HC7⟩, HR0, HR1, HR2, HR3, HR4, HR5, HR6, HR7, Hsems, ⟨%W', HO⟩⟩
  isplitl [Htab Hsp HC0 HC1 HC2 HC3 HC4 HC5 HC6 HC7 Hsems Hrest]
  · iframe Htab Hsems Hrest
    iapply hsp.2
    iframe
  isplitl [HO]
  · iexists W'; isplitr; · ipureintro; exact fun x _ => hB' x
    iexact HO
  iapply ((rows_join_block c M3 h3 f farr _ hlt (fun j => row_inb _ (hlt j))).trans (Entails.of_eq (by unfold owns; rfl)))
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  iexact HR7

end Cert.KernelIdeal.Hand

end
-- ==== Proof.Dat0KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf0 : pre0.Contents (Elt F) := fun | 0 => chunk 0 (idsOf m 0) | ⟨_ + 1, h⟩ => absurd h (Nat.not_lt.2 (Nat.le_add_left _ _))
def adm0 : (pcfg0 (F := F)).Adm := ⟨pf0 m, trivial⟩

abbrev tab0 (c : Dev nD) : Bf (F := F) c (Memref.whole main_v3) := chunk 0 (idsOf m c)

/-- The table rows grid point `t` gathers. -/
def rows0 (c : Dev nD) (t : Fin grid0.N) : Fin 8 → ℕ := fun j => (words (Memref.whole main_v3) c (grid0.coords t) (tab0 m c) j).toNat

theorem rows0_lt (hR : InRange m) (c : Dev nD) (t : Fin grid0.N) (j : Fin 8) : rows0 m c t j < 1000000 := by
  have h := chunk_lt hR c (0 : Fin 8)
  match j with
  | 0 | 1 | 2 | 3 | 4 | 5 | 6 | 7 => exact h _

def Φ0 (c : Dev nD) : sProp 𝕄 :=
  iprop(pt c (Memref.whole main_v3) (tab0 m c) ∗ pt c (Memref.whole main_arg1) (arrOf m c) ∗ semsOf cc0_scratch0 c
    ∗ Pipeline.scopedRest (Ix := Unit) (Name := ℕ) (U := UU nD τ) (Lvl := ℕ) (Val := Elt F) spec0 c)

def dat0 (hR : InRange m) (c : Dev nD) : Dat τ (Elt F) Unit ℕ (UU nD τ) ℕ (cfg0 (adm0 m)) c where
  A w := m ((c : Thread nD τ).loc (Pipeline.arrRef spec0 w))
  after w t := match w with
    | ⟨0, _⟩ => gblock (arrOf m c) (rows0 m c t) (rows0_lt m hR c t)
  Φ _ := Φ0 m c
  q _ := fullShare
  owed _ := 0

theorem after0 (hR : InRange m) (c : Dev nD) (t : Fin grid0.N) :
    (dat0 m hR c).after 0 t = gblock (arrOf m c) (rows0 m c t) (rows0_lt m hR c t) := by dsimp only [dat0]; rfl

theorem body_obligation0 [∀ e, Nonempty (Elt F e)] (hR : InRange m) (c : Dev nD) :
    BodyObligation (dat0 m hR c) (defs₀ (F := F)) Variants.none () Set.univ := fun t => by
  rw [Gen.bigSep_W0, Gen.bigSep_W0]
  exact gather_body c (grid0.coords t) (Memref.whole main_v3) (Memref.isWhole_whole _) cc0_scratch0 2 ⟨rfl, rfl, rfl, rfl, rfl, rfl, rfl, rfl⟩
    _ (Gen.stage_whole0 0 _) (tab0 m c) (arrOf m c) (rows0_lt m hR c t) _ _ _ _ (fun _ => Or.inl trivial)

end Cert.KernelIdeal.Hand

end
-- ==== Proof.Dat1KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf1 : pre1.Contents (Elt F) := fun | 0 => chunk 1 (idsOf m 0) | ⟨_ + 1, h⟩ => absurd h (Nat.not_lt.2 (Nat.le_add_left _ _))
def adm1 : (pcfg1 (F := F)).Adm := ⟨pf1 m, trivial⟩

abbrev tab1 (c : Dev nD) : Bf (F := F) c (Memref.whole main_v6) := chunk 1 (idsOf m c)

/-- The table rows grid point `t` gathers. -/
def rows1 (c : Dev nD) (t : Fin grid1.N) : Fin 8 → ℕ := fun j => (words (Memref.whole main_v6) c (grid1.coords t) (tab1 m c) j).toNat

theorem rows1_lt (hR : InRange m) (c : Dev nD) (t : Fin grid1.N) (j : Fin 8) : rows1 m c t j < 1000000 := by
  have h := chunk_lt hR c (1 : Fin 8)
  match j with
  | 0 | 1 | 2 | 3 | 4 | 5 | 6 | 7 => exact h _

def Φ1 (c : Dev nD) : sProp 𝕄 :=
  iprop(pt c (Memref.whole main_v6) (tab1 m c) ∗ pt c (Memref.whole main_arg1) (arrOf m c) ∗ semsOf cc1_scratch0 c
    ∗ Pipeline.scopedRest (Ix := Unit) (Name := ℕ) (U := UU nD τ) (Lvl := ℕ) (Val := Elt F) spec1 c)

def dat1 (hR : InRange m) (c : Dev nD) : Dat τ (Elt F) Unit ℕ (UU nD τ) ℕ (cfg1 (adm1 m)) c where
  A w := m ((c : Thread nD τ).loc (Pipeline.arrRef spec1 w))
  after w t := match w with
    | ⟨0, _⟩ => gblock (arrOf m c) (rows1 m c t) (rows1_lt m hR c t)
  Φ _ := Φ1 m c
  q _ := fullShare
  owed _ := 0

theorem after1 (hR : InRange m) (c : Dev nD) (t : Fin grid1.N) :
    (dat1 m hR c).after 0 t = gblock (arrOf m c) (rows1 m c t) (rows1_lt m hR c t) := by dsimp only [dat1]; rfl

theorem body_obligation1 [∀ e, Nonempty (Elt F e)] (hR : InRange m) (c : Dev nD) :
    BodyObligation (dat1 m hR c) (defs₀ (F := F)) Variants.none () Set.univ := fun t => by
  rw [Gen.bigSep_W1, Gen.bigSep_W1]
  exact gather_body c (grid1.coords t) (Memref.whole main_v6) (Memref.isWhole_whole _) cc1_scratch0 12 ⟨rfl, rfl, rfl, rfl, rfl, rfl, rfl, rfl⟩
    _ (Gen.stage_whole1 0 _) (tab1 m c) (arrOf m c) (rows1_lt m hR c t) _ _ _ _ (fun _ => Or.inl trivial)

end Cert.KernelIdeal.Hand

end
-- ==== Proof.Dat2KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf2 : pre2.Contents (Elt F) := fun | 0 => chunk 2 (idsOf m 0) | ⟨_ + 1, h⟩ => absurd h (Nat.not_lt.2 (Nat.le_add_left _ _))
def adm2 : (pcfg2 (F := F)).Adm := ⟨pf2 m, trivial⟩

abbrev tab2 (c : Dev nD) : Bf (F := F) c (Memref.whole main_v9) := chunk 2 (idsOf m c)

/-- The table rows grid point `t` gathers. -/
def rows2 (c : Dev nD) (t : Fin grid2.N) : Fin 8 → ℕ := fun j => (words (Memref.whole main_v9) c (grid2.coords t) (tab2 m c) j).toNat

theorem rows2_lt (hR : InRange m) (c : Dev nD) (t : Fin grid2.N) (j : Fin 8) : rows2 m c t j < 1000000 := by
  have h := chunk_lt hR c (2 : Fin 8)
  match j with
  | 0 | 1 | 2 | 3 | 4 | 5 | 6 | 7 => exact h _

def Φ2 (c : Dev nD) : sProp 𝕄 :=
  iprop(pt c (Memref.whole main_v9) (tab2 m c) ∗ pt c (Memref.whole main_arg1) (arrOf m c) ∗ semsOf cc2_scratch0 c
    ∗ Pipeline.scopedRest (Ix := Unit) (Name := ℕ) (U := UU nD τ) (Lvl := ℕ) (Val := Elt F) spec2 c)

def dat2 (hR : InRange m) (c : Dev nD) : Dat τ (Elt F) Unit ℕ (UU nD τ) ℕ (cfg2 (adm2 m)) c where
  A w := m ((c : Thread nD τ).loc (Pipeline.arrRef spec2 w))
  after w t := match w with
    | ⟨0, _⟩ => gblock (arrOf m c) (rows2 m c t) (rows2_lt m hR c t)
  Φ _ := Φ2 m c
  q _ := fullShare
  owed _ := 0

theorem after2 (hR : InRange m) (c : Dev nD) (t : Fin grid2.N) :
    (dat2 m hR c).after 0 t = gblock (arrOf m c) (rows2 m c t) (rows2_lt m hR c t) := by dsimp only [dat2]; rfl

theorem body_obligation2 [∀ e, Nonempty (Elt F e)] (hR : InRange m) (c : Dev nD) :
    BodyObligation (dat2 m hR c) (defs₀ (F := F)) Variants.none () Set.univ := fun t => by
  rw [Gen.bigSep_W2, Gen.bigSep_W2]
  exact gather_body c (grid2.coords t) (Memref.whole main_v9) (Memref.isWhole_whole _) cc2_scratch0 22 ⟨rfl, rfl, rfl, rfl, rfl, rfl, rfl, rfl⟩
    _ (Gen.stage_whole2 0 _) (tab2 m c) (arrOf m c) (rows2_lt m hR c t) _ _ _ _ (fun _ => Or.inl trivial)

end Cert.KernelIdeal.Hand

end
-- ==== Proof.Dat3KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf3 : pre3.Contents (Elt F) := fun | 0 => chunk 3 (idsOf m 0) | ⟨_ + 1, h⟩ => absurd h (Nat.not_lt.2 (Nat.le_add_left _ _))
def adm3 : (pcfg3 (F := F)).Adm := ⟨pf3 m, trivial⟩

abbrev tab3 (c : Dev nD) : Bf (F := F) c (Memref.whole main_v12) := chunk 3 (idsOf m c)

/-- The table rows grid point `t` gathers. -/
def rows3 (c : Dev nD) (t : Fin grid3.N) : Fin 8 → ℕ := fun j => (words (Memref.whole main_v12) c (grid3.coords t) (tab3 m c) j).toNat

theorem rows3_lt (hR : InRange m) (c : Dev nD) (t : Fin grid3.N) (j : Fin 8) : rows3 m c t j < 1000000 := by
  have h := chunk_lt hR c (3 : Fin 8)
  match j with
  | 0 | 1 | 2 | 3 | 4 | 5 | 6 | 7 => exact h _

def Φ3 (c : Dev nD) : sProp 𝕄 :=
  iprop(pt c (Memref.whole main_v12) (tab3 m c) ∗ pt c (Memref.whole main_arg1) (arrOf m c) ∗ semsOf cc3_scratch0 c
    ∗ Pipeline.scopedRest (Ix := Unit) (Name := ℕ) (U := UU nD τ) (Lvl := ℕ) (Val := Elt F) spec3 c)

def dat3 (hR : InRange m) (c : Dev nD) : Dat τ (Elt F) Unit ℕ (UU nD τ) ℕ (cfg3 (adm3 m)) c where
  A w := m ((c : Thread nD τ).loc (Pipeline.arrRef spec3 w))
  after w t := match w with
    | ⟨0, _⟩ => gblock (arrOf m c) (rows3 m c t) (rows3_lt m hR c t)
  Φ _ := Φ3 m c
  q _ := fullShare
  owed _ := 0

theorem after3 (hR : InRange m) (c : Dev nD) (t : Fin grid3.N) :
    (dat3 m hR c).after 0 t = gblock (arrOf m c) (rows3 m c t) (rows3_lt m hR c t) := by dsimp only [dat3]; rfl

theorem body_obligation3 [∀ e, Nonempty (Elt F e)] (hR : InRange m) (c : Dev nD) :
    BodyObligation (dat3 m hR c) (defs₀ (F := F)) Variants.none () Set.univ := fun t => by
  rw [Gen.bigSep_W3, Gen.bigSep_W3]
  exact gather_body c (grid3.coords t) (Memref.whole main_v12) (Memref.isWhole_whole _) cc3_scratch0 32 ⟨rfl, rfl, rfl, rfl, rfl, rfl, rfl, rfl⟩
    _ (Gen.stage_whole3 0 _) (tab3 m c) (arrOf m c) (rows3_lt m hR c t) _ _ _ _ (fun _ => Or.inl trivial)

end Cert.KernelIdeal.Hand

end
-- ==== Proof.Dat4KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf4 : pre4.Contents (Elt F) := fun | 0 => chunk 4 (idsOf m 0) | ⟨_ + 1, h⟩ => absurd h (Nat.not_lt.2 (Nat.le_add_left _ _))
def adm4 : (pcfg4 (F := F)).Adm := ⟨pf4 m, trivial⟩

abbrev tab4 (c : Dev nD) : Bf (F := F) c (Memref.whole main_v15) := chunk 4 (idsOf m c)

/-- The table rows grid point `t` gathers. -/
def rows4 (c : Dev nD) (t : Fin grid4.N) : Fin 8 → ℕ := fun j => (words (Memref.whole main_v15) c (grid4.coords t) (tab4 m c) j).toNat

theorem rows4_lt (hR : InRange m) (c : Dev nD) (t : Fin grid4.N) (j : Fin 8) : rows4 m c t j < 1000000 := by
  have h := chunk_lt hR c (4 : Fin 8)
  match j with
  | 0 | 1 | 2 | 3 | 4 | 5 | 6 | 7 => exact h _

def Φ4 (c : Dev nD) : sProp 𝕄 :=
  iprop(pt c (Memref.whole main_v15) (tab4 m c) ∗ pt c (Memref.whole main_arg1) (arrOf m c) ∗ semsOf cc4_scratch0 c
    ∗ Pipeline.scopedRest (Ix := Unit) (Name := ℕ) (U := UU nD τ) (Lvl := ℕ) (Val := Elt F) spec4 c)

def dat4 (hR : InRange m) (c : Dev nD) : Dat τ (Elt F) Unit ℕ (UU nD τ) ℕ (cfg4 (adm4 m)) c where
  A w := m ((c : Thread nD τ).loc (Pipeline.arrRef spec4 w))
  after w t := match w with
    | ⟨0, _⟩ => gblock (arrOf m c) (rows4 m c t) (rows4_lt m hR c t)
  Φ _ := Φ4 m c
  q _ := fullShare
  owed _ := 0

theorem after4 (hR : InRange m) (c : Dev nD) (t : Fin grid4.N) :
    (dat4 m hR c).after 0 t = gblock (arrOf m c) (rows4 m c t) (rows4_lt m hR c t) := by dsimp only [dat4]; rfl

theorem body_obligation4 [∀ e, Nonempty (Elt F e)] (hR : InRange m) (c : Dev nD) :
    BodyObligation (dat4 m hR c) (defs₀ (F := F)) Variants.none () Set.univ := fun t => by
  rw [Gen.bigSep_W4, Gen.bigSep_W4]
  exact gather_body c (grid4.coords t) (Memref.whole main_v15) (Memref.isWhole_whole _) cc4_scratch0 42 ⟨rfl, rfl, rfl, rfl, rfl, rfl, rfl, rfl⟩
    _ (Gen.stage_whole4 0 _) (tab4 m c) (arrOf m c) (rows4_lt m hR c t) _ _ _ _ (fun _ => Or.inl trivial)

end Cert.KernelIdeal.Hand

end
-- ==== Proof.Dat5KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf5 : pre5.Contents (Elt F) := fun | 0 => chunk 5 (idsOf m 0) | ⟨_ + 1, h⟩ => absurd h (Nat.not_lt.2 (Nat.le_add_left _ _))
def adm5 : (pcfg5 (F := F)).Adm := ⟨pf5 m, trivial⟩

abbrev tab5 (c : Dev nD) : Bf (F := F) c (Memref.whole main_v18) := chunk 5 (idsOf m c)

/-- The table rows grid point `t` gathers. -/
def rows5 (c : Dev nD) (t : Fin grid5.N) : Fin 8 → ℕ := fun j => (words (Memref.whole main_v18) c (grid5.coords t) (tab5 m c) j).toNat

theorem rows5_lt (hR : InRange m) (c : Dev nD) (t : Fin grid5.N) (j : Fin 8) : rows5 m c t j < 1000000 := by
  have h := chunk_lt hR c (5 : Fin 8)
  match j with
  | 0 | 1 | 2 | 3 | 4 | 5 | 6 | 7 => exact h _

def Φ5 (c : Dev nD) : sProp 𝕄 :=
  iprop(pt c (Memref.whole main_v18) (tab5 m c) ∗ pt c (Memref.whole main_arg1) (arrOf m c) ∗ semsOf cc5_scratch0 c
    ∗ Pipeline.scopedRest (Ix := Unit) (Name := ℕ) (U := UU nD τ) (Lvl := ℕ) (Val := Elt F) spec5 c)

def dat5 (hR : InRange m) (c : Dev nD) : Dat τ (Elt F) Unit ℕ (UU nD τ) ℕ (cfg5 (adm5 m)) c where
  A w := m ((c : Thread nD τ).loc (Pipeline.arrRef spec5 w))
  after w t := match w with
    | ⟨0, _⟩ => gblock (arrOf m c) (rows5 m c t) (rows5_lt m hR c t)
  Φ _ := Φ5 m c
  q _ := fullShare
  owed _ := 0

theorem after5 (hR : InRange m) (c : Dev nD) (t : Fin grid5.N) :
    (dat5 m hR c).after 0 t = gblock (arrOf m c) (rows5 m c t) (rows5_lt m hR c t) := by dsimp only [dat5]; rfl

theorem body_obligation5 [∀ e, Nonempty (Elt F e)] (hR : InRange m) (c : Dev nD) :
    BodyObligation (dat5 m hR c) (defs₀ (F := F)) Variants.none () Set.univ := fun t => by
  rw [Gen.bigSep_W5, Gen.bigSep_W5]
  exact gather_body c (grid5.coords t) (Memref.whole main_v18) (Memref.isWhole_whole _) cc5_scratch0 52 ⟨rfl, rfl, rfl, rfl, rfl, rfl, rfl, rfl⟩
    _ (Gen.stage_whole5 0 _) (tab5 m c) (arrOf m c) (rows5_lt m hR c t) _ _ _ _ (fun _ => Or.inl trivial)

end Cert.KernelIdeal.Hand

end
-- ==== Proof.Dat6KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf6 : pre6.Contents (Elt F) := fun | 0 => chunk 6 (idsOf m 0) | ⟨_ + 1, h⟩ => absurd h (Nat.not_lt.2 (Nat.le_add_left _ _))
def adm6 : (pcfg6 (F := F)).Adm := ⟨pf6 m, trivial⟩

abbrev tab6 (c : Dev nD) : Bf (F := F) c (Memref.whole main_v21) := chunk 6 (idsOf m c)

/-- The table rows grid point `t` gathers. -/
def rows6 (c : Dev nD) (t : Fin grid6.N) : Fin 8 → ℕ := fun j => (words (Memref.whole main_v21) c (grid6.coords t) (tab6 m c) j).toNat

theorem rows6_lt (hR : InRange m) (c : Dev nD) (t : Fin grid6.N) (j : Fin 8) : rows6 m c t j < 1000000 := by
  have h := chunk_lt hR c (6 : Fin 8)
  match j with
  | 0 | 1 | 2 | 3 | 4 | 5 | 6 | 7 => exact h _

def Φ6 (c : Dev nD) : sProp 𝕄 :=
  iprop(pt c (Memref.whole main_v21) (tab6 m c) ∗ pt c (Memref.whole main_arg1) (arrOf m c) ∗ semsOf cc6_scratch0 c
    ∗ Pipeline.scopedRest (Ix := Unit) (Name := ℕ) (U := UU nD τ) (Lvl := ℕ) (Val := Elt F) spec6 c)

def dat6 (hR : InRange m) (c : Dev nD) : Dat τ (Elt F) Unit ℕ (UU nD τ) ℕ (cfg6 (adm6 m)) c where
  A w := m ((c : Thread nD τ).loc (Pipeline.arrRef spec6 w))
  after w t := match w with
    | ⟨0, _⟩ => gblock (arrOf m c) (rows6 m c t) (rows6_lt m hR c t)
  Φ _ := Φ6 m c
  q _ := fullShare
  owed _ := 0

theorem after6 (hR : InRange m) (c : Dev nD) (t : Fin grid6.N) :
    (dat6 m hR c).after 0 t = gblock (arrOf m c) (rows6 m c t) (rows6_lt m hR c t) := by dsimp only [dat6]; rfl

theorem body_obligation6 [∀ e, Nonempty (Elt F e)] (hR : InRange m) (c : Dev nD) :
    BodyObligation (dat6 m hR c) (defs₀ (F := F)) Variants.none () Set.univ := fun t => by
  rw [Gen.bigSep_W6, Gen.bigSep_W6]
  exact gather_body c (grid6.coords t) (Memref.whole main_v21) (Memref.isWhole_whole _) cc6_scratch0 62 ⟨rfl, rfl, rfl, rfl, rfl, rfl, rfl, rfl⟩
    _ (Gen.stage_whole6 0 _) (tab6 m c) (arrOf m c) (rows6_lt m hR c t) _ _ _ _ (fun _ => Or.inl trivial)

end Cert.KernelIdeal.Hand

end
-- ==== Proof.Dat7KernelIdeal.lean ====
import proofs.«431176_j64484638982170_2_alg».proof.Proof.BodyKernelIdeal
import Idealize.ShloMosaic.Lib.Pipeline.Regions

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

def pf7 : pre7.Contents (Elt F) := fun | 0 => chunk 7 (idsOf m 0) | ⟨_ + 1, h⟩ => absurd h (Nat.not_lt.2 (Nat.le_add_left _ _))
def adm7 : (pcfg7 (F := F)).Adm := ⟨pf7 m, trivial⟩

abbrev tab7 (c : Dev nD) : Bf (F := F) c (Memref.whole main_v24) := chunk 7 (idsOf m c)

/-- The table rows grid point `t` gathers. -/
def rows7 (c : Dev nD) (t : Fin grid7.N) : Fin 8 → ℕ := fun j => (words (Memref.whole main_v24) c (grid7.coords t) (tab7 m c) j).toNat

theorem rows7_lt (hR : InRange m) (c : Dev nD) (t : Fin grid7.N) (j : Fin 8) : rows7 m c t j < 1000000 := by
  have h := chunk_lt hR c (7 : Fin 8)
  match j with
  | 0 | 1 | 2 | 3 | 4 | 5 | 6 | 7 => exact h _

def Φ7 (c : Dev nD) : sProp 𝕄 :=
  iprop(pt c (Memref.whole main_v24) (tab7 m c) ∗ pt c (Memref.whole main_arg1) (arrOf m c) ∗ semsOf cc7_scratch0 c
    ∗ Pipeline.scopedRest (Ix := Unit) (Name := ℕ) (U := UU nD τ) (Lvl := ℕ) (Val := Elt F) spec7 c)

def dat7 (hR : InRange m) (c : Dev nD) : Dat τ (Elt F) Unit ℕ (UU nD τ) ℕ (cfg7 (adm7 m)) c where
  A w := m ((c : Thread nD τ).loc (Pipeline.arrRef spec7 w))
  after w t := match w with
    | ⟨0, _⟩ => gblock (arrOf m c) (rows7 m c t) (rows7_lt m hR c t)
  Φ _ := Φ7 m c
  q _ := fullShare
  owed _ := 0

theorem after7 (hR : InRange m) (c : Dev nD) (t : Fin grid7.N) :
    (dat7 m hR c).after 0 t = gblock (arrOf m c) (rows7 m c t) (rows7_lt m hR c t) := by dsimp only [dat7]; rfl

theorem body_obligation7 [∀ e, Nonempty (Elt F e)] (hR : InRange m) (c : Dev nD) :
    BodyObligation (dat7 m hR c) (defs₀ (F := F)) Variants.none () Set.univ := fun t => by
  rw [Gen.bigSep_W7, Gen.bigSep_W7]
  exact gather_body c (grid7.coords t) (Memref.whole main_v24) (Memref.isWhole_whole _) cc7_scratch0 72 ⟨rfl, rfl, rfl, rfl, rfl, rfl, rfl, rfl⟩
    _ (Gen.stage_whole7 0 _) (tab7 m c) (arrOf m c) (rows7_lt m hR c t) _ _ _ _ (fun _ => Or.inl trivial)

end Cert.KernelIdeal.Hand

end
-- ==== Proof.HostIdsKernelIdeal.lean ====
import proofs.«431176_j64484638982170_2_alg».proof.Proof.Gen.KernelIdeal.Regions
import proofs.«431176_j64484638982170_2_alg».proof.Proof.TablesKernelIdeal
import Idealize.ShloMosaic.Lib.Pipeline.Value
import Idealize.ShloMosaic.Lib.StableHlo.Run

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

variable (m : (ℓ : Loc nD τ sig) → Buf (Elt F) ℓ) (outs : Gen.Outs (F := F))

/-- A reshape keeps row-major positions, so row `k` of the 8 × 102400 view holds positions `102400 k …` of the ids. -/
theorem chunk_read (k : ℕ) (hk : k < 8) (ids : IVec S16384x50 32)
    (h1 : S16384x50.ShapeCasts S819200) (h2 : S819200.ShapeCasts S8x102400)
    (hs : S8x102400.Slices ![k, 0] S1x102400) (h3 : S1x102400.ShapeCasts S102400) (x : S102400.Idx) :
    shapeCast S102400 (extractStridedSlice S1x102400 ![k, 0] (shapeCast S8x102400 (shapeCast S819200 ids h1) h2) hs) h3 x
      = chunk ⟨k, hk⟩ ids x := by
  have hx : (x 0).val < 102400 := (x 0).isLt
  refine (shapeCast_apply _ h3 x (ValueIdx.ix2 (⟨0, by decide⟩ : Fin 1) (⟨(x 0).val, hx⟩ : Fin 102400)) ?_).trans ?_
  · rw [Shape.rowMajor_val_two, Shape.rowMajor_val_one]
    show 0 * 102400 + (x 0).val = (x 0).val
    omega
  refine (extractStridedSlice_apply _ _ hs _ (ValueIdx.ix2 (⟨k, hk⟩ : Fin 8) (⟨(x 0).val, hx⟩ : Fin 102400)) ?_).trans ?_
  · intro a
    match a with
    | ⟨0, _⟩ => show k = k + 0; omega
    | ⟨1, _⟩ => show (x 0).val = 0 + (x 0).val; omega
  refine (shapeCast_apply _ h2 _ (ValueIdx.ix1 (⟨102400 * k + (x 0).val, by omega⟩ : Fin 819200)) ?_).trans ?_
  · rw [Shape.rowMajor_val_one, Shape.rowMajor_val_two]
    show 102400 * k + (x 0).val = k * 102400 + (x 0).val
    omega
  refine (shapeCast_apply _ h1 _ (ValueIdx.ix2 (⟨(102400 * k + (x 0).val) / 50, by omega⟩ : Fin 16384)
    (⟨(102400 * k + (x 0).val) % 50, Nat.mod_lt _ (by decide)⟩ : Fin 50)) ?_).trans ?_
  · rw [Shape.rowMajor_val_two, Shape.rowMajor_val_one]
    show (102400 * k + (x 0).val) / 50 * 50 + (102400 * k + (x 0).val) % 50 = 102400 * k + (x 0).val
    omega
  rfl

theorem v1_rows (c : Dev nD) : (Gen.V1 m c main_v1 : IVec S8x102400 32)
    = shapeCast S8x102400 (shapeCast S819200 (idsOf m c) Gen.shapeCasts_S16384x50_S819200) Gen.shapeCasts_S819200_S8x102400 := by
  show StableHlo.after Gen.hostOps0 _ (Proc.devRef .tc main_v1) = _
  after_results
  rfl

theorem rows_at_2 (c : Dev nD) : Gen.V2 m outs c main_v1 = Gen.V1 m c main_v1 :=
  Gen.V2_of m outs c main_v1 (by decide)
theorem rows_at_4 (c : Dev nD) : Gen.V4 m outs c main_v1 = Gen.V1 m c main_v1 :=
  (Gen.V4_of m outs c main_v1 (by decide)).trans <| (Gen.V3_of m outs c main_v1 (by decide)).trans (rows_at_2 m outs c)
theorem rows_at_6 (c : Dev nD) : Gen.V6 m outs c main_v1 = Gen.V1 m c main_v1 :=
  (Gen.V6_of m outs c main_v1 (by decide)).trans <| (Gen.V5_of m outs c main_v1 (by decide)).trans (rows_at_4 m outs c)
theorem rows_at_8 (c : Dev nD) : Gen.V8 m outs c main_v1 = Gen.V1 m c main_v1 :=
  (Gen.V8_of m outs c main_v1 (by decide)).trans <| (Gen.V7_of m outs c main_v1 (by decide)).trans (rows_at_6 m outs c)
theorem rows_at_10 (c : Dev nD) : Gen.V10 m outs c main_v1 = Gen.V1 m c main_v1 :=
  (Gen.V10_of m outs c main_v1 (by decide)).trans <| (Gen.V9_of m outs c main_v1 (by decide)).trans (rows_at_8 m outs c)
theorem rows_at_12 (c : Dev nD) : Gen.V12 m outs c main_v1 = Gen.V1 m c main_v1 :=
  (Gen.V12_of m outs c main_v1 (by decide)).trans <| (Gen.V11_of m outs c main_v1 (by decide)).trans (rows_at_10 m outs c)
theorem rows_at_14 (c : Dev nD) : Gen.V14 m outs c main_v1 = Gen.V1 m c main_v1 :=
  (Gen.V14_of m outs c main_v1 (by decide)).trans <| (Gen.V13_of m outs c main_v1 (by decide)).trans (rows_at_12 m outs c)

theorem tab_at_0 (c : Dev nD) : Gen.V1 m c main_v3 = chunk 0 (idsOf m c) := by
  show StableHlo.after Gen.hostOps0 _ (Proc.devRef .tc main_v3) = _
  after_results
  funext x
  exact chunk_read 0 (by decide) (idsOf m c) _ _ _ _ x

theorem tab_at_1 (c : Dev nD) : Gen.V3 m outs c main_v6 = chunk 1 (idsOf m c) := by
  show StableHlo.after Gen.hostOps1 _ (Proc.devRef .tc main_v6) = _
  after_results
  rw [rows_at_2 m outs c, v1_rows m c]
  funext x
  exact chunk_read 1 (by decide) (idsOf m c) _ _ _ _ x

theorem tab_at_2 (c : Dev nD) : Gen.V5 m outs c main_v9 = chunk 2 (idsOf m c) := by
  show StableHlo.after Gen.hostOps2 _ (Proc.devRef .tc main_v9) = _
  after_results
  rw [rows_at_4 m outs c, v1_rows m c]
  funext x
  exact chunk_read 2 (by decide) (idsOf m c) _ _ _ _ x

theorem tab_at_3 (c : Dev nD) : Gen.V7 m outs c main_v12 = chunk 3 (idsOf m c) := by
  show StableHlo.after Gen.hostOps3 _ (Proc.devRef .tc main_v12) = _
  after_results
  rw [rows_at_6 m outs c, v1_rows m c]
  funext x
  exact chunk_read 3 (by decide) (idsOf m c) _ _ _ _ x

theorem tab_at_4 (c : Dev nD) : Gen.V9 m outs c main_v15 = chunk 4 (idsOf m c) := by
  show StableHlo.after Gen.hostOps4 _ (Proc.devRef .tc main_v15) = _
  after_results
  rw [rows_at_8 m outs c, v1_rows m c]
  funext x
  exact chunk_read 4 (by decide) (idsOf m c) _ _ _ _ x

theorem tab_at_5 (c : Dev nD) : Gen.V11 m outs c main_v18 = chunk 5 (idsOf m c) := by
  show StableHlo.after Gen.hostOps5 _ (Proc.devRef .tc main_v18) = _
  after_results
  rw [rows_at_10 m outs c, v1_rows m c]
  funext x
  exact chunk_read 5 (by decide) (idsOf m c) _ _ _ _ x

theorem tab_at_6 (c : Dev nD) : Gen.V13 m outs c main_v21 = chunk 6 (idsOf m c) := by
  show StableHlo.after Gen.hostOps6 _ (Proc.devRef .tc main_v21) = _
  after_results
  rw [rows_at_12 m outs c, v1_rows m c]
  funext x
  exact chunk_read 6 (by decide) (idsOf m c) _ _ _ _ x

theorem tab_at_7 (c : Dev nD) : Gen.V15 m outs c main_v24 = chunk 7 (idsOf m c) := by
  show StableHlo.after Gen.hostOps7 _ (Proc.devRef .tc main_v24) = _
  after_results
  rw [rows_at_14 m outs c, v1_rows m c]
  funext x
  exact chunk_read 7 (by decide) (idsOf m c) _ _ _ _ x

theorem arr_at_0 (c : Dev nD) : Gen.V1 m c main_arg1 = arrOf m c :=
  (Gen.V1_of m c main_arg1 (by decide)).trans rfl
theorem arr_at_1 (c : Dev nD) : Gen.V3 m outs c main_arg1 = arrOf m c :=
  (Gen.V3_of m outs c main_arg1 (by decide)).trans <| (Gen.V2_of m outs c main_arg1 (by decide)).trans (arr_at_0 m c)
theorem arr_at_2 (c : Dev nD) : Gen.V5 m outs c main_arg1 = arrOf m c :=
  (Gen.V5_of m outs c main_arg1 (by decide)).trans <| (Gen.V4_of m outs c main_arg1 (by decide)).trans (arr_at_1 m outs c)
theorem arr_at_3 (c : Dev nD) : Gen.V7 m outs c main_arg1 = arrOf m c :=
  (Gen.V7_of m outs c main_arg1 (by decide)).trans <| (Gen.V6_of m outs c main_arg1 (by decide)).trans (arr_at_2 m outs c)
theorem arr_at_4 (c : Dev nD) : Gen.V9 m outs c main_arg1 = arrOf m c :=
  (Gen.V9_of m outs c main_arg1 (by decide)).trans <| (Gen.V8_of m outs c main_arg1 (by decide)).trans (arr_at_3 m outs c)
theorem arr_at_5 (c : Dev nD) : Gen.V11 m outs c main_arg1 = arrOf m c :=
  (Gen.V11_of m outs c main_arg1 (by decide)).trans <| (Gen.V10_of m outs c main_arg1 (by decide)).trans (arr_at_4 m outs c)
theorem arr_at_6 (c : Dev nD) : Gen.V13 m outs c main_arg1 = arrOf m c :=
  (Gen.V13_of m outs c main_arg1 (by decide)).trans <| (Gen.V12_of m outs c main_arg1 (by decide)).trans (arr_at_5 m outs c)
theorem arr_at_7 (c : Dev nD) : Gen.V15 m outs c main_arg1 = arrOf m c :=
  (Gen.V15_of m outs c main_arg1 (by decide)).trans <| (Gen.V14_of m outs c main_arg1 (by decide)).trans (arr_at_6 m outs c)

theorem out_at_0 (c : Dev nD) : Gen.V1 m c main_v4 = m ((c : Thread nD τ).loc main_v4) :=
  (Gen.V1_of m c main_v4 (by decide)).trans rfl
theorem out_at_1 (c : Dev nD) : Gen.V3 m outs c main_v7 = m ((c : Thread nD τ).loc main_v7) :=
  (Gen.V3_of m outs c main_v7 (by decide)).trans <| (Gen.V2_of m outs c main_v7 (by decide)).trans <| (Gen.V1_of m c main_v7 (by decide)).trans rfl
theorem out_at_2 (c : Dev nD) : Gen.V5 m outs c main_v10 = m ((c : Thread nD τ).loc main_v10) :=
  (Gen.V5_of m outs c main_v10 (by decide)).trans <| (Gen.V4_of m outs c main_v10 (by decide)).trans <| (Gen.V3_of m outs c main_v10 (by decide)).trans <| (Gen.V2_of m outs c main_v10 (by decide)).trans <| (Gen.V1_of m c main_v10 (by decide)).trans rfl
theorem out_at_3 (c : Dev nD) : Gen.V7 m outs c main_v13 = m ((c : Thread nD τ).loc main_v13) :=
  (Gen.V7_of m outs c main_v13 (by decide)).trans <| (Gen.V6_of m outs c main_v13 (by decide)).trans <| (Gen.V5_of m outs c main_v13 (by decide)).trans <| (Gen.V4_of m outs c main_v13 (by decide)).trans <| (Gen.V3_of m outs c main_v13 (by decide)).trans <| (Gen.V2_of m outs c main_v13 (by decide)).trans <| (Gen.V1_of m c main_v13 (by decide)).trans rfl
theorem out_at_4 (c : Dev nD) : Gen.V9 m outs c main_v16 = m ((c : Thread nD τ).loc main_v16) :=
  (Gen.V9_of m outs c main_v16 (by decide)).trans <| (Gen.V8_of m outs c main_v16 (by decide)).trans <| (Gen.V7_of m outs c main_v16 (by decide)).trans <| (Gen.V6_of m outs c main_v16 (by decide)).trans <| (Gen.V5_of m outs c main_v16 (by decide)).trans <| (Gen.V4_of m outs c main_v16 (by decide)).trans <| (Gen.V3_of m outs c main_v16 (by decide)).trans <| (Gen.V2_of m outs c main_v16 (by decide)).trans <| (Gen.V1_of m c main_v16 (by decide)).trans rfl
theorem out_at_5 (c : Dev nD) : Gen.V11 m outs c main_v19 = m ((c : Thread nD τ).loc main_v19) :=
  (Gen.V11_of m outs c main_v19 (by decide)).trans <| (Gen.V10_of m outs c main_v19 (by decide)).trans <| (Gen.V9_of m outs c main_v19 (by decide)).trans <| (Gen.V8_of m outs c main_v19 (by decide)).trans <| (Gen.V7_of m outs c main_v19 (by decide)).trans <| (Gen.V6_of m outs c main_v19 (by decide)).trans <| (Gen.V5_of m outs c main_v19 (by decide)).trans <| (Gen.V4_of m outs c main_v19 (by decide)).trans <| (Gen.V3_of m outs c main_v19 (by decide)).trans <| (Gen.V2_of m outs c main_v19 (by decide)).trans <| (Gen.V1_of m c main_v19 (by decide)).trans rfl
theorem out_at_6 (c : Dev nD) : Gen.V13 m outs c main_v22 = m ((c : Thread nD τ).loc main_v22) :=
  (Gen.V13_of m outs c main_v22 (by decide)).trans <| (Gen.V12_of m outs c main_v22 (by decide)).trans <| (Gen.V11_of m outs c main_v22 (by decide)).trans <| (Gen.V10_of m outs c main_v22 (by decide)).trans <| (Gen.V9_of m outs c main_v22 (by decide)).trans <| (Gen.V8_of m outs c main_v22 (by decide)).trans <| (Gen.V7_of m outs c main_v22 (by decide)).trans <| (Gen.V6_of m outs c main_v22 (by decide)).trans <| (Gen.V5_of m outs c main_v22 (by decide)).trans <| (Gen.V4_of m outs c main_v22 (by decide)).trans <| (Gen.V3_of m outs c main_v22 (by decide)).trans <| (Gen.V2_of m outs c main_v22 (by decide)).trans <| (Gen.V1_of m c main_v22 (by decide)).trans rfl
theorem out_at_7 (c : Dev nD) : Gen.V15 m outs c main_v25 = m ((c : Thread nD τ).loc main_v25) :=
  (Gen.V15_of m outs c main_v25 (by decide)).trans <| (Gen.V14_of m outs c main_v25 (by decide)).trans <| (Gen.V13_of m outs c main_v25 (by decide)).trans <| (Gen.V12_of m outs c main_v25 (by decide)).trans <| (Gen.V11_of m outs c main_v25 (by decide)).trans <| (Gen.V10_of m outs c main_v25 (by decide)).trans <| (Gen.V9_of m outs c main_v25 (by decide)).trans <| (Gen.V8_of m outs c main_v25 (by decide)).trans <| (Gen.V7_of m outs c main_v25 (by decide)).trans <| (Gen.V6_of m outs c main_v25 (by decide)).trans <| (Gen.V5_of m outs c main_v25 (by decide)).trans <| (Gen.V4_of m outs c main_v25 (by decide)).trans <| (Gen.V3_of m outs c main_v25 (by decide)).trans <| (Gen.V2_of m outs c main_v25 (by decide)).trans <| (Gen.V1_of m c main_v25 (by decide)).trans rfl

end Cert.KernelIdeal.Hand

end
-- ==== Proof.FamilyKernelIdeal.lean ====
import proofs.«431176_j64484638982170_2_alg».proof.Proof.Dat0KernelIdeal
import proofs.«431176_j64484638982170_2_alg».proof.Proof.Dat1KernelIdeal
import proofs.«431176_j64484638982170_2_alg».proof.Proof.Dat2KernelIdeal
import proofs.«431176_j64484638982170_2_alg».proof.Proof.Dat3KernelIdeal
import proofs.«431176_j64484638982170_2_alg».proof.Proof.Dat4KernelIdeal
import proofs.«431176_j64484638982170_2_alg».proof.Proof.Dat5KernelIdeal
import proofs.«431176_j64484638982170_2_alg».proof.Proof.Dat6KernelIdeal
import proofs.«431176_j64484638982170_2_alg».proof.Proof.Dat7KernelIdeal
import proofs.«431176_j64484638982170_2_alg».proof.Proof.HostIdsKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ)

def adms : (p : Fin 8) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨_ + 8, h⟩ => absurd h (Nat.not_lt.2 (Nat.le_add_left _ _))

def pdats (hR : InRange m) : (p : Fin 8) → (c : Dev nD) → Dat τ (Elt F) Unit ℕ (UU nD τ) ℕ (Pipeline.pin (pcfgs (F := F)) (adms m) p) c
  | ⟨0, _⟩ => dat0 m hR
  | ⟨1, _⟩ => dat1 m hR
  | ⟨2, _⟩ => dat2 m hR
  | ⟨3, _⟩ => dat3 m hR
  | ⟨4, _⟩ => dat4 m hR
  | ⟨5, _⟩ => dat5 m hR
  | ⟨6, _⟩ => dat6 m hR
  | ⟨7, _⟩ => dat7 m hR
  | ⟨_ + 8, h⟩ => absurd h (Nat.not_lt.2 (Nat.le_add_left _ _))

abbrev L : GSem nD τ sig → Finset Unit := fun _ => ∅
abbrev lv : GSem nD τ sig → Unit → ℕ := fun _ _ => 0

abbrev E (_ : Fin 9) (c : Dev nD) : sProp 𝕄 := iprop(∃ W, owes (c : Thread nD τ) (0 : CellTallies nD τ sig Unit) W)

def outs (hR : InRange m) : Gen.Outs (F := F) := fun _ r c =>
  if h0 : r = main_v4 then (by subst h0; exact (dat0 m hR c).arrAt 0 grid0.N) else
  if h1 : r = main_v7 then (by subst h1; exact (dat1 m hR c).arrAt 0 grid1.N) else
  if h2 : r = main_v10 then (by subst h2; exact (dat2 m hR c).arrAt 0 grid2.N) else
  if h3 : r = main_v13 then (by subst h3; exact (dat3 m hR c).arrAt 0 grid3.N) else
  if h4 : r = main_v16 then (by subst h4; exact (dat4 m hR c).arrAt 0 grid4.N) else
  if h5 : r = main_v19 then (by subst h5; exact (dat5 m hR c).arrAt 0 grid5.N) else
  if h6 : r = main_v22 then (by subst h6; exact (dat6 m hR c).arrAt 0 grid6.N) else
  if h7 : r = main_v25 then (by subst h7; exact (dat7 m hR c).arrAt 0 grid7.N) else
  m ((c : Thread nD τ).loc r)

theorem outs_at0 (hR : InRange m) (c : Dev nD) : outs m hR 2 main_v4 c = (dat0 m hR c).arrAt 0 grid0.N := by
  unfold outs
  rw [dif_pos rfl]
theorem outs_at1 (hR : InRange m) (c : Dev nD) : outs m hR 4 main_v7 c = (dat1 m hR c).arrAt 0 grid1.N := by
  unfold outs
  rw [dif_neg (by decide : ¬ main_v7 = main_v4), dif_pos rfl]
theorem outs_at2 (hR : InRange m) (c : Dev nD) : outs m hR 6 main_v10 c = (dat2 m hR c).arrAt 0 grid2.N := by
  unfold outs
  rw [dif_neg (by decide : ¬ main_v10 = main_v4), dif_neg (by decide : ¬ main_v10 = main_v7), dif_pos rfl]
theorem outs_at3 (hR : InRange m) (c : Dev nD) : outs m hR 8 main_v13 c = (dat3 m hR c).arrAt 0 grid3.N := by
  unfold outs
  rw [dif_neg (by decide : ¬ main_v13 = main_v4), dif_neg (by decide : ¬ main_v13 = main_v7), dif_neg (by decide : ¬ main_v13 = main_v10), dif_pos rfl]
theorem outs_at4 (hR : InRange m) (c : Dev nD) : outs m hR 10 main_v16 c = (dat4 m hR c).arrAt 0 grid4.N := by
  unfold outs
  rw [dif_neg (by decide : ¬ main_v16 = main_v4), dif_neg (by decide : ¬ main_v16 = main_v7), dif_neg (by decide : ¬ main_v16 = main_v10), dif_neg (by decide : ¬ main_v16 = main_v13), dif_pos rfl]
theorem outs_at5 (hR : InRange m) (c : Dev nD) : outs m hR 12 main_v19 c = (dat5 m hR c).arrAt 0 grid5.N := by
  unfold outs
  rw [dif_neg (by decide : ¬ main_v19 = main_v4), dif_neg (by decide : ¬ main_v19 = main_v7), dif_neg (by decide : ¬ main_v19 = main_v10), dif_neg (by decide : ¬ main_v19 = main_v13), dif_neg (by decide : ¬ main_v19 = main_v16), dif_pos rfl]
theorem outs_at6 (hR : InRange m) (c : Dev nD) : outs m hR 14 main_v22 c = (dat6 m hR c).arrAt 0 grid6.N := by
  unfold outs
  rw [dif_neg (by decide : ¬ main_v22 = main_v4), dif_neg (by decide : ¬ main_v22 = main_v7), dif_neg (by decide : ¬ main_v22 = main_v10), dif_neg (by decide : ¬ main_v22 = main_v13), dif_neg (by decide : ¬ main_v22 = main_v16), dif_neg (by decide : ¬ main_v22 = main_v19), dif_pos rfl]
theorem outs_at7 (hR : InRange m) (c : Dev nD) : outs m hR 16 main_v25 c = (dat7 m hR c).arrAt 0 grid7.N := by
  unfold outs
  rw [dif_neg (by decide : ¬ main_v25 = main_v4), dif_neg (by decide : ¬ main_v25 = main_v7), dif_neg (by decide : ¬ main_v25 = main_v10), dif_neg (by decide : ¬ main_v25 = main_v13), dif_neg (by decide : ¬ main_v25 = main_v16), dif_neg (by decide : ¬ main_v25 = main_v19), dif_neg (by decide : ¬ main_v25 = main_v22), dif_pos rfl]

theorem held3 (a b d : Ref sig .tc) (hab : (Proc.devRef .tc a : DevRef τ sig) ∉ ({Proc.devRef .tc b, Proc.devRef .tc d} : Finset (DevRef τ sig)))
    (hbd : (Proc.devRef .tc b : DevRef τ sig) ∉ ({Proc.devRef .tc d} : Finset (DevRef τ sig))) (c : Dev nD) (V : Valuation τ sig (Elt F)) :
    (StableHlo.held (c : Thread nD τ) {Proc.devRef .tc a, Proc.devRef .tc b, Proc.devRef .tc d} V : sProp 𝕄)
      = iprop((((c : Thread nD τ).loc a) ↦{fullShare} V a) ∗ (((c : Thread nD τ).loc b) ↦{fullShare} V b) ∗ (((c : Thread nD τ).loc d) ↦{fullShare} V d)) := by
  unfold StableHlo.held
  rw [BI.bigSep_insert hab, BI.bigSep_insert hbd, BI.bigSep_singleton]
  rfl

theorem held_update (c : Dev nD) (S T : Finset (DevRef τ sig)) (V : Valuation τ sig (Elt F)) (r : Ref sig .tc) (x : Buf (Elt F) ((c : Thread nD τ).loc r))
    (hr : (Proc.devRef .tc r : DevRef τ sig) ∈ T) :
    (StableHlo.held (c : Thread nD τ) (S \ T) (Function.update V r x) : sProp 𝕄) = StableHlo.held (c : Thread nD τ) (S \ T) V :=
  StableHlo.held_congr _ fun b hb => by
    have hne : b ≠ Proc.devRef .tc r := fun h => (Finset.mem_sdiff.mp hb).2 (h ▸ hr)
    simp only [Function.update_of_ne hne]

/-- Three buffers split off the rest; what is owed stays within any bound that holds of everything. -/
theorem entry_shuffle (c : Dev nD) (Pout Ptab Parr Z Sm : sProp 𝕄) (B : Set (SemLoc sig × Unit)) (hB : ∀ x, x ∈ B) :
    iprop(((((Pout ∗ Ptab ∗ Parr) ∗ Z) ∗ E 0 c) ∗ Sm ∗ levAts L lv)
      ⊢ |={Set.univ}=> iprop(Pout ∗ Ptab ∗ (∃ W : Waits sig Unit, ⌜(W : Set (SemLoc sig × Unit)) ⊆ B⌝ ∗ owes (c : Thread nD τ) 0 W) ∗ (Parr ∗ Sm) ∗ Z)) := by
  iintro ⟨⟨⟨⟨Hout, Htab, Harr⟩, Hz⟩, ⟨%W, HO⟩⟩, Hos, -⟩
  imodintro
  iframe Hout Htab Harr Hos Hz
  iexists W; isplitr; · ipureintro; exact fun x _ => hB x
  iexact HO

/-- The converse. -/
theorem exit_shuffle (c : Dev nD) (Pout Ptab Parr Z : sProp 𝕄) (B : Set (SemLoc sig × Unit)) :
    iprop(Pout ∗ (∃ W : Waits sig Unit, ⌜(W : Set (SemLoc sig × Unit)) ⊆ B⌝ ∗ owes (c : Thread nD τ) 0 W) ∗ (Ptab ∗ Parr) ∗ Z)
      ⊢ |={Set.univ}=> iprop(((Pout ∗ Ptab ∗ Parr) ∗ Z) ∗ E 0 c) := by
  iintro ⟨Hout, ⟨%W, -, HO⟩, ⟨Htab, Harr⟩, Hz⟩
  imodintro
  iframe Hout Htab Harr Hz
  iexists W; iexact HO

end Cert.KernelIdeal.Hand

end
-- ==== Proof.Region0KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p0 : Fin 8 := 0
abbrev eIn0 : Fin 9 := 0
abbrev eOut0 : Fin 9 := 1

abbrev osem0 : Fin 8 → SemLoc sig := fun j => .dma (cc0_scratch0.ix (ValueIdx.ix1 j))
theorem ownSemFacts0 : Pipeline.OwnSemFacts spec0 osem0 := by decide
theorem semsOwn0_eq (c : Dev nD) :
    (Pipeline.ownSems0 (Ix := Unit) (Name := ℕ) (U := UU nD τ) (Lvl := ℕ) (Val := Elt F) (τ := τ) osem0 c : sProp 𝕄) = semsOf cc0_scratch0 c :=
  Pipeline.ownSems0_eq_of_list c osem0 [0, 1, 2, 3, 4, 5, 6, 7] (by decide) (by decide)

abbrev T0 : Finset (DevRef τ sig) := {Proc.devRef .tc main_v4, Proc.devRef .tc main_v3, Proc.devRef .tc main_arg1}
theorem hT0 : T0 ⊆ Pipeline.ucRefs τ sig := by decide
theorem arrays0 (c : Dev nD) (f : (w : Fin (cfg0 (adm0 m)).W) → Buf (Elt F) (((cfg0 (adm0 m)).win w).arr.view.loc (c : Thread nD τ))) :
    ((dat0 m hR c).arrays f : sProp 𝕄) = (((c : Thread nD τ).loc main_v4) ↦{fullShare} f 0) := by
  unfold Dat.arrays
  rw [Gen.bigSep_W0, (Gen.arr_whole0 0).set_eq_univ]
  rfl

theorem after_out0 (c : Dev nD) : Gen.V2 m (outs m hR) c main_v4 = (dat0 m hR c).arrAt 0 grid0.N :=
  (Function.update_self _ _ _).trans (outs_at0 m hR c)

set_option backward.isDefEq.respectTransparency.types false in
def reg0 [∀ e, Nonempty (Elt F e)] : Pipeline.RegionSeg (pcfgs (F := F)) (adms m) (pdats m hR) () (defs₀ (F := F)) Variants.none L lv p0 where
  win := (Gen.launch0 (F := F)).win.to₀
  block_pos := (Gen.launch0 (F := F)).block_pos
  stage_whole := (Gen.launch0 (F := F)).stage_whole
  K := Fin 8
  osem := osem0
  ho := ownSemFacts0
  hbody c := (body_obligation0 m hR c).loose
  hwaits := Pipeline.hwaits_of_owed_zero _ _ _ _ L lv p0 fun _ _ => rfl
  pre c := iprop(StableHlo.held (c : Thread nD τ) (Pipeline.ucRefs τ sig) (Gen.V1 m c) ∗ E eIn0 c)
  post c := iprop(StableHlo.held (c : Thread nD τ) (Pipeline.ucRefs τ sig) (Gen.V2 m (outs m hR) c) ∗ E eOut0 c)
  X c := iprop(pt c (Memref.whole main_arg1) (arrOf m c) ∗ semsOf cc0_scratch0 c)
  Y c := iprop(pt c (Memref.whole main_v3) (tab0 m c) ∗ pt c (Memref.whole main_arg1) (arrOf m c))
  Z c := StableHlo.held (c : Thread nD τ) (Pipeline.ucRefs τ sig \ T0) (Gen.V1 m c)
  hentry c := by
    obtain rfl : c = (0 : Dev nD) := Subsingleton.elim _ _
    rw [StableHlo.held_sub_split (0 : Dev nD).tc hT0 (Gen.V1 m 0), held3 main_v4 main_v3 main_arg1 (by decide) (by decide), semsOwn0_eq, tab_at_0, arr_at_0,
      out_at_0, show (pdats m hR p0 0) = dat0 m hR 0 from rfl, arrays0]
    unfold Pipeline.prefHeld
    rw [Gen.bigSep_W0]
    exact entry_shuffle 0 _ _ _ _ _ _ (fun _ => Or.inl trivial)
  hin c := by
    obtain rfl : c = (0 : Dev nD) := Subsingleton.elim _ _
    rw [show (pdats m hR p0 0).Φ 0 = Φ0 m 0 from rfl]; unfold Φ0 Pipeline.prefHeld
    rw [Gen.bigSep_W0]
    iintro ⟨⟨Harr, Hos⟩, Htab, Hr⟩
    isplitl [Htab]; · iexact Htab
    iframe
  hout c := by
    rw [semsOwn0_eq, show (pdats m hR p0 c).Φ (Fin.last _) = Φ0 m c from rfl]; unfold Φ0
    iintro ⟨Htab, Harr, Hos, Hr⟩
    iframe
  hexit c := by
    rw [StableHlo.held_sub_split (c : Thread nD τ) hT0 (Gen.V2 m (outs m hR) c), held3 main_v4 main_v3 main_arg1 (by decide) (by decide), after_out0,
      held_update c _ T0 _ main_v4 _ (by decide), Gen.V2_of m (outs m hR) c main_v3 (by decide), tab_at_0,
      Gen.V2_of m (outs m hR) c main_arg1 (by decide), arr_at_0, show (pdats m hR p0 c) = dat0 m hR c from rfl, arrays0]
    exact exit_shuffle c _ _ _ _ _

end Cert.KernelIdeal.Hand

end
-- ==== Proof.Region1KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p1 : Fin 8 := 1
abbrev eIn1 : Fin 9 := 1
abbrev eOut1 : Fin 9 := 2

abbrev osem1 : Fin 8 → SemLoc sig := fun j => .dma (cc1_scratch0.ix (ValueIdx.ix1 j))
theorem ownSemFacts1 : Pipeline.OwnSemFacts spec1 osem1 := by decide
theorem semsOwn1_eq (c : Dev nD) :
    (Pipeline.ownSems0 (Ix := Unit) (Name := ℕ) (U := UU nD τ) (Lvl := ℕ) (Val := Elt F) (τ := τ) osem1 c : sProp 𝕄) = semsOf cc1_scratch0 c :=
  Pipeline.ownSems0_eq_of_list c osem1 [0, 1, 2, 3, 4, 5, 6, 7] (by decide) (by decide)

abbrev T1 : Finset (DevRef τ sig) := {Proc.devRef .tc main_v7, Proc.devRef .tc main_v6, Proc.devRef .tc main_arg1}
theorem hT1 : T1 ⊆ Pipeline.ucRefs τ sig := by decide
theorem arrays1 (c : Dev nD) (f : (w : Fin (cfg1 (adm1 m)).W) → Buf (Elt F) (((cfg1 (adm1 m)).win w).arr.view.loc (c : Thread nD τ))) :
    ((dat1 m hR c).arrays f : sProp 𝕄) = (((c : Thread nD τ).loc main_v7) ↦{fullShare} f 0) := by
  unfold Dat.arrays
  rw [Gen.bigSep_W1, (Gen.arr_whole1 0).set_eq_univ]
  rfl

theorem after_out1 (c : Dev nD) : Gen.V4 m (outs m hR) c main_v7 = (dat1 m hR c).arrAt 0 grid1.N :=
  (Function.update_self _ _ _).trans (outs_at1 m hR c)

set_option backward.isDefEq.respectTransparency.types false in
def reg1 [∀ e, Nonempty (Elt F e)] : Pipeline.RegionSeg (pcfgs (F := F)) (adms m) (pdats m hR) () (defs₀ (F := F)) Variants.none L lv p1 where
  win := (Gen.launch1 (F := F)).win.to₀
  block_pos := (Gen.launch1 (F := F)).block_pos
  stage_whole := (Gen.launch1 (F := F)).stage_whole
  K := Fin 8
  osem := osem1
  ho := ownSemFacts1
  hbody c := (body_obligation1 m hR c).loose
  hwaits := Pipeline.hwaits_of_owed_zero _ _ _ _ L lv p1 fun _ _ => rfl
  pre c := iprop(StableHlo.held (c : Thread nD τ) (Pipeline.ucRefs τ sig) (Gen.V3 m (outs m hR) c) ∗ E eIn1 c)
  post c := iprop(StableHlo.held (c : Thread nD τ) (Pipeline.ucRefs τ sig) (Gen.V4 m (outs m hR) c) ∗ E eOut1 c)
  X c := iprop(pt c (Memref.whole main_arg1) (arrOf m c) ∗ semsOf cc1_scratch0 c)
  Y c := iprop(pt c (Memref.whole main_v6) (tab1 m c) ∗ pt c (Memref.whole main_arg1) (arrOf m c))
  Z c := StableHlo.held (c : Thread nD τ) (Pipeline.ucRefs τ sig \ T1) (Gen.V3 m (outs m hR) c)
  hentry c := by
    obtain rfl : c = (0 : Dev nD) := Subsingleton.elim _ _
    rw [StableHlo.held_sub_split (0 : Dev nD).tc hT1 (Gen.V3 m (outs m hR) 0), held3 main_v7 main_v6 main_arg1 (by decide) (by decide), semsOwn1_eq, tab_at_1, arr_at_1,
      out_at_1, show (pdats m hR p1 0) = dat1 m hR 0 from rfl, arrays1]
    unfold Pipeline.prefHeld
    rw [Gen.bigSep_W1]
    exact entry_shuffle 0 _ _ _ _ _ _ (fun _ => Or.inl trivial)
  hin c := by
    obtain rfl : c = (0 : Dev nD) := Subsingleton.elim _ _
    rw [show (pdats m hR p1 0).Φ 0 = Φ1 m 0 from rfl]; unfold Φ1 Pipeline.prefHeld
    rw [Gen.bigSep_W1]
    iintro ⟨⟨Harr, Hos⟩, Htab, Hr⟩
    isplitl [Htab]; · iexact Htab
    iframe
  hout c := by
    rw [semsOwn1_eq, show (pdats m hR p1 c).Φ (Fin.last _) = Φ1 m c from rfl]; unfold Φ1
    iintro ⟨Htab, Harr, Hos, Hr⟩
    iframe
  hexit c := by
    rw [StableHlo.held_sub_split (c : Thread nD τ) hT1 (Gen.V4 m (outs m hR) c), held3 main_v7 main_v6 main_arg1 (by decide) (by decide), after_out1,
      held_update c _ T1 _ main_v7 _ (by decide), Gen.V4_of m (outs m hR) c main_v6 (by decide), tab_at_1,
      Gen.V4_of m (outs m hR) c main_arg1 (by decide), arr_at_1, show (pdats m hR p1 c) = dat1 m hR c from rfl, arrays1]
    exact exit_shuffle c _ _ _ _ _

end Cert.KernelIdeal.Hand

end
-- ==== Proof.Region2KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p2 : Fin 8 := 2
abbrev eIn2 : Fin 9 := 2
abbrev eOut2 : Fin 9 := 3

abbrev osem2 : Fin 8 → SemLoc sig := fun j => .dma (cc2_scratch0.ix (ValueIdx.ix1 j))
theorem ownSemFacts2 : Pipeline.OwnSemFacts spec2 osem2 := by decide
theorem semsOwn2_eq (c : Dev nD) :
    (Pipeline.ownSems0 (Ix := Unit) (Name := ℕ) (U := UU nD τ) (Lvl := ℕ) (Val := Elt F) (τ := τ) osem2 c : sProp 𝕄) = semsOf cc2_scratch0 c :=
  Pipeline.ownSems0_eq_of_list c osem2 [0, 1, 2, 3, 4, 5, 6, 7] (by decide) (by decide)

abbrev T2 : Finset (DevRef τ sig) := {Proc.devRef .tc main_v10, Proc.devRef .tc main_v9, Proc.devRef .tc main_arg1}
theorem hT2 : T2 ⊆ Pipeline.ucRefs τ sig := by decide
theorem arrays2 (c : Dev nD) (f : (w : Fin (cfg2 (adm2 m)).W) → Buf (Elt F) (((cfg2 (adm2 m)).win w).arr.view.loc (c : Thread nD τ))) :
    ((dat2 m hR c).arrays f : sProp 𝕄) = (((c : Thread nD τ).loc main_v10) ↦{fullShare} f 0) := by
  unfold Dat.arrays
  rw [Gen.bigSep_W2, (Gen.arr_whole2 0).set_eq_univ]
  rfl

theorem after_out2 (c : Dev nD) : Gen.V6 m (outs m hR) c main_v10 = (dat2 m hR c).arrAt 0 grid2.N :=
  (Function.update_self _ _ _).trans (outs_at2 m hR c)

set_option backward.isDefEq.respectTransparency.types false in
def reg2 [∀ e, Nonempty (Elt F e)] : Pipeline.RegionSeg (pcfgs (F := F)) (adms m) (pdats m hR) () (defs₀ (F := F)) Variants.none L lv p2 where
  win := (Gen.launch2 (F := F)).win.to₀
  block_pos := (Gen.launch2 (F := F)).block_pos
  stage_whole := (Gen.launch2 (F := F)).stage_whole
  K := Fin 8
  osem := osem2
  ho := ownSemFacts2
  hbody c := (body_obligation2 m hR c).loose
  hwaits := Pipeline.hwaits_of_owed_zero _ _ _ _ L lv p2 fun _ _ => rfl
  pre c := iprop(StableHlo.held (c : Thread nD τ) (Pipeline.ucRefs τ sig) (Gen.V5 m (outs m hR) c) ∗ E eIn2 c)
  post c := iprop(StableHlo.held (c : Thread nD τ) (Pipeline.ucRefs τ sig) (Gen.V6 m (outs m hR) c) ∗ E eOut2 c)
  X c := iprop(pt c (Memref.whole main_arg1) (arrOf m c) ∗ semsOf cc2_scratch0 c)
  Y c := iprop(pt c (Memref.whole main_v9) (tab2 m c) ∗ pt c (Memref.whole main_arg1) (arrOf m c))
  Z c := StableHlo.held (c : Thread nD τ) (Pipeline.ucRefs τ sig \ T2) (Gen.V5 m (outs m hR) c)
  hentry c := by
    obtain rfl : c = (0 : Dev nD) := Subsingleton.elim _ _
    rw [StableHlo.held_sub_split (0 : Dev nD).tc hT2 (Gen.V5 m (outs m hR) 0), held3 main_v10 main_v9 main_arg1 (by decide) (by decide), semsOwn2_eq, tab_at_2, arr_at_2,
      out_at_2, show (pdats m hR p2 0) = dat2 m hR 0 from rfl, arrays2]
    unfold Pipeline.prefHeld
    rw [Gen.bigSep_W2]
    exact entry_shuffle 0 _ _ _ _ _ _ (fun _ => Or.inl trivial)
  hin c := by
    obtain rfl : c = (0 : Dev nD) := Subsingleton.elim _ _
    rw [show (pdats m hR p2 0).Φ 0 = Φ2 m 0 from rfl]; unfold Φ2 Pipeline.prefHeld
    rw [Gen.bigSep_W2]
    iintro ⟨⟨Harr, Hos⟩, Htab, Hr⟩
    isplitl [Htab]; · iexact Htab
    iframe
  hout c := by
    rw [semsOwn2_eq, show (pdats m hR p2 c).Φ (Fin.last _) = Φ2 m c from rfl]; unfold Φ2
    iintro ⟨Htab, Harr, Hos, Hr⟩
    iframe
  hexit c := by
    rw [StableHlo.held_sub_split (c : Thread nD τ) hT2 (Gen.V6 m (outs m hR) c), held3 main_v10 main_v9 main_arg1 (by decide) (by decide), after_out2,
      held_update c _ T2 _ main_v10 _ (by decide), Gen.V6_of m (outs m hR) c main_v9 (by decide), tab_at_2,
      Gen.V6_of m (outs m hR) c main_arg1 (by decide), arr_at_2, show (pdats m hR p2 c) = dat2 m hR c from rfl, arrays2]
    exact exit_shuffle c _ _ _ _ _

end Cert.KernelIdeal.Hand

end
-- ==== Proof.Region3KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p3 : Fin 8 := 3
abbrev eIn3 : Fin 9 := 3
abbrev eOut3 : Fin 9 := 4

abbrev osem3 : Fin 8 → SemLoc sig := fun j => .dma (cc3_scratch0.ix (ValueIdx.ix1 j))
theorem ownSemFacts3 : Pipeline.OwnSemFacts spec3 osem3 := by decide
theorem semsOwn3_eq (c : Dev nD) :
    (Pipeline.ownSems0 (Ix := Unit) (Name := ℕ) (U := UU nD τ) (Lvl := ℕ) (Val := Elt F) (τ := τ) osem3 c : sProp 𝕄) = semsOf cc3_scratch0 c :=
  Pipeline.ownSems0_eq_of_list c osem3 [0, 1, 2, 3, 4, 5, 6, 7] (by decide) (by decide)

abbrev T3 : Finset (DevRef τ sig) := {Proc.devRef .tc main_v13, Proc.devRef .tc main_v12, Proc.devRef .tc main_arg1}
theorem hT3 : T3 ⊆ Pipeline.ucRefs τ sig := by decide
theorem arrays3 (c : Dev nD) (f : (w : Fin (cfg3 (adm3 m)).W) → Buf (Elt F) (((cfg3 (adm3 m)).win w).arr.view.loc (c : Thread nD τ))) :
    ((dat3 m hR c).arrays f : sProp 𝕄) = (((c : Thread nD τ).loc main_v13) ↦{fullShare} f 0) := by
  unfold Dat.arrays
  rw [Gen.bigSep_W3, (Gen.arr_whole3 0).set_eq_univ]
  rfl

theorem after_out3 (c : Dev nD) : Gen.V8 m (outs m hR) c main_v13 = (dat3 m hR c).arrAt 0 grid3.N :=
  (Function.update_self _ _ _).trans (outs_at3 m hR c)

set_option backward.isDefEq.respectTransparency.types false in
def reg3 [∀ e, Nonempty (Elt F e)] : Pipeline.RegionSeg (pcfgs (F := F)) (adms m) (pdats m hR) () (defs₀ (F := F)) Variants.none L lv p3 where
  win := (Gen.launch3 (F := F)).win.to₀
  block_pos := (Gen.launch3 (F := F)).block_pos
  stage_whole := (Gen.launch3 (F := F)).stage_whole
  K := Fin 8
  osem := osem3
  ho := ownSemFacts3
  hbody c := (body_obligation3 m hR c).loose
  hwaits := Pipeline.hwaits_of_owed_zero _ _ _ _ L lv p3 fun _ _ => rfl
  pre c := iprop(StableHlo.held (c : Thread nD τ) (Pipeline.ucRefs τ sig) (Gen.V7 m (outs m hR) c) ∗ E eIn3 c)
  post c := iprop(StableHlo.held (c : Thread nD τ) (Pipeline.ucRefs τ sig) (Gen.V8 m (outs m hR) c) ∗ E eOut3 c)
  X c := iprop(pt c (Memref.whole main_arg1) (arrOf m c) ∗ semsOf cc3_scratch0 c)
  Y c := iprop(pt c (Memref.whole main_v12) (tab3 m c) ∗ pt c (Memref.whole main_arg1) (arrOf m c))
  Z c := StableHlo.held (c : Thread nD τ) (Pipeline.ucRefs τ sig \ T3) (Gen.V7 m (outs m hR) c)
  hentry c := by
    obtain rfl : c = (0 : Dev nD) := Subsingleton.elim _ _
    rw [StableHlo.held_sub_split (0 : Dev nD).tc hT3 (Gen.V7 m (outs m hR) 0), held3 main_v13 main_v12 main_arg1 (by decide) (by decide), semsOwn3_eq, tab_at_3, arr_at_3,
      out_at_3, show (pdats m hR p3 0) = dat3 m hR 0 from rfl, arrays3]
    unfold Pipeline.prefHeld
    rw [Gen.bigSep_W3]
    exact entry_shuffle 0 _ _ _ _ _ _ (fun _ => Or.inl trivial)
  hin c := by
    obtain rfl : c = (0 : Dev nD) := Subsingleton.elim _ _
    rw [show (pdats m hR p3 0).Φ 0 = Φ3 m 0 from rfl]; unfold Φ3 Pipeline.prefHeld
    rw [Gen.bigSep_W3]
    iintro ⟨⟨Harr, Hos⟩, Htab, Hr⟩
    isplitl [Htab]; · iexact Htab
    iframe
  hout c := by
    rw [semsOwn3_eq, show (pdats m hR p3 c).Φ (Fin.last _) = Φ3 m c from rfl]; unfold Φ3
    iintro ⟨Htab, Harr, Hos, Hr⟩
    iframe
  hexit c := by
    rw [StableHlo.held_sub_split (c : Thread nD τ) hT3 (Gen.V8 m (outs m hR) c), held3 main_v13 main_v12 main_arg1 (by decide) (by decide), after_out3,
      held_update c _ T3 _ main_v13 _ (by decide), Gen.V8_of m (outs m hR) c main_v12 (by decide), tab_at_3,
      Gen.V8_of m (outs m hR) c main_arg1 (by decide), arr_at_3, show (pdats m hR p3 c) = dat3 m hR c from rfl, arrays3]
    exact exit_shuffle c _ _ _ _ _

end Cert.KernelIdeal.Hand

end
-- ==== Proof.Region4KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p4 : Fin 8 := 4
abbrev eIn4 : Fin 9 := 4
abbrev eOut4 : Fin 9 := 5

abbrev osem4 : Fin 8 → SemLoc sig := fun j => .dma (cc4_scratch0.ix (ValueIdx.ix1 j))
theorem ownSemFacts4 : Pipeline.OwnSemFacts spec4 osem4 := by decide
theorem semsOwn4_eq (c : Dev nD) :
    (Pipeline.ownSems0 (Ix := Unit) (Name := ℕ) (U := UU nD τ) (Lvl := ℕ) (Val := Elt F) (τ := τ) osem4 c : sProp 𝕄) = semsOf cc4_scratch0 c :=
  Pipeline.ownSems0_eq_of_list c osem4 [0, 1, 2, 3, 4, 5, 6, 7] (by decide) (by decide)

abbrev T4 : Finset (DevRef τ sig) := {Proc.devRef .tc main_v16, Proc.devRef .tc main_v15, Proc.devRef .tc main_arg1}
theorem hT4 : T4 ⊆ Pipeline.ucRefs τ sig := by decide
theorem arrays4 (c : Dev nD) (f : (w : Fin (cfg4 (adm4 m)).W) → Buf (Elt F) (((cfg4 (adm4 m)).win w).arr.view.loc (c : Thread nD τ))) :
    ((dat4 m hR c).arrays f : sProp 𝕄) = (((c : Thread nD τ).loc main_v16) ↦{fullShare} f 0) := by
  unfold Dat.arrays
  rw [Gen.bigSep_W4, (Gen.arr_whole4 0).set_eq_univ]
  rfl

theorem after_out4 (c : Dev nD) : Gen.V10 m (outs m hR) c main_v16 = (dat4 m hR c).arrAt 0 grid4.N :=
  (Function.update_self _ _ _).trans (outs_at4 m hR c)

set_option backward.isDefEq.respectTransparency.types false in
def reg4 [∀ e, Nonempty (Elt F e)] : Pipeline.RegionSeg (pcfgs (F := F)) (adms m) (pdats m hR) () (defs₀ (F := F)) Variants.none L lv p4 where
  win := (Gen.launch4 (F := F)).win.to₀
  block_pos := (Gen.launch4 (F := F)).block_pos
  stage_whole := (Gen.launch4 (F := F)).stage_whole
  K := Fin 8
  osem := osem4
  ho := ownSemFacts4
  hbody c := (body_obligation4 m hR c).loose
  hwaits := Pipeline.hwaits_of_owed_zero _ _ _ _ L lv p4 fun _ _ => rfl
  pre c := iprop(StableHlo.held (c : Thread nD τ) (Pipeline.ucRefs τ sig) (Gen.V9 m (outs m hR) c) ∗ E eIn4 c)
  post c := iprop(StableHlo.held (c : Thread nD τ) (Pipeline.ucRefs τ sig) (Gen.V10 m (outs m hR) c) ∗ E eOut4 c)
  X c := iprop(pt c (Memref.whole main_arg1) (arrOf m c) ∗ semsOf cc4_scratch0 c)
  Y c := iprop(pt c (Memref.whole main_v15) (tab4 m c) ∗ pt c (Memref.whole main_arg1) (arrOf m c))
  Z c := StableHlo.held (c : Thread nD τ) (Pipeline.ucRefs τ sig \ T4) (Gen.V9 m (outs m hR) c)
  hentry c := by
    obtain rfl : c = (0 : Dev nD) := Subsingleton.elim _ _
    rw [StableHlo.held_sub_split (0 : Dev nD).tc hT4 (Gen.V9 m (outs m hR) 0), held3 main_v16 main_v15 main_arg1 (by decide) (by decide), semsOwn4_eq, tab_at_4, arr_at_4,
      out_at_4, show (pdats m hR p4 0) = dat4 m hR 0 from rfl, arrays4]
    unfold Pipeline.prefHeld
    rw [Gen.bigSep_W4]
    exact entry_shuffle 0 _ _ _ _ _ _ (fun _ => Or.inl trivial)
  hin c := by
    obtain rfl : c = (0 : Dev nD) := Subsingleton.elim _ _
    rw [show (pdats m hR p4 0).Φ 0 = Φ4 m 0 from rfl]; unfold Φ4 Pipeline.prefHeld
    rw [Gen.bigSep_W4]
    iintro ⟨⟨Harr, Hos⟩, Htab, Hr⟩
    isplitl [Htab]; · iexact Htab
    iframe
  hout c := by
    rw [semsOwn4_eq, show (pdats m hR p4 c).Φ (Fin.last _) = Φ4 m c from rfl]; unfold Φ4
    iintro ⟨Htab, Harr, Hos, Hr⟩
    iframe
  hexit c := by
    rw [StableHlo.held_sub_split (c : Thread nD τ) hT4 (Gen.V10 m (outs m hR) c), held3 main_v16 main_v15 main_arg1 (by decide) (by decide), after_out4,
      held_update c _ T4 _ main_v16 _ (by decide), Gen.V10_of m (outs m hR) c main_v15 (by decide), tab_at_4,
      Gen.V10_of m (outs m hR) c main_arg1 (by decide), arr_at_4, show (pdats m hR p4 c) = dat4 m hR c from rfl, arrays4]
    exact exit_shuffle c _ _ _ _ _

end Cert.KernelIdeal.Hand

end
-- ==== Proof.Region5KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p5 : Fin 8 := 5
abbrev eIn5 : Fin 9 := 5
abbrev eOut5 : Fin 9 := 6

abbrev osem5 : Fin 8 → SemLoc sig := fun j => .dma (cc5_scratch0.ix (ValueIdx.ix1 j))
theorem ownSemFacts5 : Pipeline.OwnSemFacts spec5 osem5 := by decide
theorem semsOwn5_eq (c : Dev nD) :
    (Pipeline.ownSems0 (Ix := Unit) (Name := ℕ) (U := UU nD τ) (Lvl := ℕ) (Val := Elt F) (τ := τ) osem5 c : sProp 𝕄) = semsOf cc5_scratch0 c :=
  Pipeline.ownSems0_eq_of_list c osem5 [0, 1, 2, 3, 4, 5, 6, 7] (by decide) (by decide)

abbrev T5 : Finset (DevRef τ sig) := {Proc.devRef .tc main_v19, Proc.devRef .tc main_v18, Proc.devRef .tc main_arg1}
theorem hT5 : T5 ⊆ Pipeline.ucRefs τ sig := by decide
theorem arrays5 (c : Dev nD) (f : (w : Fin (cfg5 (adm5 m)).W) → Buf (Elt F) (((cfg5 (adm5 m)).win w).arr.view.loc (c : Thread nD τ))) :
    ((dat5 m hR c).arrays f : sProp 𝕄) = (((c : Thread nD τ).loc main_v19) ↦{fullShare} f 0) := by
  unfold Dat.arrays
  rw [Gen.bigSep_W5, (Gen.arr_whole5 0).set_eq_univ]
  rfl

theorem after_out5 (c : Dev nD) : Gen.V12 m (outs m hR) c main_v19 = (dat5 m hR c).arrAt 0 grid5.N :=
  (Function.update_self _ _ _).trans (outs_at5 m hR c)

set_option backward.isDefEq.respectTransparency.types false in
def reg5 [∀ e, Nonempty (Elt F e)] : Pipeline.RegionSeg (pcfgs (F := F)) (adms m) (pdats m hR) () (defs₀ (F := F)) Variants.none L lv p5 where
  win := (Gen.launch5 (F := F)).win.to₀
  block_pos := (Gen.launch5 (F := F)).block_pos
  stage_whole := (Gen.launch5 (F := F)).stage_whole
  K := Fin 8
  osem := osem5
  ho := ownSemFacts5
  hbody c := (body_obligation5 m hR c).loose
  hwaits := Pipeline.hwaits_of_owed_zero _ _ _ _ L lv p5 fun _ _ => rfl
  pre c := iprop(StableHlo.held (c : Thread nD τ) (Pipeline.ucRefs τ sig) (Gen.V11 m (outs m hR) c) ∗ E eIn5 c)
  post c := iprop(StableHlo.held (c : Thread nD τ) (Pipeline.ucRefs τ sig) (Gen.V12 m (outs m hR) c) ∗ E eOut5 c)
  X c := iprop(pt c (Memref.whole main_arg1) (arrOf m c) ∗ semsOf cc5_scratch0 c)
  Y c := iprop(pt c (Memref.whole main_v18) (tab5 m c) ∗ pt c (Memref.whole main_arg1) (arrOf m c))
  Z c := StableHlo.held (c : Thread nD τ) (Pipeline.ucRefs τ sig \ T5) (Gen.V11 m (outs m hR) c)
  hentry c := by
    obtain rfl : c = (0 : Dev nD) := Subsingleton.elim _ _
    rw [StableHlo.held_sub_split (0 : Dev nD).tc hT5 (Gen.V11 m (outs m hR) 0), held3 main_v19 main_v18 main_arg1 (by decide) (by decide), semsOwn5_eq, tab_at_5, arr_at_5,
      out_at_5, show (pdats m hR p5 0) = dat5 m hR 0 from rfl, arrays5]
    unfold Pipeline.prefHeld
    rw [Gen.bigSep_W5]
    exact entry_shuffle 0 _ _ _ _ _ _ (fun _ => Or.inl trivial)
  hin c := by
    obtain rfl : c = (0 : Dev nD) := Subsingleton.elim _ _
    rw [show (pdats m hR p5 0).Φ 0 = Φ5 m 0 from rfl]; unfold Φ5 Pipeline.prefHeld
    rw [Gen.bigSep_W5]
    iintro ⟨⟨Harr, Hos⟩, Htab, Hr⟩
    isplitl [Htab]; · iexact Htab
    iframe
  hout c := by
    rw [semsOwn5_eq, show (pdats m hR p5 c).Φ (Fin.last _) = Φ5 m c from rfl]; unfold Φ5
    iintro ⟨Htab, Harr, Hos, Hr⟩
    iframe
  hexit c := by
    rw [StableHlo.held_sub_split (c : Thread nD τ) hT5 (Gen.V12 m (outs m hR) c), held3 main_v19 main_v18 main_arg1 (by decide) (by decide), after_out5,
      held_update c _ T5 _ main_v19 _ (by decide), Gen.V12_of m (outs m hR) c main_v18 (by decide), tab_at_5,
      Gen.V12_of m (outs m hR) c main_arg1 (by decide), arr_at_5, show (pdats m hR p5 c) = dat5 m hR c from rfl, arrays5]
    exact exit_shuffle c _ _ _ _ _

end Cert.KernelIdeal.Hand

end
-- ==== Proof.Region6KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p6 : Fin 8 := 6
abbrev eIn6 : Fin 9 := 6
abbrev eOut6 : Fin 9 := 7

abbrev osem6 : Fin 8 → SemLoc sig := fun j => .dma (cc6_scratch0.ix (ValueIdx.ix1 j))
theorem ownSemFacts6 : Pipeline.OwnSemFacts spec6 osem6 := by decide
theorem semsOwn6_eq (c : Dev nD) :
    (Pipeline.ownSems0 (Ix := Unit) (Name := ℕ) (U := UU nD τ) (Lvl := ℕ) (Val := Elt F) (τ := τ) osem6 c : sProp 𝕄) = semsOf cc6_scratch0 c :=
  Pipeline.ownSems0_eq_of_list c osem6 [0, 1, 2, 3, 4, 5, 6, 7] (by decide) (by decide)

abbrev T6 : Finset (DevRef τ sig) := {Proc.devRef .tc main_v22, Proc.devRef .tc main_v21, Proc.devRef .tc main_arg1}
theorem hT6 : T6 ⊆ Pipeline.ucRefs τ sig := by decide
theorem arrays6 (c : Dev nD) (f : (w : Fin (cfg6 (adm6 m)).W) → Buf (Elt F) (((cfg6 (adm6 m)).win w).arr.view.loc (c : Thread nD τ))) :
    ((dat6 m hR c).arrays f : sProp 𝕄) = (((c : Thread nD τ).loc main_v22) ↦{fullShare} f 0) := by
  unfold Dat.arrays
  rw [Gen.bigSep_W6, (Gen.arr_whole6 0).set_eq_univ]
  rfl

theorem after_out6 (c : Dev nD) : Gen.V14 m (outs m hR) c main_v22 = (dat6 m hR c).arrAt 0 grid6.N :=
  (Function.update_self _ _ _).trans (outs_at6 m hR c)

set_option backward.isDefEq.respectTransparency.types false in
def reg6 [∀ e, Nonempty (Elt F e)] : Pipeline.RegionSeg (pcfgs (F := F)) (adms m) (pdats m hR) () (defs₀ (F := F)) Variants.none L lv p6 where
  win := (Gen.launch6 (F := F)).win.to₀
  block_pos := (Gen.launch6 (F := F)).block_pos
  stage_whole := (Gen.launch6 (F := F)).stage_whole
  K := Fin 8
  osem := osem6
  ho := ownSemFacts6
  hbody c := (body_obligation6 m hR c).loose
  hwaits := Pipeline.hwaits_of_owed_zero _ _ _ _ L lv p6 fun _ _ => rfl
  pre c := iprop(StableHlo.held (c : Thread nD τ) (Pipeline.ucRefs τ sig) (Gen.V13 m (outs m hR) c) ∗ E eIn6 c)
  post c := iprop(StableHlo.held (c : Thread nD τ) (Pipeline.ucRefs τ sig) (Gen.V14 m (outs m hR) c) ∗ E eOut6 c)
  X c := iprop(pt c (Memref.whole main_arg1) (arrOf m c) ∗ semsOf cc6_scratch0 c)
  Y c := iprop(pt c (Memref.whole main_v21) (tab6 m c) ∗ pt c (Memref.whole main_arg1) (arrOf m c))
  Z c := StableHlo.held (c : Thread nD τ) (Pipeline.ucRefs τ sig \ T6) (Gen.V13 m (outs m hR) c)
  hentry c := by
    obtain rfl : c = (0 : Dev nD) := Subsingleton.elim _ _
    rw [StableHlo.held_sub_split (0 : Dev nD).tc hT6 (Gen.V13 m (outs m hR) 0), held3 main_v22 main_v21 main_arg1 (by decide) (by decide), semsOwn6_eq, tab_at_6, arr_at_6,
      out_at_6, show (pdats m hR p6 0) = dat6 m hR 0 from rfl, arrays6]
    unfold Pipeline.prefHeld
    rw [Gen.bigSep_W6]
    exact entry_shuffle 0 _ _ _ _ _ _ (fun _ => Or.inl trivial)
  hin c := by
    obtain rfl : c = (0 : Dev nD) := Subsingleton.elim _ _
    rw [show (pdats m hR p6 0).Φ 0 = Φ6 m 0 from rfl]; unfold Φ6 Pipeline.prefHeld
    rw [Gen.bigSep_W6]
    iintro ⟨⟨Harr, Hos⟩, Htab, Hr⟩
    isplitl [Htab]; · iexact Htab
    iframe
  hout c := by
    rw [semsOwn6_eq, show (pdats m hR p6 c).Φ (Fin.last _) = Φ6 m c from rfl]; unfold Φ6
    iintro ⟨Htab, Harr, Hos, Hr⟩
    iframe
  hexit c := by
    rw [StableHlo.held_sub_split (c : Thread nD τ) hT6 (Gen.V14 m (outs m hR) c), held3 main_v22 main_v21 main_arg1 (by decide) (by decide), after_out6,
      held_update c _ T6 _ main_v22 _ (by decide), Gen.V14_of m (outs m hR) c main_v21 (by decide), tab_at_6,
      Gen.V14_of m (outs m hR) c main_arg1 (by decide), arr_at_6, show (pdats m hR p6 c) = dat6 m hR c from rfl, arrays6]
    exact exit_shuffle c _ _ _ _ _

end Cert.KernelIdeal.Hand

end
-- ==== Proof.Region7KernelIdeal.lean ====
import proofs.«431176_j64484638982170_2_alg».proof.Proof.FamilyKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

abbrev p7 : Fin 8 := 7
abbrev eIn7 : Fin 9 := 7
abbrev eOut7 : Fin 9 := 8

abbrev osem7 : Fin 8 → SemLoc sig := fun j => .dma (cc7_scratch0.ix (ValueIdx.ix1 j))
theorem ownSemFacts7 : Pipeline.OwnSemFacts spec7 osem7 := by decide
theorem semsOwn7_eq (c : Dev nD) :
    (Pipeline.ownSems0 (Ix := Unit) (Name := ℕ) (U := UU nD τ) (Lvl := ℕ) (Val := Elt F) (τ := τ) osem7 c : sProp 𝕄) = semsOf cc7_scratch0 c :=
  Pipeline.ownSems0_eq_of_list c osem7 [0, 1, 2, 3, 4, 5, 6, 7] (by decide) (by decide)

abbrev T7 : Finset (DevRef τ sig) := {Proc.devRef .tc main_v25, Proc.devRef .tc main_v24, Proc.devRef .tc main_arg1}
theorem hT7 : T7 ⊆ Pipeline.ucRefs τ sig := by decide
theorem arrays7 (c : Dev nD) (f : (w : Fin (cfg7 (adm7 m)).W) → Buf (Elt F) (((cfg7 (adm7 m)).win w).arr.view.loc (c : Thread nD τ))) :
    ((dat7 m hR c).arrays f : sProp 𝕄) = (((c : Thread nD τ).loc main_v25) ↦{fullShare} f 0) := by
  unfold Dat.arrays
  rw [Gen.bigSep_W7, (Gen.arr_whole7 0).set_eq_univ]
  rfl

theorem after_out7 (c : Dev nD) : Gen.V16 m (outs m hR) c main_v25 = (dat7 m hR c).arrAt 0 grid7.N :=
  (Function.update_self _ _ _).trans (outs_at7 m hR c)

set_option backward.isDefEq.respectTransparency.types false in
def reg7 [∀ e, Nonempty (Elt F e)] : Pipeline.RegionSeg (pcfgs (F := F)) (adms m) (pdats m hR) () (defs₀ (F := F)) Variants.none L lv p7 where
  win := (Gen.launch7 (F := F)).win.to₀
  block_pos := (Gen.launch7 (F := F)).block_pos
  stage_whole := (Gen.launch7 (F := F)).stage_whole
  K := Fin 8
  osem := osem7
  ho := ownSemFacts7
  hbody c := (body_obligation7 m hR c).loose
  hwaits := Pipeline.hwaits_of_owed_zero _ _ _ _ L lv p7 fun _ _ => rfl
  pre c := iprop(StableHlo.held (c : Thread nD τ) (Pipeline.ucRefs τ sig) (Gen.V15 m (outs m hR) c) ∗ E eIn7 c)
  post c := iprop(StableHlo.held (c : Thread nD τ) (Pipeline.ucRefs τ sig) (Gen.V16 m (outs m hR) c) ∗ E eOut7 c)
  X c := iprop(pt c (Memref.whole main_arg1) (arrOf m c) ∗ semsOf cc7_scratch0 c)
  Y c := iprop(pt c (Memref.whole main_v24) (tab7 m c) ∗ pt c (Memref.whole main_arg1) (arrOf m c))
  Z c := StableHlo.held (c : Thread nD τ) (Pipeline.ucRefs τ sig \ T7) (Gen.V15 m (outs m hR) c)
  hentry c := by
    obtain rfl : c = (0 : Dev nD) := Subsingleton.elim _ _
    rw [StableHlo.held_sub_split (0 : Dev nD).tc hT7 (Gen.V15 m (outs m hR) 0), held3 main_v25 main_v24 main_arg1 (by decide) (by decide), semsOwn7_eq, tab_at_7, arr_at_7,
      out_at_7, show (pdats m hR p7 0) = dat7 m hR 0 from rfl, arrays7]
    unfold Pipeline.prefHeld
    rw [Gen.bigSep_W7]
    exact entry_shuffle 0 _ _ _ _ _ _ (fun _ => Or.inl trivial)
  hin c := by
    obtain rfl : c = (0 : Dev nD) := Subsingleton.elim _ _
    rw [show (pdats m hR p7 0).Φ 0 = Φ7 m 0 from rfl]; unfold Φ7 Pipeline.prefHeld
    rw [Gen.bigSep_W7]
    iintro ⟨⟨Harr, Hos⟩, Htab, Hr⟩
    isplitl [Htab]; · iexact Htab
    iframe
  hout c := by
    rw [semsOwn7_eq, show (pdats m hR p7 c).Φ (Fin.last _) = Φ7 m c from rfl]; unfold Φ7
    iintro ⟨Htab, Harr, Hos, Hr⟩
    iframe
  hexit c := by
    rw [StableHlo.held_sub_split (c : Thread nD τ) hT7 (Gen.V16 m (outs m hR) c), held3 main_v25 main_v24 main_arg1 (by decide) (by decide), after_out7,
      held_update c _ T7 _ main_v25 _ (by decide), Gen.V16_of m (outs m hR) c main_v24 (by decide), tab_at_7,
      Gen.V16_of m (outs m hR) c main_arg1 (by decide), arr_at_7, show (pdats m hR p7 c) = dat7 m hR c from rfl, arrays7]
    exact exit_shuffle c _ _ _ _ _

end Cert.KernelIdeal.Hand

end
-- ==== Proof.LaunchKernelIdeal.lean ====
import proofs.«431176_j64484638982170_2_alg».proof.Proof.Region0KernelIdeal
import proofs.«431176_j64484638982170_2_alg».proof.Proof.Region1KernelIdeal
import proofs.«431176_j64484638982170_2_alg».proof.Proof.Region2KernelIdeal
import proofs.«431176_j64484638982170_2_alg».proof.Proof.Region3KernelIdeal
import proofs.«431176_j64484638982170_2_alg».proof.Proof.Region4KernelIdeal
import proofs.«431176_j64484638982170_2_alg».proof.Proof.Region5KernelIdeal
import proofs.«431176_j64484638982170_2_alg».proof.Proof.Region6KernelIdeal
import proofs.«431176_j64484638982170_2_alg».proof.Proof.Region7KernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ)

abbrev EP : Emb (UR sig nD τ) (MT nD τ sig Unit (Elt F) ℕ (UU nD τ) ℕ) := embL

def u₀ : UU nD τ := (initOf (Pipeline.cells (Pipeline.pin (pcfgs (F := F)) (adms m)) (Gen.cellOf_inj (adms m)))
  (Pipeline.launchToks (Pipeline.pin (pcfgs (F := F)) (adms m)) (Gen.cellOf_inj (adms m))), 1)

theorem hu₀ : (ownU (u₀ m) : sProp 𝕄) ⊢ |={Set.univ}=> iprop(BI.own (EP (F := F) (initOf (Pipeline.cells (Pipeline.pin (pcfgs (F := F)) (adms m)) (Gen.cellOf_inj (adms m)))
    (Pipeline.launchToks (Pipeline.pin (pcfgs (F := F)) (adms m)) (Gen.cellOf_inj (adms m))))) ∗ bigSep Finset.univ (fun _ : Dev nD => (BI.emp : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, -, -⟩, -⟩
  imodintro
  iexists ∅; iexact HO

set_option backward.isDefEq.respectTransparency.types false in
theorem frame_run [∀ e, Nonempty (Elt F e)] (hR : InRange m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (EP (F := F)) () Variants.none L lv (fun _ _ => rfl) ρ (outs m hR) (adms m) (pdats m hR) 0 (fun _ => BI.emp) (u₀ m) (hu₀ m)
    E (hE0 ρ) (fun _ => .rfl)
    (reg0 m hR) (fun _ => .rfl) (fun _ => .rfl)
    (reg1 m hR) (fun _ => .rfl) (fun _ => .rfl)
    (reg2 m hR) (fun _ => .rfl) (fun _ => .rfl)
    (reg3 m hR) (fun _ => .rfl) (fun _ => .rfl)
    (reg4 m hR) (fun _ => .rfl) (fun _ => .rfl)
    (reg5 m hR) (fun _ => .rfl) (fun _ => .rfl)
    (reg6 m hR) (fun _ => .rfl) (fun _ => .rfl)
    (reg7 m hR) (fun _ => .rfl) (fun _ => .rfl)

end Cert.KernelIdeal.Hand

end
-- ==== Proof.ValueRunKernelIdeal.lean ====
import proofs.«431176_j64484638982170_2_alg».proof.Proof.LaunchKernelIdeal
import proofs.«431176_j64484638982170_2_alg».proof.Proof.RunCondKernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ)

set_option backward.isDefEq.respectTransparency.types false in
theorem value_run [∀ e, Nonempty (Elt F e)] (hR : InRange m) (ρ : Dev nD → PrngReg) :
    θ_run defs (onTc (τ := τ) (main (F := F))) ⟨m, fun _ => 0, ρ⟩ (fun r => ∀ c : Dev nD,
      r.2.mem ((c.tc : Thread nD τ).loc main_v26) = Gen.V17 m (outs m hR) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Gen.run_cond m (EP (F := F)) () Variants.none L lv (fun _ _ => rfl) ρ (outs m hR) (adms m) (pdats m hR) 0 (fun _ => BI.emp) (u₀ m) (hu₀ m)
    E (hE0 ρ) (fun _ => .rfl)
    (reg0 m hR) (fun _ => .rfl) (fun _ => .rfl)
    (reg1 m hR) (fun _ => .rfl) (fun _ => .rfl)
    (reg2 m hR) (fun _ => .rfl) (fun _ => .rfl)
    (reg3 m hR) (fun _ => .rfl) (fun _ => .rfl)
    (reg4 m hR) (fun _ => .rfl) (fun _ => .rfl)
    (reg5 m hR) (fun _ => .rfl) (fun _ => .rfl)
    (reg6 m hR) (fun _ => .rfl) (fun _ => .rfl)
    (reg7 m hR) (fun _ => .rfl) (fun _ => .rfl)

end Cert.KernelIdeal.Hand

end
-- ==== Proof.FinalKernelIdeal.lean ====
import proofs.«431176_j64484638982170_2_alg».proof.Proof.Gen.KernelIdeal.Regions
import proofs.«431176_j64484638982170_2_alg».proof.Proof.TablesKernelIdeal
import proofs.«431176_j64484638982170_2_alg».proof.Proof.Spec
import Idealize.ShloMosaic.Lib.Pipeline.Value
import Idealize.ShloMosaic.Lib.StableHlo.Run

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

variable (m : (ℓ : Loc nD τ sig) → Buf (Elt F) ℓ) (outs : Gen.Outs (F := F))

theorem concat8_apply {α : Type} (f : Fin 8 → (S102400x64.Idx → α))
    (h : Shape.Concatenates (([⟨S102400x64, f 0⟩, ⟨S102400x64, f 1⟩, ⟨S102400x64, f 2⟩, ⟨S102400x64, f 3⟩, ⟨S102400x64, f 4⟩, ⟨S102400x64, f 5⟩, ⟨S102400x64, f 6⟩, ⟨S102400x64, f 7⟩] : List ((s : Shape) × (s.Idx → α))).map (·.1)) S819200x64 0)
    (p : Fin 819200) (k : Fin 64) :
    concatenate S819200x64 0 [⟨S102400x64, f 0⟩, ⟨S102400x64, f 1⟩, ⟨S102400x64, f 2⟩, ⟨S102400x64, f 3⟩, ⟨S102400x64, f 4⟩, ⟨S102400x64, f 5⟩, ⟨S102400x64, f 6⟩, ⟨S102400x64, f 7⟩] h (ValueIdx.ix2 p k)
      = f ⟨p.val / 102400, by omega⟩ (ValueIdx.ix2 ⟨p.val % 102400, Nat.mod_lt _ (by decide)⟩ k) := by
  refine concatenate_ofFn_apply (0 : Fin S819200x64.rank) f h rfl 102400 rfl _ _ rfl _ rfl ?_
  intro b hb
  match b with
  | ⟨0, _⟩ => exact absurd rfl hb
  | ⟨1, _⟩ => rfl

theorem V16_main_v4 (c : Dev nD) : Gen.V16 m outs c main_v4 = outs 2 main_v4 c :=
  (Gen.V16_of m outs c main_v4 (by decide)).trans <| (Gen.V15_of m outs c main_v4 (by decide)).trans <| (Gen.V14_of m outs c main_v4 (by decide)).trans <| (Gen.V13_of m outs c main_v4 (by decide)).trans <| (Gen.V12_of m outs c main_v4 (by decide)).trans <| (Gen.V11_of m outs c main_v4 (by decide)).trans <| (Gen.V10_of m outs c main_v4 (by decide)).trans <| (Gen.V9_of m outs c main_v4 (by decide)).trans <| (Gen.V8_of m outs c main_v4 (by decide)).trans <| (Gen.V7_of m outs c main_v4 (by decide)).trans <| (Gen.V6_of m outs c main_v4 (by decide)).trans <| (Gen.V5_of m outs c main_v4 (by decide)).trans <| (Gen.V4_of m outs c main_v4 (by decide)).trans <| (Gen.V3_of m outs c main_v4 (by decide)).trans <| Function.update_self _ _ _

theorem V16_main_v7 (c : Dev nD) : Gen.V16 m outs c main_v7 = outs 4 main_v7 c :=
  (Gen.V16_of m outs c main_v7 (by decide)).trans <| (Gen.V15_of m outs c main_v7 (by decide)).trans <| (Gen.V14_of m outs c main_v7 (by decide)).trans <| (Gen.V13_of m outs c main_v7 (by decide)).trans <| (Gen.V12_of m outs c main_v7 (by decide)).trans <| (Gen.V11_of m outs c main_v7 (by decide)).trans <| (Gen.V10_of m outs c main_v7 (by decide)).trans <| (Gen.V9_of m outs c main_v7 (by decide)).trans <| (Gen.V8_of m outs c main_v7 (by decide)).trans <| (Gen.V7_of m outs c main_v7 (by decide)).trans <| (Gen.V6_of m outs c main_v7 (by decide)).trans <| (Gen.V5_of m outs c main_v7 (by decide)).trans <| Function.update_self _ _ _

theorem V16_main_v10 (c : Dev nD) : Gen.V16 m outs c main_v10 = outs 6 main_v10 c :=
  (Gen.V16_of m outs c main_v10 (by decide)).trans <| (Gen.V15_of m outs c main_v10 (by decide)).trans <| (Gen.V14_of m outs c main_v10 (by decide)).trans <| (Gen.V13_of m outs c main_v10 (by decide)).trans <| (Gen.V12_of m outs c main_v10 (by decide)).trans <| (Gen.V11_of m outs c main_v10 (by decide)).trans <| (Gen.V10_of m outs c main_v10 (by decide)).trans <| (Gen.V9_of m outs c main_v10 (by decide)).trans <| (Gen.V8_of m outs c main_v10 (by decide)).trans <| (Gen.V7_of m outs c main_v10 (by decide)).trans <| Function.update_self _ _ _

theorem V16_main_v13 (c : Dev nD) : Gen.V16 m outs c main_v13 = outs 8 main_v13 c :=
  (Gen.V16_of m outs c main_v13 (by decide)).trans <| (Gen.V15_of m outs c main_v13 (by decide)).trans <| (Gen.V14_of m outs c main_v13 (by decide)).trans <| (Gen.V13_of m outs c main_v13 (by decide)).trans <| (Gen.V12_of m outs c main_v13 (by decide)).trans <| (Gen.V11_of m outs c main_v13 (by decide)).trans <| (Gen.V10_of m outs c main_v13 (by decide)).trans <| (Gen.V9_of m outs c main_v13 (by decide)).trans <| Function.update_self _ _ _

theorem V16_main_v16 (c : Dev nD) : Gen.V16 m outs c main_v16 = outs 10 main_v16 c :=
  (Gen.V16_of m outs c main_v16 (by decide)).trans <| (Gen.V15_of m outs c main_v16 (by decide)).trans <| (Gen.V14_of m outs c main_v16 (by decide)).trans <| (Gen.V13_of m outs c main_v16 (by decide)).trans <| (Gen.V12_of m outs c main_v16 (by decide)).trans <| (Gen.V11_of m outs c main_v16 (by decide)).trans <| Function.update_self _ _ _

theorem V16_main_v19 (c : Dev nD) : Gen.V16 m outs c main_v19 = outs 12 main_v19 c :=
  (Gen.V16_of m outs c main_v19 (by decide)).trans <| (Gen.V15_of m outs c main_v19 (by decide)).trans <| (Gen.V14_of m outs c main_v19 (by decide)).trans <| (Gen.V13_of m outs c main_v19 (by decide)).trans <| Function.update_self _ _ _

theorem V16_main_v22 (c : Dev nD) : Gen.V16 m outs c main_v22 = outs 14 main_v22 c :=
  (Gen.V16_of m outs c main_v22 (by decide)).trans <| (Gen.V15_of m outs c main_v22 (by decide)).trans <| Function.update_self _ _ _

theorem V16_main_v25 (c : Dev nD) : Gen.V16 m outs c main_v25 = outs 16 main_v25 c :=
  Function.update_self _ _ _

/-- Eight chunks laid end to end along the rows are the whole gather. -/
theorem final_eq (c : Dev nD)
    (h0 : outs 2 main_v4 c = Cert.Hand.Spec.gatherChunk 0 (idsOf m c) (arrOf m c))
    (h1 : outs 4 main_v7 c = Cert.Hand.Spec.gatherChunk 1 (idsOf m c) (arrOf m c))
    (h2 : outs 6 main_v10 c = Cert.Hand.Spec.gatherChunk 2 (idsOf m c) (arrOf m c))
    (h3 : outs 8 main_v13 c = Cert.Hand.Spec.gatherChunk 3 (idsOf m c) (arrOf m c))
    (h4 : outs 10 main_v16 c = Cert.Hand.Spec.gatherChunk 4 (idsOf m c) (arrOf m c))
    (h5 : outs 12 main_v19 c = Cert.Hand.Spec.gatherChunk 5 (idsOf m c) (arrOf m c))
    (h6 : outs 14 main_v22 c = Cert.Hand.Spec.gatherChunk 6 (idsOf m c) (arrOf m c))
    (h7 : outs 16 main_v25 c = Cert.Hand.Spec.gatherChunk 7 (idsOf m c) (arrOf m c)) :
    Gen.V17 m outs c main_v26 = Cert.Hand.Spec.gather (idsOf m c) (arrOf m c) := by
  show StableHlo.after Gen.hostOps8 _ (Proc.devRef .tc main_v26) = _
  after_results
  show concatenate S819200x64 0 [⟨S102400x64, Gen.V16 m outs c main_v4⟩, ⟨S102400x64, Gen.V16 m outs c main_v7⟩, ⟨S102400x64, Gen.V16 m outs c main_v10⟩, ⟨S102400x64, Gen.V16 m outs c main_v13⟩, ⟨S102400x64, Gen.V16 m outs c main_v16⟩, ⟨S102400x64, Gen.V16 m outs c main_v19⟩, ⟨S102400x64, Gen.V16 m outs c main_v22⟩, ⟨S102400x64, Gen.V16 m outs c main_v25⟩] _ = _
  rw [V16_main_v4 m outs c, V16_main_v7 m outs c, V16_main_v10 m outs c, V16_main_v13 m outs c, V16_main_v16 m outs c, V16_main_v19 m outs c, V16_main_v22 m outs c, V16_main_v25 m outs c, h0, h1, h2, h3, h4, h5, h6, h7]
  funext y
  obtain ⟨p, k, rfl⟩ : ∃ p k, y = ValueIdx.ix2 p k := ⟨y 0, y 1, ValueIdx.eq_ix2 y⟩
  refine (concat8_apply (fun K => Cert.Hand.Spec.gatherChunk K (idsOf m c) (arrOf m c)) _ p k).trans ?_
  rw [Cert.Hand.Spec.gatherChunk_apply]
  exact congrArg (fun q : Fin 819200 => Cert.Hand.Spec.gather (idsOf m c) (arrOf m c) (ValueIdx.ix2 q k))
    (Fin.ext (Nat.div_add_mod p.val 102400))

end Cert.KernelIdeal.Hand

end
-- ==== Proof.ChunkKernelIdeal.lean ====
import proofs.«431176_j64484638982170_2_alg».proof.Proof.TablesKernelIdeal
import proofs.«431176_j64484638982170_2_alg».proof.Proof.Spec
import Idealize.ShloMosaic.Lib.ValueIdx

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UU nD τ) ℕ

theorem chunk_entry (K : Fin 8) (ids : IVec S16384x50 32) (x : Fin 102400) (p : Fin 819200)
    (hp : p.val = 102400 * K.val + x.val) : chunk K ids (ValueIdx.ix1 x) = Cert.Hand.Spec.idAt ids p := by
  obtain ⟨pv, hpv⟩ := p
  dsimp only at hp
  subst hp
  rfl

theorem gatherChunk_entry {α : Type} (K : Fin 8) (ids : Cert.Hand.Spec.SIds.Idx → BitVec 32) (table : Cert.Hand.Spec.STab.Idx → α)
    (z : Cert.Hand.Spec.SChunk.Idx) (p : Fin 819200) (r : Fin 1000000) (k : Fin 64)
    (hp : p.val = 102400 * K.val + (z 0).val) (hr : r.val = (Cert.Hand.Spec.rowOf (Cert.Hand.Spec.idAt ids p)).val) (hk : k.val = (z 1).val) :
    Cert.Hand.Spec.gatherChunk K ids table z = table (ValueIdx.ix2 r k) := by
  obtain ⟨pv, hpv⟩ := p
  dsimp only at hp
  subst hp
  obtain rfl : r = Cert.Hand.Spec.rowOf (Cert.Hand.Spec.idAt ids _) := Fin.ext hr
  obtain ⟨kv, hkv⟩ := k
  dsimp only at hk
  subst hk
  rfl

end Cert.KernelIdeal.Hand

end
-- ==== Proof.BlocksKernelIdeal.lean ====
import proofs.«431176_j64484638982170_2_alg».proof.Proof.RowsKernelIdeal
import proofs.«431176_j64484638982170_2_alg».proof.Proof.ChunkKernelIdeal
import proofs.«431176_j64484638982170_2_alg».proof.Proof.Gen.KernelIdeal.Launch
import Idealize.ShloMosaic.Lib.Pipeline.Kit

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

theorem coords_val (t : Fin grid0.N) : ((grid0.coords t) 0).val = t.val := by
  have hN : grid0.N = 12800 := Gen.N_0
  have ht := t.isLt
  show t.val / grid0.stride 0 % 12800 = t.val
  rw [show grid0.stride 0 = 1 from by decide]
  omega

/-- Every call's output block at point `t` is block `t` along the rows, the one block along the columns. -/
theorem tile_row (t : Fin grid0.N) : cc0_transform_1 (grid0.coords t) (0 : Fin 2) = t.val := by
  have hN : grid0.N = 12800 := Gen.N_0
  have ht := t.isLt
  unfold cc0_transform_1
  show (BitVec.ofNat 32 ((grid0.coords t) 0).val).toNat = t.val
  rw [coords_val, BitVec.toNat_ofNat]
  exact Nat.mod_eq_of_lt (by omega)

theorem tile_col (t : Fin grid0.N) : cc0_transform_1 (grid0.coords t) (1 : Fin 2) = 0 := rfl

/-- Consecutive points have different block indices. -/
theorem flush_all (t : Fin grid0.N) : Pipeline.Window.flushOf grid0 true cc0_transform_1 t = true := by
  have hN : grid0.N = 12800 := Gen.N_0
  have ht : t.val < 12800 := Gen.N_0 ▸ t.isLt
  unfold Pipeline.Window.flushOf
  rw [Bool.and_eq_true, Bool.or_eq_true, decide_eq_true_iff, decide_eq_true_iff]
  refine ⟨rfl, ?_⟩
  by_cases h : t.val + 1 = 12800
  · exact .inl (h.trans hN.symm)
  · refine .inr ⟨by omega, fun e => ?_⟩
    have e0 := congrFun e (0 : Fin 2)
    rw [tile_row, tile_row] at e0
    exact absurd e0 (Nat.succ_ne_self _)

/-- A block whose row `j` is the table row named by id `8 t + j` of chunk `K` is rows `8 t … 8 t + 7` of chunk `K` of the gather. -/
theorem block_entry (K : Fin 8) (ids : IVec S16384x50 32) (hids : ∀ x, (ids x).toNat < 1000000) {c : Dev nD}
    (arr : Bf (F := F) c (Memref.whole main_arg1)) (t : ℕ) (rows : Fin 8 → ℕ) (hlt : ∀ j, rows j < 1000000)
    (hrows : ∀ (j : Fin 8) (p : Fin 819200), p.val = 102400 * K.val + (8 * t + j.val) → rows j = (Cert.Hand.Spec.idAt ids p).toNat)
    (y : S8x64.Idx) (z : S102400x64.Idx) (h0 : (z 0).val = 8 * t + (y 0).val) (h1 : (z 1).val = (y 1).val) :
    gblock arr rows hlt y = Cert.Hand.Spec.gatherChunk K ids arr z := by
  have hz : (z 0).val < 102400 := ValueIdx.idx2_lt0 z
  unfold gblock
  refine (gatherChunk_entry K ids arr z ⟨102400 * K.val + (z 0).val, by have := K.isLt; omega⟩ _ _ rfl ?_ ?_).symm
  · show rows ⟨(y 0).val, ValueIdx.idx2_lt0 y⟩ = _
    rw [Cert.Hand.Spec.rowOf_val_of_lt (Cert.Hand.Spec.idAt ids _) (hids _)]
    refine hrows _ _ ?_
    show 102400 * K.val + (z 0).val = 102400 * K.val + (8 * t + (y 0).val)
    rw [h0]
  · exact h1.symm

/-- Row `r` of the array lies in the block of point `r / 8`. -/
theorem cover_blocks (mem : Fin grid0.N → S102400x64.Idx → Prop)
    (hmem : ∀ t i, mem t i ↔ ∀ a : Fin 2, cc0_transform_1 (grid0.coords t) a * S8x64.size a ≤ (i a).val
      ∧ (i a).val < cc0_transform_1 (grid0.coords t) a * S8x64.size a + S8x64.size a) (i : S102400x64.Idx) :
    ∃ t : Fin grid0.N, Pipeline.Window.flushOf grid0 true cc0_transform_1 t = true ∧ mem t i := by
  have hi0 : (i 0).val < 102400 := ValueIdx.idx2_lt0 i
  have hi1 : (i 1).val < 64 := ValueIdx.idx2_lt1 i
  have hN : grid0.N = 12800 := Gen.N_0
  have ht : (i 0).val / 8 < grid0.N := by rw [hN]; omega
  refine ⟨⟨(i 0).val / 8, ht⟩, flush_all _, (hmem _ i).mpr fun a => ?_⟩
  match a with
  | ⟨0, _⟩ =>
    show cc0_transform_1 (grid0.coords ⟨(i 0).val / 8, ht⟩) (0 : Fin 2) * 8 ≤ (i 0).val ∧ (i 0).val < cc0_transform_1 (grid0.coords ⟨(i 0).val / 8, ht⟩) (0 : Fin 2) * 8 + 8
    rw [tile_row]
    show (i 0).val / 8 * 8 ≤ (i 0).val ∧ (i 0).val < (i 0).val / 8 * 8 + 8
    omega
  | ⟨1, _⟩ =>
    show cc0_transform_1 (grid0.coords ⟨(i 0).val / 8, ht⟩) (1 : Fin 2) * 64 ≤ (i 1).val ∧ (i 1).val < cc0_transform_1 (grid0.coords ⟨(i 0).val / 8, ht⟩) (1 : Fin 2) * 64 + 64
    rw [tile_col]
    omega

end Cert.KernelIdeal.Hand

end
-- ==== Proof.Value0KernelIdeal.lean ====
import proofs.«431176_j64484638982170_2_alg».proof.Proof.Dat0KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read0 (c : Dev nD) (ftab : Bf (F := F) c (Memref.whole main_v3)) (off : Fin 1 → Nat)
    (inb : ∀ a, off a + S1.size a ≤ S102400.size a) (h : 0 < S1.numel) (n : Fin 102400) (hn : off 0 = n.val) :
    (Memref.whole main_v3).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq0 (c : Dev nD) (i : grid0.Coords) (ftab : Bf (F := F) c (Memref.whole main_v3)) (j : Fin 8) :
    words (Memref.whole main_v3) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read0 c ftab _ _ _ _ (by rw [Gen.k0_off1_eq]; rfl)
  | 1 => exact word_read0 c ftab _ _ _ _ (by rw [Gen.k0_off3_eq]; rfl)
  | 2 => exact word_read0 c ftab _ _ _ _ (by rw [Gen.k0_off5_eq]; rfl)
  | 3 => exact word_read0 c ftab _ _ _ _ (by rw [Gen.k0_off7_eq]; rfl)
  | 4 => exact word_read0 c ftab _ _ _ _ (by rw [Gen.k0_off9_eq]; rfl)
  | 5 => exact word_read0 c ftab _ _ _ _ (by rw [Gen.k0_off11_eq]; rfl)
  | 6 => exact word_read0 c ftab _ _ _ _ (by rw [Gen.k0_off13_eq]; rfl)
  | 7 => exact word_read0 c ftab _ _ _ _ (by rw [Gen.k0_off15_eq]; rfl)
  | ⟨_ + 8, h'⟩ => exact absurd h' (Nat.not_lt.2 (Nat.le_add_left _ _))

theorem rows_eq0 (c : Dev nD) (t : Fin grid0.N) (j : Fin 8) (p : Fin 819200)
    (hp : p.val = 102400 * (0 : Fin 8).val + (8 * t.val + j.val)) :
    rows0 m c t j = (Cert.Hand.Spec.idAt (idsOf m c) p).toNat := by
  unfold rows0
  rw [words_eq0]
  refine congrArg BitVec.toNat (chunk_entry (0 : Fin 8) (idsOf m c) _ p ?_)
  show p.val = 102400 * (0 : Fin 8).val + (8 * ((grid0.coords t) 0).val + j.val)
  rw [coords_val, hp]

/-- Point `t`'s block is block `t` of this call's chunk of the gather. -/
theorem flushed_eq0 (hR : InRange m) (c : Dev nD) (t : Fin grid0.N) :
    (dat0 m hR c).flushed 0 t = (((cfg0 (adm0 m)).win 0).blk t).view.read (Elt F) (Cert.Hand.Spec.gatherChunk 0 (idsOf m c) (arrOf m c)) := by
  show ((cfg0 (adm0 m)).win 0).cut (grid0.coords t) ((dat0 m hR c).after 0 t) = _
  rw [after0]
  funext j
  show gblock (arrOf m c) (rows0 m c t) (rows0_lt m hR c t) (((cfg0 (adm0 m)).win 0).xinj (grid0.coords t) j)
    = Cert.Hand.Spec.gatherChunk 0 (idsOf m c) (arrOf m c) ((((cfg0 (adm0 m)).win 0).blk t).view.emb j)
  refine block_entry (0 : Fin 8) (idsOf m c) (hR c) (arrOf m c) t.val _ _ (rows_eq0 m c t) _ _ ?_ ?_
  · show cc0_transform_1 (grid0.coords t) (0 : Fin 2) * 8 + 1 * (j (0 : Fin 2)).val = 8 * t.val + (j (0 : Fin 2)).val
    rw [tile_row]; omega
  · show cc0_transform_1 (grid0.coords t) (1 : Fin 2) * 64 + 1 * (j (1 : Fin 2)).val = (j (1 : Fin 2)).val
    rw [tile_col]; omega

theorem mem_blk0 (t : Fin grid0.N) (i : S102400x64.Idx) :
    i ∈ (((cfg0 (adm0 m)).win 0).blk t).view.set ↔ ∀ a : Fin 2, ((cfg0 (adm0 m)).win 0).index t a * S8x64.size a ≤ (i a).val ∧ (i a).val < ((cfg0 (adm0 m)).win 0).index t a * S8x64.size a + S8x64.size a :=
  (Finset.ext_iff.mp (View.set_slice_whole main_v4 (((cfg0 (adm0 m)).win 0).rect t)) i).trans Rect.mem_set_unit

theorem arrAt_final0 (hR : InRange m) (c : Dev nD) :
    (dat0 m hR c).arrAt 0 (cfg0 (adm0 m)).N = Cert.Hand.Spec.gatherChunk 0 (idsOf m c) (arrOf m c) :=
  (dat0 m hR c).arrAt_eq_of_cover 0 (Cert.Hand.Spec.gatherChunk 0 (idsOf m c) (arrOf m c)) (fun t _ => flushed_eq0 m hR c t)
    (cover_blocks (fun t i => i ∈ (((cfg0 (adm0 m)).win 0).blk t).view.set) (mem_blk0 m))

end Cert.KernelIdeal.Hand

end
-- ==== Proof.Value1KernelIdeal.lean ====
import proofs.«431176_j64484638982170_2_alg».proof.Proof.Dat1KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read1 (c : Dev nD) (ftab : Bf (F := F) c (Memref.whole main_v6)) (off : Fin 1 → Nat)
    (inb : ∀ a, off a + S1.size a ≤ S102400.size a) (h : 0 < S1.numel) (n : Fin 102400) (hn : off 0 = n.val) :
    (Memref.whole main_v6).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq1 (c : Dev nD) (i : grid1.Coords) (ftab : Bf (F := F) c (Memref.whole main_v6)) (j : Fin 8) :
    words (Memref.whole main_v6) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read1 c ftab _ _ _ _ (by rw [Gen.k0_off1_eq]; rfl)
  | 1 => exact word_read1 c ftab _ _ _ _ (by rw [Gen.k0_off3_eq]; rfl)
  | 2 => exact word_read1 c ftab _ _ _ _ (by rw [Gen.k0_off5_eq]; rfl)
  | 3 => exact word_read1 c ftab _ _ _ _ (by rw [Gen.k0_off7_eq]; rfl)
  | 4 => exact word_read1 c ftab _ _ _ _ (by rw [Gen.k0_off9_eq]; rfl)
  | 5 => exact word_read1 c ftab _ _ _ _ (by rw [Gen.k0_off11_eq]; rfl)
  | 6 => exact word_read1 c ftab _ _ _ _ (by rw [Gen.k0_off13_eq]; rfl)
  | 7 => exact word_read1 c ftab _ _ _ _ (by rw [Gen.k0_off15_eq]; rfl)
  | ⟨_ + 8, h'⟩ => exact absurd h' (Nat.not_lt.2 (Nat.le_add_left _ _))

theorem rows_eq1 (c : Dev nD) (t : Fin grid1.N) (j : Fin 8) (p : Fin 819200)
    (hp : p.val = 102400 * (1 : Fin 8).val + (8 * t.val + j.val)) :
    rows1 m c t j = (Cert.Hand.Spec.idAt (idsOf m c) p).toNat := by
  unfold rows1
  rw [words_eq1]
  refine congrArg BitVec.toNat (chunk_entry (1 : Fin 8) (idsOf m c) _ p ?_)
  show p.val = 102400 * (1 : Fin 8).val + (8 * ((grid1.coords t) 0).val + j.val)
  rw [coords_val, hp]

/-- Point `t`'s block is block `t` of this call's chunk of the gather. -/
theorem flushed_eq1 (hR : InRange m) (c : Dev nD) (t : Fin grid1.N) :
    (dat1 m hR c).flushed 0 t = (((cfg1 (adm1 m)).win 0).blk t).view.read (Elt F) (Cert.Hand.Spec.gatherChunk 1 (idsOf m c) (arrOf m c)) := by
  show ((cfg1 (adm1 m)).win 0).cut (grid1.coords t) ((dat1 m hR c).after 0 t) = _
  rw [after1]
  funext j
  show gblock (arrOf m c) (rows1 m c t) (rows1_lt m hR c t) (((cfg1 (adm1 m)).win 0).xinj (grid1.coords t) j)
    = Cert.Hand.Spec.gatherChunk 1 (idsOf m c) (arrOf m c) ((((cfg1 (adm1 m)).win 0).blk t).view.emb j)
  refine block_entry (1 : Fin 8) (idsOf m c) (hR c) (arrOf m c) t.val _ _ (rows_eq1 m c t) _ _ ?_ ?_
  · show cc0_transform_1 (grid1.coords t) (0 : Fin 2) * 8 + 1 * (j (0 : Fin 2)).val = 8 * t.val + (j (0 : Fin 2)).val
    rw [tile_row]; omega
  · show cc0_transform_1 (grid1.coords t) (1 : Fin 2) * 64 + 1 * (j (1 : Fin 2)).val = (j (1 : Fin 2)).val
    rw [tile_col]; omega

theorem mem_blk1 (t : Fin grid1.N) (i : S102400x64.Idx) :
    i ∈ (((cfg1 (adm1 m)).win 0).blk t).view.set ↔ ∀ a : Fin 2, ((cfg1 (adm1 m)).win 0).index t a * S8x64.size a ≤ (i a).val ∧ (i a).val < ((cfg1 (adm1 m)).win 0).index t a * S8x64.size a + S8x64.size a :=
  (Finset.ext_iff.mp (View.set_slice_whole main_v7 (((cfg1 (adm1 m)).win 0).rect t)) i).trans Rect.mem_set_unit

theorem arrAt_final1 (hR : InRange m) (c : Dev nD) :
    (dat1 m hR c).arrAt 0 (cfg1 (adm1 m)).N = Cert.Hand.Spec.gatherChunk 1 (idsOf m c) (arrOf m c) :=
  (dat1 m hR c).arrAt_eq_of_cover 0 (Cert.Hand.Spec.gatherChunk 1 (idsOf m c) (arrOf m c)) (fun t _ => flushed_eq1 m hR c t)
    (cover_blocks (fun t i => i ∈ (((cfg1 (adm1 m)).win 0).blk t).view.set) (mem_blk1 m))

end Cert.KernelIdeal.Hand

end
-- ==== Proof.Value2KernelIdeal.lean ====
import proofs.«431176_j64484638982170_2_alg».proof.Proof.Dat2KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read2 (c : Dev nD) (ftab : Bf (F := F) c (Memref.whole main_v9)) (off : Fin 1 → Nat)
    (inb : ∀ a, off a + S1.size a ≤ S102400.size a) (h : 0 < S1.numel) (n : Fin 102400) (hn : off 0 = n.val) :
    (Memref.whole main_v9).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq2 (c : Dev nD) (i : grid2.Coords) (ftab : Bf (F := F) c (Memref.whole main_v9)) (j : Fin 8) :
    words (Memref.whole main_v9) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read2 c ftab _ _ _ _ (by rw [Gen.k0_off1_eq]; rfl)
  | 1 => exact word_read2 c ftab _ _ _ _ (by rw [Gen.k0_off3_eq]; rfl)
  | 2 => exact word_read2 c ftab _ _ _ _ (by rw [Gen.k0_off5_eq]; rfl)
  | 3 => exact word_read2 c ftab _ _ _ _ (by rw [Gen.k0_off7_eq]; rfl)
  | 4 => exact word_read2 c ftab _ _ _ _ (by rw [Gen.k0_off9_eq]; rfl)
  | 5 => exact word_read2 c ftab _ _ _ _ (by rw [Gen.k0_off11_eq]; rfl)
  | 6 => exact word_read2 c ftab _ _ _ _ (by rw [Gen.k0_off13_eq]; rfl)
  | 7 => exact word_read2 c ftab _ _ _ _ (by rw [Gen.k0_off15_eq]; rfl)
  | ⟨_ + 8, h'⟩ => exact absurd h' (Nat.not_lt.2 (Nat.le_add_left _ _))

theorem rows_eq2 (c : Dev nD) (t : Fin grid2.N) (j : Fin 8) (p : Fin 819200)
    (hp : p.val = 102400 * (2 : Fin 8).val + (8 * t.val + j.val)) :
    rows2 m c t j = (Cert.Hand.Spec.idAt (idsOf m c) p).toNat := by
  unfold rows2
  rw [words_eq2]
  refine congrArg BitVec.toNat (chunk_entry (2 : Fin 8) (idsOf m c) _ p ?_)
  show p.val = 102400 * (2 : Fin 8).val + (8 * ((grid2.coords t) 0).val + j.val)
  rw [coords_val, hp]

/-- Point `t`'s block is block `t` of this call's chunk of the gather. -/
theorem flushed_eq2 (hR : InRange m) (c : Dev nD) (t : Fin grid2.N) :
    (dat2 m hR c).flushed 0 t = (((cfg2 (adm2 m)).win 0).blk t).view.read (Elt F) (Cert.Hand.Spec.gatherChunk 2 (idsOf m c) (arrOf m c)) := by
  show ((cfg2 (adm2 m)).win 0).cut (grid2.coords t) ((dat2 m hR c).after 0 t) = _
  rw [after2]
  funext j
  show gblock (arrOf m c) (rows2 m c t) (rows2_lt m hR c t) (((cfg2 (adm2 m)).win 0).xinj (grid2.coords t) j)
    = Cert.Hand.Spec.gatherChunk 2 (idsOf m c) (arrOf m c) ((((cfg2 (adm2 m)).win 0).blk t).view.emb j)
  refine block_entry (2 : Fin 8) (idsOf m c) (hR c) (arrOf m c) t.val _ _ (rows_eq2 m c t) _ _ ?_ ?_
  · show cc0_transform_1 (grid2.coords t) (0 : Fin 2) * 8 + 1 * (j (0 : Fin 2)).val = 8 * t.val + (j (0 : Fin 2)).val
    rw [tile_row]; omega
  · show cc0_transform_1 (grid2.coords t) (1 : Fin 2) * 64 + 1 * (j (1 : Fin 2)).val = (j (1 : Fin 2)).val
    rw [tile_col]; omega

theorem mem_blk2 (t : Fin grid2.N) (i : S102400x64.Idx) :
    i ∈ (((cfg2 (adm2 m)).win 0).blk t).view.set ↔ ∀ a : Fin 2, ((cfg2 (adm2 m)).win 0).index t a * S8x64.size a ≤ (i a).val ∧ (i a).val < ((cfg2 (adm2 m)).win 0).index t a * S8x64.size a + S8x64.size a :=
  (Finset.ext_iff.mp (View.set_slice_whole main_v10 (((cfg2 (adm2 m)).win 0).rect t)) i).trans Rect.mem_set_unit

theorem arrAt_final2 (hR : InRange m) (c : Dev nD) :
    (dat2 m hR c).arrAt 0 (cfg2 (adm2 m)).N = Cert.Hand.Spec.gatherChunk 2 (idsOf m c) (arrOf m c) :=
  (dat2 m hR c).arrAt_eq_of_cover 0 (Cert.Hand.Spec.gatherChunk 2 (idsOf m c) (arrOf m c)) (fun t _ => flushed_eq2 m hR c t)
    (cover_blocks (fun t i => i ∈ (((cfg2 (adm2 m)).win 0).blk t).view.set) (mem_blk2 m))

end Cert.KernelIdeal.Hand

end
-- ==== Proof.Value3KernelIdeal.lean ====
import proofs.«431176_j64484638982170_2_alg».proof.Proof.Dat3KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read3 (c : Dev nD) (ftab : Bf (F := F) c (Memref.whole main_v12)) (off : Fin 1 → Nat)
    (inb : ∀ a, off a + S1.size a ≤ S102400.size a) (h : 0 < S1.numel) (n : Fin 102400) (hn : off 0 = n.val) :
    (Memref.whole main_v12).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq3 (c : Dev nD) (i : grid3.Coords) (ftab : Bf (F := F) c (Memref.whole main_v12)) (j : Fin 8) :
    words (Memref.whole main_v12) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read3 c ftab _ _ _ _ (by rw [Gen.k0_off1_eq]; rfl)
  | 1 => exact word_read3 c ftab _ _ _ _ (by rw [Gen.k0_off3_eq]; rfl)
  | 2 => exact word_read3 c ftab _ _ _ _ (by rw [Gen.k0_off5_eq]; rfl)
  | 3 => exact word_read3 c ftab _ _ _ _ (by rw [Gen.k0_off7_eq]; rfl)
  | 4 => exact word_read3 c ftab _ _ _ _ (by rw [Gen.k0_off9_eq]; rfl)
  | 5 => exact word_read3 c ftab _ _ _ _ (by rw [Gen.k0_off11_eq]; rfl)
  | 6 => exact word_read3 c ftab _ _ _ _ (by rw [Gen.k0_off13_eq]; rfl)
  | 7 => exact word_read3 c ftab _ _ _ _ (by rw [Gen.k0_off15_eq]; rfl)
  | ⟨_ + 8, h'⟩ => exact absurd h' (Nat.not_lt.2 (Nat.le_add_left _ _))

theorem rows_eq3 (c : Dev nD) (t : Fin grid3.N) (j : Fin 8) (p : Fin 819200)
    (hp : p.val = 102400 * (3 : Fin 8).val + (8 * t.val + j.val)) :
    rows3 m c t j = (Cert.Hand.Spec.idAt (idsOf m c) p).toNat := by
  unfold rows3
  rw [words_eq3]
  refine congrArg BitVec.toNat (chunk_entry (3 : Fin 8) (idsOf m c) _ p ?_)
  show p.val = 102400 * (3 : Fin 8).val + (8 * ((grid3.coords t) 0).val + j.val)
  rw [coords_val, hp]

/-- Point `t`'s block is block `t` of this call's chunk of the gather. -/
theorem flushed_eq3 (hR : InRange m) (c : Dev nD) (t : Fin grid3.N) :
    (dat3 m hR c).flushed 0 t = (((cfg3 (adm3 m)).win 0).blk t).view.read (Elt F) (Cert.Hand.Spec.gatherChunk 3 (idsOf m c) (arrOf m c)) := by
  show ((cfg3 (adm3 m)).win 0).cut (grid3.coords t) ((dat3 m hR c).after 0 t) = _
  rw [after3]
  funext j
  show gblock (arrOf m c) (rows3 m c t) (rows3_lt m hR c t) (((cfg3 (adm3 m)).win 0).xinj (grid3.coords t) j)
    = Cert.Hand.Spec.gatherChunk 3 (idsOf m c) (arrOf m c) ((((cfg3 (adm3 m)).win 0).blk t).view.emb j)
  refine block_entry (3 : Fin 8) (idsOf m c) (hR c) (arrOf m c) t.val _ _ (rows_eq3 m c t) _ _ ?_ ?_
  · show cc0_transform_1 (grid3.coords t) (0 : Fin 2) * 8 + 1 * (j (0 : Fin 2)).val = 8 * t.val + (j (0 : Fin 2)).val
    rw [tile_row]; omega
  · show cc0_transform_1 (grid3.coords t) (1 : Fin 2) * 64 + 1 * (j (1 : Fin 2)).val = (j (1 : Fin 2)).val
    rw [tile_col]; omega

theorem mem_blk3 (t : Fin grid3.N) (i : S102400x64.Idx) :
    i ∈ (((cfg3 (adm3 m)).win 0).blk t).view.set ↔ ∀ a : Fin 2, ((cfg3 (adm3 m)).win 0).index t a * S8x64.size a ≤ (i a).val ∧ (i a).val < ((cfg3 (adm3 m)).win 0).index t a * S8x64.size a + S8x64.size a :=
  (Finset.ext_iff.mp (View.set_slice_whole main_v13 (((cfg3 (adm3 m)).win 0).rect t)) i).trans Rect.mem_set_unit

theorem arrAt_final3 (hR : InRange m) (c : Dev nD) :
    (dat3 m hR c).arrAt 0 (cfg3 (adm3 m)).N = Cert.Hand.Spec.gatherChunk 3 (idsOf m c) (arrOf m c) :=
  (dat3 m hR c).arrAt_eq_of_cover 0 (Cert.Hand.Spec.gatherChunk 3 (idsOf m c) (arrOf m c)) (fun t _ => flushed_eq3 m hR c t)
    (cover_blocks (fun t i => i ∈ (((cfg3 (adm3 m)).win 0).blk t).view.set) (mem_blk3 m))

end Cert.KernelIdeal.Hand

end
-- ==== Proof.Value4KernelIdeal.lean ====
import proofs.«431176_j64484638982170_2_alg».proof.Proof.Dat4KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read4 (c : Dev nD) (ftab : Bf (F := F) c (Memref.whole main_v15)) (off : Fin 1 → Nat)
    (inb : ∀ a, off a + S1.size a ≤ S102400.size a) (h : 0 < S1.numel) (n : Fin 102400) (hn : off 0 = n.val) :
    (Memref.whole main_v15).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq4 (c : Dev nD) (i : grid4.Coords) (ftab : Bf (F := F) c (Memref.whole main_v15)) (j : Fin 8) :
    words (Memref.whole main_v15) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read4 c ftab _ _ _ _ (by rw [Gen.k0_off1_eq]; rfl)
  | 1 => exact word_read4 c ftab _ _ _ _ (by rw [Gen.k0_off3_eq]; rfl)
  | 2 => exact word_read4 c ftab _ _ _ _ (by rw [Gen.k0_off5_eq]; rfl)
  | 3 => exact word_read4 c ftab _ _ _ _ (by rw [Gen.k0_off7_eq]; rfl)
  | 4 => exact word_read4 c ftab _ _ _ _ (by rw [Gen.k0_off9_eq]; rfl)
  | 5 => exact word_read4 c ftab _ _ _ _ (by rw [Gen.k0_off11_eq]; rfl)
  | 6 => exact word_read4 c ftab _ _ _ _ (by rw [Gen.k0_off13_eq]; rfl)
  | 7 => exact word_read4 c ftab _ _ _ _ (by rw [Gen.k0_off15_eq]; rfl)
  | ⟨_ + 8, h'⟩ => exact absurd h' (Nat.not_lt.2 (Nat.le_add_left _ _))

theorem rows_eq4 (c : Dev nD) (t : Fin grid4.N) (j : Fin 8) (p : Fin 819200)
    (hp : p.val = 102400 * (4 : Fin 8).val + (8 * t.val + j.val)) :
    rows4 m c t j = (Cert.Hand.Spec.idAt (idsOf m c) p).toNat := by
  unfold rows4
  rw [words_eq4]
  refine congrArg BitVec.toNat (chunk_entry (4 : Fin 8) (idsOf m c) _ p ?_)
  show p.val = 102400 * (4 : Fin 8).val + (8 * ((grid4.coords t) 0).val + j.val)
  rw [coords_val, hp]

/-- Point `t`'s block is block `t` of this call's chunk of the gather. -/
theorem flushed_eq4 (hR : InRange m) (c : Dev nD) (t : Fin grid4.N) :
    (dat4 m hR c).flushed 0 t = (((cfg4 (adm4 m)).win 0).blk t).view.read (Elt F) (Cert.Hand.Spec.gatherChunk 4 (idsOf m c) (arrOf m c)) := by
  show ((cfg4 (adm4 m)).win 0).cut (grid4.coords t) ((dat4 m hR c).after 0 t) = _
  rw [after4]
  funext j
  show gblock (arrOf m c) (rows4 m c t) (rows4_lt m hR c t) (((cfg4 (adm4 m)).win 0).xinj (grid4.coords t) j)
    = Cert.Hand.Spec.gatherChunk 4 (idsOf m c) (arrOf m c) ((((cfg4 (adm4 m)).win 0).blk t).view.emb j)
  refine block_entry (4 : Fin 8) (idsOf m c) (hR c) (arrOf m c) t.val _ _ (rows_eq4 m c t) _ _ ?_ ?_
  · show cc0_transform_1 (grid4.coords t) (0 : Fin 2) * 8 + 1 * (j (0 : Fin 2)).val = 8 * t.val + (j (0 : Fin 2)).val
    rw [tile_row]; omega
  · show cc0_transform_1 (grid4.coords t) (1 : Fin 2) * 64 + 1 * (j (1 : Fin 2)).val = (j (1 : Fin 2)).val
    rw [tile_col]; omega

theorem mem_blk4 (t : Fin grid4.N) (i : S102400x64.Idx) :
    i ∈ (((cfg4 (adm4 m)).win 0).blk t).view.set ↔ ∀ a : Fin 2, ((cfg4 (adm4 m)).win 0).index t a * S8x64.size a ≤ (i a).val ∧ (i a).val < ((cfg4 (adm4 m)).win 0).index t a * S8x64.size a + S8x64.size a :=
  (Finset.ext_iff.mp (View.set_slice_whole main_v16 (((cfg4 (adm4 m)).win 0).rect t)) i).trans Rect.mem_set_unit

theorem arrAt_final4 (hR : InRange m) (c : Dev nD) :
    (dat4 m hR c).arrAt 0 (cfg4 (adm4 m)).N = Cert.Hand.Spec.gatherChunk 4 (idsOf m c) (arrOf m c) :=
  (dat4 m hR c).arrAt_eq_of_cover 0 (Cert.Hand.Spec.gatherChunk 4 (idsOf m c) (arrOf m c)) (fun t _ => flushed_eq4 m hR c t)
    (cover_blocks (fun t i => i ∈ (((cfg4 (adm4 m)).win 0).blk t).view.set) (mem_blk4 m))

end Cert.KernelIdeal.Hand

end
-- ==== Proof.Value5KernelIdeal.lean ====
import proofs.«431176_j64484638982170_2_alg».proof.Proof.Dat5KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read5 (c : Dev nD) (ftab : Bf (F := F) c (Memref.whole main_v18)) (off : Fin 1 → Nat)
    (inb : ∀ a, off a + S1.size a ≤ S102400.size a) (h : 0 < S1.numel) (n : Fin 102400) (hn : off 0 = n.val) :
    (Memref.whole main_v18).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq5 (c : Dev nD) (i : grid5.Coords) (ftab : Bf (F := F) c (Memref.whole main_v18)) (j : Fin 8) :
    words (Memref.whole main_v18) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read5 c ftab _ _ _ _ (by rw [Gen.k0_off1_eq]; rfl)
  | 1 => exact word_read5 c ftab _ _ _ _ (by rw [Gen.k0_off3_eq]; rfl)
  | 2 => exact word_read5 c ftab _ _ _ _ (by rw [Gen.k0_off5_eq]; rfl)
  | 3 => exact word_read5 c ftab _ _ _ _ (by rw [Gen.k0_off7_eq]; rfl)
  | 4 => exact word_read5 c ftab _ _ _ _ (by rw [Gen.k0_off9_eq]; rfl)
  | 5 => exact word_read5 c ftab _ _ _ _ (by rw [Gen.k0_off11_eq]; rfl)
  | 6 => exact word_read5 c ftab _ _ _ _ (by rw [Gen.k0_off13_eq]; rfl)
  | 7 => exact word_read5 c ftab _ _ _ _ (by rw [Gen.k0_off15_eq]; rfl)
  | ⟨_ + 8, h'⟩ => exact absurd h' (Nat.not_lt.2 (Nat.le_add_left _ _))

theorem rows_eq5 (c : Dev nD) (t : Fin grid5.N) (j : Fin 8) (p : Fin 819200)
    (hp : p.val = 102400 * (5 : Fin 8).val + (8 * t.val + j.val)) :
    rows5 m c t j = (Cert.Hand.Spec.idAt (idsOf m c) p).toNat := by
  unfold rows5
  rw [words_eq5]
  refine congrArg BitVec.toNat (chunk_entry (5 : Fin 8) (idsOf m c) _ p ?_)
  show p.val = 102400 * (5 : Fin 8).val + (8 * ((grid5.coords t) 0).val + j.val)
  rw [coords_val, hp]

/-- Point `t`'s block is block `t` of this call's chunk of the gather. -/
theorem flushed_eq5 (hR : InRange m) (c : Dev nD) (t : Fin grid5.N) :
    (dat5 m hR c).flushed 0 t = (((cfg5 (adm5 m)).win 0).blk t).view.read (Elt F) (Cert.Hand.Spec.gatherChunk 5 (idsOf m c) (arrOf m c)) := by
  show ((cfg5 (adm5 m)).win 0).cut (grid5.coords t) ((dat5 m hR c).after 0 t) = _
  rw [after5]
  funext j
  show gblock (arrOf m c) (rows5 m c t) (rows5_lt m hR c t) (((cfg5 (adm5 m)).win 0).xinj (grid5.coords t) j)
    = Cert.Hand.Spec.gatherChunk 5 (idsOf m c) (arrOf m c) ((((cfg5 (adm5 m)).win 0).blk t).view.emb j)
  refine block_entry (5 : Fin 8) (idsOf m c) (hR c) (arrOf m c) t.val _ _ (rows_eq5 m c t) _ _ ?_ ?_
  · show cc0_transform_1 (grid5.coords t) (0 : Fin 2) * 8 + 1 * (j (0 : Fin 2)).val = 8 * t.val + (j (0 : Fin 2)).val
    rw [tile_row]; omega
  · show cc0_transform_1 (grid5.coords t) (1 : Fin 2) * 64 + 1 * (j (1 : Fin 2)).val = (j (1 : Fin 2)).val
    rw [tile_col]; omega

theorem mem_blk5 (t : Fin grid5.N) (i : S102400x64.Idx) :
    i ∈ (((cfg5 (adm5 m)).win 0).blk t).view.set ↔ ∀ a : Fin 2, ((cfg5 (adm5 m)).win 0).index t a * S8x64.size a ≤ (i a).val ∧ (i a).val < ((cfg5 (adm5 m)).win 0).index t a * S8x64.size a + S8x64.size a :=
  (Finset.ext_iff.mp (View.set_slice_whole main_v19 (((cfg5 (adm5 m)).win 0).rect t)) i).trans Rect.mem_set_unit

theorem arrAt_final5 (hR : InRange m) (c : Dev nD) :
    (dat5 m hR c).arrAt 0 (cfg5 (adm5 m)).N = Cert.Hand.Spec.gatherChunk 5 (idsOf m c) (arrOf m c) :=
  (dat5 m hR c).arrAt_eq_of_cover 0 (Cert.Hand.Spec.gatherChunk 5 (idsOf m c) (arrOf m c)) (fun t _ => flushed_eq5 m hR c t)
    (cover_blocks (fun t i => i ∈ (((cfg5 (adm5 m)).win 0).blk t).view.set) (mem_blk5 m))

end Cert.KernelIdeal.Hand

end
-- ==== Proof.Value6KernelIdeal.lean ====
import proofs.«431176_j64484638982170_2_alg».proof.Proof.Dat6KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read6 (c : Dev nD) (ftab : Bf (F := F) c (Memref.whole main_v21)) (off : Fin 1 → Nat)
    (inb : ∀ a, off a + S1.size a ≤ S102400.size a) (h : 0 < S1.numel) (n : Fin 102400) (hn : off 0 = n.val) :
    (Memref.whole main_v21).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq6 (c : Dev nD) (i : grid6.Coords) (ftab : Bf (F := F) c (Memref.whole main_v21)) (j : Fin 8) :
    words (Memref.whole main_v21) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read6 c ftab _ _ _ _ (by rw [Gen.k0_off1_eq]; rfl)
  | 1 => exact word_read6 c ftab _ _ _ _ (by rw [Gen.k0_off3_eq]; rfl)
  | 2 => exact word_read6 c ftab _ _ _ _ (by rw [Gen.k0_off5_eq]; rfl)
  | 3 => exact word_read6 c ftab _ _ _ _ (by rw [Gen.k0_off7_eq]; rfl)
  | 4 => exact word_read6 c ftab _ _ _ _ (by rw [Gen.k0_off9_eq]; rfl)
  | 5 => exact word_read6 c ftab _ _ _ _ (by rw [Gen.k0_off11_eq]; rfl)
  | 6 => exact word_read6 c ftab _ _ _ _ (by rw [Gen.k0_off13_eq]; rfl)
  | 7 => exact word_read6 c ftab _ _ _ _ (by rw [Gen.k0_off15_eq]; rfl)
  | ⟨_ + 8, h'⟩ => exact absurd h' (Nat.not_lt.2 (Nat.le_add_left _ _))

theorem rows_eq6 (c : Dev nD) (t : Fin grid6.N) (j : Fin 8) (p : Fin 819200)
    (hp : p.val = 102400 * (6 : Fin 8).val + (8 * t.val + j.val)) :
    rows6 m c t j = (Cert.Hand.Spec.idAt (idsOf m c) p).toNat := by
  unfold rows6
  rw [words_eq6]
  refine congrArg BitVec.toNat (chunk_entry (6 : Fin 8) (idsOf m c) _ p ?_)
  show p.val = 102400 * (6 : Fin 8).val + (8 * ((grid6.coords t) 0).val + j.val)
  rw [coords_val, hp]

/-- Point `t`'s block is block `t` of this call's chunk of the gather. -/
theorem flushed_eq6 (hR : InRange m) (c : Dev nD) (t : Fin grid6.N) :
    (dat6 m hR c).flushed 0 t = (((cfg6 (adm6 m)).win 0).blk t).view.read (Elt F) (Cert.Hand.Spec.gatherChunk 6 (idsOf m c) (arrOf m c)) := by
  show ((cfg6 (adm6 m)).win 0).cut (grid6.coords t) ((dat6 m hR c).after 0 t) = _
  rw [after6]
  funext j
  show gblock (arrOf m c) (rows6 m c t) (rows6_lt m hR c t) (((cfg6 (adm6 m)).win 0).xinj (grid6.coords t) j)
    = Cert.Hand.Spec.gatherChunk 6 (idsOf m c) (arrOf m c) ((((cfg6 (adm6 m)).win 0).blk t).view.emb j)
  refine block_entry (6 : Fin 8) (idsOf m c) (hR c) (arrOf m c) t.val _ _ (rows_eq6 m c t) _ _ ?_ ?_
  · show cc0_transform_1 (grid6.coords t) (0 : Fin 2) * 8 + 1 * (j (0 : Fin 2)).val = 8 * t.val + (j (0 : Fin 2)).val
    rw [tile_row]; omega
  · show cc0_transform_1 (grid6.coords t) (1 : Fin 2) * 64 + 1 * (j (1 : Fin 2)).val = (j (1 : Fin 2)).val
    rw [tile_col]; omega

theorem mem_blk6 (t : Fin grid6.N) (i : S102400x64.Idx) :
    i ∈ (((cfg6 (adm6 m)).win 0).blk t).view.set ↔ ∀ a : Fin 2, ((cfg6 (adm6 m)).win 0).index t a * S8x64.size a ≤ (i a).val ∧ (i a).val < ((cfg6 (adm6 m)).win 0).index t a * S8x64.size a + S8x64.size a :=
  (Finset.ext_iff.mp (View.set_slice_whole main_v22 (((cfg6 (adm6 m)).win 0).rect t)) i).trans Rect.mem_set_unit

theorem arrAt_final6 (hR : InRange m) (c : Dev nD) :
    (dat6 m hR c).arrAt 0 (cfg6 (adm6 m)).N = Cert.Hand.Spec.gatherChunk 6 (idsOf m c) (arrOf m c) :=
  (dat6 m hR c).arrAt_eq_of_cover 0 (Cert.Hand.Spec.gatherChunk 6 (idsOf m c) (arrOf m c)) (fun t _ => flushed_eq6 m hR c t)
    (cover_blocks (fun t i => i ∈ (((cfg6 (adm6 m)).win 0).blk t).view.set) (mem_blk6 m))

end Cert.KernelIdeal.Hand

end
-- ==== Proof.Value7KernelIdeal.lean ====
import proofs.«431176_j64484638982170_2_alg».proof.Proof.Dat7KernelIdeal
import proofs.«431176_j64484638982170_2_alg».proof.Proof.BlocksKernelIdeal
import Idealize.ShloMosaic.Lib.Pipeline.Value

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)

theorem word_read7 (c : Dev nD) (ftab : Bf (F := F) c (Memref.whole main_v24)) (off : Fin 1 → Nat)
    (inb : ∀ a, off a + S1.size a ≤ S102400.size a) (h : 0 < S1.numel) (n : Fin 102400) (hn : off 0 = n.val) :
    (Memref.whole main_v24).view.readAt (Elt F) (Rect.unit (s := S102400) off S1.size inb).toLoadRect ftab (Shape.Idx.first h)
      = (ftab : S102400.Idx → Elt F .i32) (ValueIdx.ix1 n) := by
  rw [View.readAt_apply, View.read_apply]
  show (ftab : S102400.Idx → Elt F .i32) _ = _
  congr 1
  funext a
  apply Fin.ext
  match a with
  | ⟨0, _⟩ =>
    show off 0 + 1 * 0 = n.val
    rw [hn]
    rfl

theorem words_eq7 (c : Dev nD) (i : grid7.Coords) (ftab : Bf (F := F) c (Memref.whole main_v24)) (j : Fin 8) :
    words (Memref.whole main_v24) c i ftab j = (ftab : S102400.Idx → Elt F .i32) (ValueIdx.ix1 (⟨8 * (i 0).val + j.val, by have h : (i 0).val < 12800 := (i 0).isLt; have := j.isLt; omega⟩ : Fin 102400)) := by
  match j with
  | 0 => exact word_read7 c ftab _ _ _ _ (by rw [Gen.k0_off1_eq]; rfl)
  | 1 => exact word_read7 c ftab _ _ _ _ (by rw [Gen.k0_off3_eq]; rfl)
  | 2 => exact word_read7 c ftab _ _ _ _ (by rw [Gen.k0_off5_eq]; rfl)
  | 3 => exact word_read7 c ftab _ _ _ _ (by rw [Gen.k0_off7_eq]; rfl)
  | 4 => exact word_read7 c ftab _ _ _ _ (by rw [Gen.k0_off9_eq]; rfl)
  | 5 => exact word_read7 c ftab _ _ _ _ (by rw [Gen.k0_off11_eq]; rfl)
  | 6 => exact word_read7 c ftab _ _ _ _ (by rw [Gen.k0_off13_eq]; rfl)
  | 7 => exact word_read7 c ftab _ _ _ _ (by rw [Gen.k0_off15_eq]; rfl)
  | ⟨_ + 8, h'⟩ => exact absurd h' (Nat.not_lt.2 (Nat.le_add_left _ _))

theorem rows_eq7 (c : Dev nD) (t : Fin grid7.N) (j : Fin 8) (p : Fin 819200)
    (hp : p.val = 102400 * (7 : Fin 8).val + (8 * t.val + j.val)) :
    rows7 m c t j = (Cert.Hand.Spec.idAt (idsOf m c) p).toNat := by
  unfold rows7
  rw [words_eq7]
  refine congrArg BitVec.toNat (chunk_entry (7 : Fin 8) (idsOf m c) _ p ?_)
  show p.val = 102400 * (7 : Fin 8).val + (8 * ((grid7.coords t) 0).val + j.val)
  rw [coords_val, hp]

/-- Point `t`'s block is block `t` of this call's chunk of the gather. -/
theorem flushed_eq7 (hR : InRange m) (c : Dev nD) (t : Fin grid7.N) :
    (dat7 m hR c).flushed 0 t = (((cfg7 (adm7 m)).win 0).blk t).view.read (Elt F) (Cert.Hand.Spec.gatherChunk 7 (idsOf m c) (arrOf m c)) := by
  show ((cfg7 (adm7 m)).win 0).cut (grid7.coords t) ((dat7 m hR c).after 0 t) = _
  rw [after7]
  funext j
  show gblock (arrOf m c) (rows7 m c t) (rows7_lt m hR c t) (((cfg7 (adm7 m)).win 0).xinj (grid7.coords t) j)
    = Cert.Hand.Spec.gatherChunk 7 (idsOf m c) (arrOf m c) ((((cfg7 (adm7 m)).win 0).blk t).view.emb j)
  refine block_entry (7 : Fin 8) (idsOf m c) (hR c) (arrOf m c) t.val _ _ (rows_eq7 m c t) _ _ ?_ ?_
  · show cc0_transform_1 (grid7.coords t) (0 : Fin 2) * 8 + 1 * (j (0 : Fin 2)).val = 8 * t.val + (j (0 : Fin 2)).val
    rw [tile_row]; omega
  · show cc0_transform_1 (grid7.coords t) (1 : Fin 2) * 64 + 1 * (j (1 : Fin 2)).val = (j (1 : Fin 2)).val
    rw [tile_col]; omega

theorem mem_blk7 (t : Fin grid7.N) (i : S102400x64.Idx) :
    i ∈ (((cfg7 (adm7 m)).win 0).blk t).view.set ↔ ∀ a : Fin 2, ((cfg7 (adm7 m)).win 0).index t a * S8x64.size a ≤ (i a).val ∧ (i a).val < ((cfg7 (adm7 m)).win 0).index t a * S8x64.size a + S8x64.size a :=
  (Finset.ext_iff.mp (View.set_slice_whole main_v25 (((cfg7 (adm7 m)).win 0).rect t)) i).trans Rect.mem_set_unit

theorem arrAt_final7 (hR : InRange m) (c : Dev nD) :
    (dat7 m hR c).arrAt 0 (cfg7 (adm7 m)).N = Cert.Hand.Spec.gatherChunk 7 (idsOf m c) (arrOf m c) :=
  (dat7 m hR c).arrAt_eq_of_cover 0 (Cert.Hand.Spec.gatherChunk 7 (idsOf m c) (arrOf m c)) (fun t _ => flushed_eq7 m hR c t)
    (cover_blocks (fun t i => i ∈ (((cfg7 (adm7 m)).win 0).blk t).view.set) (mem_blk7 m))

end Cert.KernelIdeal.Hand

end
-- ==== Proof.ResultKernelIdeal.lean ====
import proofs.«431176_j64484638982170_2_alg».proof.Proof.FamilyKernelIdeal
import proofs.«431176_j64484638982170_2_alg».proof.Proof.FinalKernelIdeal
import proofs.«431176_j64484638982170_2_alg».proof.Proof.Value0KernelIdeal
import proofs.«431176_j64484638982170_2_alg».proof.Proof.Value1KernelIdeal
import proofs.«431176_j64484638982170_2_alg».proof.Proof.Value2KernelIdeal
import proofs.«431176_j64484638982170_2_alg».proof.Proof.Value3KernelIdeal
import proofs.«431176_j64484638982170_2_alg».proof.Proof.Value4KernelIdeal
import proofs.«431176_j64484638982170_2_alg».proof.Proof.Value5KernelIdeal
import proofs.«431176_j64484638982170_2_alg».proof.Proof.Value6KernelIdeal
import proofs.«431176_j64484638982170_2_alg».proof.Proof.Value7KernelIdeal

noncomputable section

namespace Cert.KernelIdeal.Hand

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Pipeline (Dat BodyObligation)
variable {F : FTy → Type} [FloatOps F]

local notation "𝕄" => MT nD τ sig Unit (Elt F) ℕ (UU nD τ) ℕ

variable (m : (ℓ : Loc nD τ sig) → Buf (Elt F) ℓ) (hR : InRange m)

theorem result_eq (c : Dev nD) : Gen.V17 m (outs m hR) c main_v26 = Cert.Hand.Spec.gather (idsOf m c) (arrOf m c) :=
  final_eq m (outs m hR) c
    ((outs_at0 m hR c).trans (arrAt_final0 m hR c))
    ((outs_at1 m hR c).trans (arrAt_final1 m hR c))
    ((outs_at2 m hR c).trans (arrAt_final2 m hR c))
    ((outs_at3 m hR c).trans (arrAt_final3 m hR c))
    ((outs_at4 m hR c).trans (arrAt_final4 m hR c))
    ((outs_at5 m hR c).trans (arrAt_final5 m hR c))
    ((outs_at6 m hR c).trans (arrAt_final6 m hR c))
    ((outs_at7 m hR c).trans (arrAt_final7 m hR c))

end Cert.KernelIdeal.Hand

end
-- ==== Proof.RefTerm.lean ====
import proofs.«431176_j64484638982170_2_alg».proof.Proof.Gen.ReferenceIdeal
import Idealize.ShloMosaic.PureOps.Ideal

noncomputable section

namespace Cert.ReferenceIdeal.Hand

open Cert.ReferenceIdeal Cert.ReferenceIdeal.Gen Idealize.ShloMosaic

def flatIds (ids : IVec S16384x50 32) : IVec S819200 32 :=
  shapeCast S819200 ids shapeCasts_S16384x50_S819200

def wrapped (ids : IVec S16384x50 32) : IVec S819200 32 :=
  select (cmpi .slt (flatIds ids) (broadcastInDim S819200 ![] bcast_S_S819200 (constantI S_ 32 0#32)))
    (addi (flatIds ids) (broadcastInDim S819200 ![] bcast_S_S819200 (constantI S_ 32 1000000#32)))
    (flatIds ids)

def startCol (ids : IVec S16384x50 32) : IVec S819200x1 32 :=
  broadcastInDim S819200x1 ![0] bcast_S819200_S819200x1_0 (wrapped ids)

def inRange (ids : IVec S16384x50 32) : IVec S819200 1 :=
  Host.reduce IntOp.andi
    (andi (cmpi .sge (startCol ids) (broadcastInDim S819200x1 ![] bcast_S_S819200x1 (constantI S_ 32 0#32)))
      (cmpi .sle (startCol ids)
        (broadcastInDim S819200x1 ![0, 1] bcast_S1x1_S819200x1_0_1
          (broadcastInDim S1x1 ![1] bcast_S1_S1x1_1 (constantI S1 32 999999#32)))))
    (constantI S_ 1 1#1) reducesTo_S819200x1_S819200_d1 h_S_

def refTerm (ids : IVec Cert.ReferenceIdeal.S16384x50 32) (table : FVec Ideal Cert.ReferenceIdeal.S1000000x64 .f32) :
    FVec Ideal Cert.ReferenceIdeal.S819200x64 .f32 :=
  select (broadcastInDim S819200x64 ![0] bcast_S819200_S819200x64_0 (inRange ids))
    (Host.gather gather_S1000000x64_S819200x1_S819200x64_1_0_n_n_0_1_164 table (startCol ids))
    (broadcastInDim S819200x64 ![] bcast_S_S819200x64 (constant (F := Ideal) S_ .f32 0x7FC00000#32))

end Cert.ReferenceIdeal.Hand

end
-- ==== Proof.LibHostCalls.lean ====
import Idealize.ShloMosaic.Lib.StableHlo.Run

noncomputable section

namespace HostCalls

open Idealize.ShloMosaic Idealize.ShloMosaic.StableHlo

theorem cast_round {A B : Type} (h1 : A = B) (h2 : B = A) (v : A) : cast h2 (cast h1 v) = v := by
  subst h1; rfl

end HostCalls

end
-- ==== Proof.RefRun.lean ====
import proofs.«431176_j64484638982170_2_alg».proof.Proof.RefTerm
import proofs.«431176_j64484638982170_2_alg».proof.Proof.LibHostCalls
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

abbrev ops : List (HloOp τ sig (Elt Ideal)) :=
  [ reshape main_arg0 main_v0 rfl shapeCasts_S16384x50_S819200,
    TRef.nullary main_call0.c (constantI S_ 32 0#32),
    TRef.unary main_call0.c main_call0.v0 (broadcastInDim S819200 ![] bcast_S_S819200),
    TRef.binary (.of main_v0) main_call0.v0 main_call0.v1 (cmpi .slt),
    TRef.nullary main_call0.c_0 (constantI S_ 32 1000000#32),
    TRef.unary main_call0.c_0 main_call0.v2 (broadcastInDim S819200 ![] bcast_S_S819200),
    TRef.binary (.of main_v0) main_call0.v2 main_call0.v3 addi,
    TRef.ternary main_call0.v1 main_call0.v3 (.of main_v0) main_call0.call0.v0 select,
    TRef.unary main_call0.call0.v0 main_call0.v5 (broadcastInDim S819200x1 ![0] bcast_S819200_S819200x1_0),
    TRef.nullary main_call0.c_1 (constantI S1 32 999999#32),
    TRef.nullary main_call0.c_2 (constantI S_ 32 0#32),
    TRef.unary main_call0.c_2 main_call0.v6 (broadcastInDim S819200x1 ![] bcast_S_S819200x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S819200x1 ![0, 1] bcast_S1x1_S819200x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S819200x1_S819200_d1 h_S_),
    TRef.binary (.of main_arg1) main_call0.v5 main_call0.v13 (fun x i => Host.gather gather_S1000000x64_S819200x1_S819200x64_1_0_n_n_0_1_164 x i),
    TRef.unary main_call0.v12 main_call0.v14 (broadcastInDim S819200x64 ![0] bcast_S819200_S819200x64_0),
    TRef.nullary main_call0.cst (constant (F := Ideal) S_ .f32 0x7FC00000#32),
    TRef.unary main_call0.cst main_call0.v15 (broadcastInDim S819200x64 ![] bcast_S_S819200x64),
    TRef.ternary main_call0.v14 main_call0.v13 main_call0.v15 main_call0.v16 select ]

set_option maxRecDepth 1024 in
theorem main_eq (c : Dev nD) : main (F := Ideal) c = seq ops := by
  simp only [main, fn_take.body, fn_where.body, seq, bind_assoc, pure_bind]

attribute [local irreducible] Host.reduce Host.gather in
theorem out_eq (V : Valuation τ sig (Elt Ideal)) :
    after ops V (main_v1 : DevRef τ sig) = refTerm (V (main_arg0 : DevRef τ sig)) (V (main_arg1 : DevRef τ sig)) := by
  after_results_simp
  simp only [TRef.toBuf, TRef.ofBuf, HostCalls.cast_round]
  refine eq_of_heq ((cast_heq _ _).trans (heq_of_eq ?_))
  rfl

theorem arg0_eq (V : Valuation τ sig (Elt Ideal)) : after ops V (main_arg0 : DevRef τ sig) = V (main_arg0 : DevRef τ sig) := by
  simp only [after_cons, after_nil]
  rfl

theorem arg1_eq (V : Valuation τ sig (Elt Ideal)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v1) = refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.Hand

end
-- ==== Proof.LibGather.lean ====
import Idealize.ShloMosaic.PureOps.ShapeOps
import Idealize.ShloMosaic.Lib.ValueIdx

namespace Idealize.ShloMosaic.RowGather

open Idealize.ShloMosaic Idealize.ShloMosaic.ValueIdx

theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.RefValue.lean ====
import proofs.«431176_j64484638982170_2_alg».proof.Proof.RefTerm
import proofs.«431176_j64484638982170_2_alg».proof.Proof.Spec
import proofs.«431176_j64484638982170_2_alg».proof.Proof.LibGather
import Idealize.ShloMosaic.Lib.StableHlo.Predicate
import Idealize.ShloMosaic.Lib.Pipeline.Value

noncomputable section

namespace Cert.ReferenceIdeal.Hand

open Cert.ReferenceIdeal Cert.ReferenceIdeal.Gen Idealize.ShloMosaic Idealize.ShloMosaic.ValueIdx
open Idealize.ShloMosaic.StableHlo.Predicate

theorem fold_andi_ones {ι : Type} (S : Finset ι) (x : ι → BitVec 1) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih (fun i hi => hx i (Finset.mem_cons_of_mem hi))]
    rfl

theorem slt_zero_of_lt (w : BitVec 32) (h : w.toNat < 1000000) : IntOp.cmpi .slt w 0#32 = 0#1 :=
  eq_zero_of_ne_one fun h1 => by
    have := (slt_iff_toNat (a := w) (b := 0#32) (by omega) (by decide)).mp h1
    simp at this

section
variable (ids : IVec S16384x50 32)

theorem flatIds_apply (q : Fin 819200) : flatIds ids (ix1 q) = Cert.Hand.Spec.idAt ids q := by
  unfold flatIds Cert.Hand.Spec.idAt
  refine shapeCast_apply ids _ (ix1 q) _ ?_
  rw [Shape.rowMajor_val_two, Shape.rowMajor_val_one]
  show q.val / 50 * 50 + q.val % 50 = q.val
  omega

variable (hids : ∀ x : S16384x50.Idx, (ids x).toNat < 1000000)
include hids

theorem idAt_lt (q : Fin 819200) : (Cert.Hand.Spec.idAt ids q).toNat < 1000000 := hids _

theorem wrapped_apply (q : Fin 819200) : wrapped ids (ix1 q) = Cert.Hand.Spec.idAt ids q := by
  unfold wrapped
  rw [select_apply]
  have hc : cmpi .slt (flatIds ids) (broadcastInDim S819200 ![] bcast_S_S819200 (constantI S_ 32 0#32)) (ix1 q) = 0#1 := by
    show IntOp.cmpi .slt (flatIds ids (ix1 q)) 0#32 = 0#1
    rw [flatIds_apply]
    exact slt_zero_of_lt _ (idAt_lt ids hids q)
  rw [hc, select_zero, flatIds_apply]

theorem startCol_apply (q : Fin 819200) : startCol ids (ix2 q (0 : Fin 1)) = Cert.Hand.Spec.idAt ids q := by
  unfold startCol
  rw [broadcastInDim_apply ![0] bcast_S819200_S819200x1_0 (wrapped ids) (ix2 q (0 : Fin 1)) (ix1 q)
    (fun a => by obtain rfl : a = 0 := Subsingleton.elim _ _; rfl)]
  exact wrapped_apply ids hids q

theorem inRange_apply (j : S819200.Idx) : inRange ids j = 1#1 := by
  unfold inRange
  rw [Host.reduce_eq_fold]
  refine fold_andi_ones _ _ fun i _ => ?_
  obtain ⟨p, z, rfl⟩ : ∃ p z, i = ix2 p z := ⟨i 0, i 1, eq_ix2 i⟩
  obtain rfl : z = 0 := Subsingleton.elim _ _
  show IntOp.andi (IntOp.cmpi .sge (startCol ids (ix2 p (0 : Fin 1))) 0#32) (IntOp.cmpi .sle (startCol ids (ix2 p (0 : Fin 1))) 999999#32) = 1#1
  have hlt := idAt_lt ids hids p
  rw [startCol_apply ids hids, (sge_iff_toNat (by omega) (by decide)).mpr (Nat.zero_le _),
    (sle_iff_toNat (a := Cert.Hand.Spec.idAt ids p) (b := 999999#32) (by omega) (by decide)).mpr (by
      show (Cert.Hand.Spec.idAt ids p).toNat ≤ 999999; omega)]
  rfl

end

theorem refTerm_eq (ids : IVec Cert.ReferenceIdeal.S16384x50 32) (table : FVec Ideal Cert.ReferenceIdeal.S1000000x64 .f32)
    (hids : ∀ x : Cert.ReferenceIdeal.S16384x50.Idx, (ids x).toNat < 1000000) :
    refTerm ids table = Cert.Hand.Spec.gather ids table := by
  funext y
  obtain ⟨p, k, rfl⟩ : ∃ p k, y = ix2 p k := ⟨y 0, y 1, eq_ix2 y⟩
  have hlt := idAt_lt ids hids p
  unfold refTerm
  rw [select_apply]
  have hm : broadcastInDim S819200x64 ![0] bcast_S819200_S819200x64_0 (inRange ids) (ix2 p k) = 1#1 :=
    inRange_apply ids hids _
  rw [hm, select_one,
    RowGather.gather_rows gather_S1000000x64_S819200x1_S819200x64_1_0_n_n_0_1_164 rfl rfl rfl rfl rfl (startCol ids) p k table
      (by decide),
    Cert.Hand.Spec.gather_apply]
  refine congrArg (fun r : Fin 1000000 => table (ix2 r k)) (Fin.ext ?_)
  show min (startCol ids (ix2 p (0 : Fin 1))).toInt.toNat (1000000 - 1) = (Cert.Hand.Spec.rowOf (Cert.Hand.Spec.idAt ids p)).val
  rw [startCol_apply ids hids, Cert.Hand.Spec.rowOf_val_of_lt _ hlt, toInt_eq_toNat_of_lt (by omega), Int.toNat_natCast]
  omega

end Cert.ReferenceIdeal.Hand

end
-- ==== Proof.lean ====
import proofs.«431176_j64484638982170_2_alg».proof.Defs
import proofs.«431176_j64484638982170_2_alg».proof.Proof.Gen.Kernel
import proofs.«431176_j64484638982170_2_alg».proof.Proof.Gen.KernelIdeal
import proofs.«431176_j64484638982170_2_alg».proof.Proof.Gen.ReferenceIdeal
import proofs.«431176_j64484638982170_2_alg».proof.Proof.Gen.Pre_finite_inputs
import proofs.«431176_j64484638982170_2_alg».proof.Proof.PreRange
import proofs.«431176_j64484638982170_2_alg».proof.Proof.LaunchKernel
import proofs.«431176_j64484638982170_2_alg».proof.Proof.LaunchKernelIdeal
import proofs.«431176_j64484638982170_2_alg».proof.Proof.ValueRunKernelIdeal
import proofs.«431176_j64484638982170_2_alg».proof.Proof.ResultKernelIdeal
import proofs.«431176_j64484638982170_2_alg».proof.Proof.RefRun
import proofs.«431176_j64484638982170_2_alg».proof.Proof.RefValue

noncomputable section

namespace Cert.Proof

open Idealize.ShloMosaic Idealize.SL.Sem

theorem inRange_kernel (m : (ℓ : Loc Cert.Kernel.nD Cert.Kernel.τ Cert.Kernel.sig) → Buf (Elt Bits) ℓ) (h : Cert.Pre_Kernel m) :
    Cert.Kernel.Hand.InRange m := fun c x => Cert.Hand.PreRange.ids_lt _ _ (h c) x
theorem inRange_ideal (m : (ℓ : Loc Cert.KernelIdeal.nD Cert.KernelIdeal.τ Cert.KernelIdeal.sig) → Buf (Elt Ideal) ℓ) (h : Cert.Pre_KernelIdeal m) :
    Cert.KernelIdeal.Hand.InRange m := fun c x => Cert.Hand.PreRange.ids_lt _ _ (h c) x

theorem frame_k : Cert.frame_Kernel := fun m g h => Cert.Kernel.Hand.frame_run m (inRange_kernel m h) g
theorem frame_ki : Cert.frame_KernelIdeal := fun m g h => Cert.KernelIdeal.Hand.frame_run m (inRange_ideal m h) g
theorem frame_ri : Cert.frame_ReferenceIdeal := fun m g _ =>
  (θ_run Cert.ReferenceIdeal.defs _ _).mono (fun _ h c => (h c).2) (Cert.ReferenceIdeal.Hand.run m g)

/-- Both programs end at the gather of the arguments. -/
theorem algebraic : Cert.algebraic_KernelIdeal_ReferenceIdeal := by
  intro m g m' g' hpre hagree
  have hR := inRange_ideal m hpre
  refine ⟨fun c => Cert.Hand.Spec.gather (m ((c.tc : Thread _ _).loc Cert.KernelIdeal.main_arg0)) (m ((c.tc : Thread _ _).loc Cert.KernelIdeal.main_arg1)), ?_, ?_⟩
  · refine (θ_run Cert.KernelIdeal.defs _ _).mono (fun _ h c => ⟨(h c).1.trans ?_, (h c).2⟩) (Cert.KernelIdeal.Hand.value_run m hR g)
    exact Cert.KernelIdeal.Hand.result_eq m hR c
  · refine (θ_run Cert.ReferenceIdeal.defs _ _).mono (fun _ h c => ⟨(h c).1.trans ?_, (h c).2⟩) (Cert.ReferenceIdeal.Hand.run m' g')
    rw [(hagree c).1, (hagree c).2]
    exact Cert.ReferenceIdeal.Hand.refTerm_eq _ _ (hR c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
